-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S3x128x128 : Shape := ⟨3, ![3, 128, 128]⟩
abbrev S3x128 : Shape := ⟨2, ![3, 128]⟩
abbrev S3x256x128 : Shape := ⟨3, ![3, 256, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x800000 32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x2 .f32 := Host.absf main_arg16
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg1 main_v79
  let main_c_31 : IVec S_ 32 := constantI S_ 32 50000#32
  let main_v81 : IVec S2x800000 32 := broadcastInDim S2x800000 ![] bcast_S_S2x800000 main_c_31
  let main_v82 : IVec S2x800000 1 := cmpi .slt main_arg1 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg1 : IVec S2x800000 32) (main_arg13 : FVec F S128 .f32) (main_arg14 : FVec F S128x64 .f32) (main_arg15 : FVec F S64 .f32) (main_arg16 : FVec F S64x2 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg16 main_arg17 main_v63 main_v67

def fn_part2 {F : FTy → Type} [FloatOps F] (main_arg1 : IVec S2x800000 32) (main_arg9 : FVec F S3x128 .f32) (main_arg10 : FVec F S3x128 .f32) (main_arg11 : FVec F S3x128 .f32) (main_arg12 : FVec F S128x128 .f32) (main_arg13 : FVec F S128 .f32) (main_arg14 : FVec F S128x64 .f32) (main_arg15 : FVec F S64 .f32) (main_arg16 : FVec F S64x2 .f32) (main_arg17 : FVec F S2 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg1 main_arg13 main_arg14 main_arg15 main_arg16 main_arg17 main_v48 main_v49 main_v50

def fn_part1 {F : FTy → Type} [FloatOps F] (main_arg1 : IVec S2x800000 32) (main_arg6 : FVec F S3x256x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S128x128 .f32) (main_arg13 : FVec F S128 .f32) (main_arg14 : FVec F S128x64 .f32) (main_arg15 : FVec F S64 .f32) (main_arg16 : FVec F S64x2 .f32) (main_arg17 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x256x128 .f32 := Host.absf main_arg6
  let main_cst_6 : FVec F S_ .f32 := constant S_ .f32 0x7F800000#32
  let main_v20 : FVec F S3x256x128 .f32 := broadcastInDim S3x256x128 ![] bcast_S_S3x256x128 main_cst_6
  let main_v21 : IVec S3x256x128 1 := cmpf .olt main_v19 main_v20
  let main_c_7 : IVec S_ 1 := constantI S_ 1 1#1
  let main_v22 : IVec S_ 1 := (fun x v => Host.reduce IntOp.andi x v reducesTo_S3x256x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S800000 .f32) (main_arg3 : IVec S50000 32) (main_arg4 : FVec F S3x128x128 .f32) (main_arg5 : FVec F S3x128 .f32) (main_arg6 : FVec F S3x256x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S128x128 .f32) (main_arg13 : FVec F S128 .f32) (main_arg14 : FVec F S128x64 .f32) (main_arg15 : FVec F S64 .f32) (main_arg16 : FVec F S64x2 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S3x128x128 : Shape := ⟨3, ![3, 128, 128]⟩
abbrev S3x128 : Shape := ⟨2, ![3, 128]⟩
abbrev S3x256x128 : Shape := ⟨3, ![3, 256, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S850000 : Shape := ⟨1, ![850000]⟩
abbrev S_ : Shape := ⟨0, ![]⟩
abbrev S1x128x128 : Shape := ⟨3, ![1, 128, 128]⟩
abbrev S5000x128 : Shape := ⟨2, ![5000, 128]⟩
abbrev S1x128 : Shape := ⟨2, ![1, 128]⟩
abbrev S850000x1 : Shape := ⟨2, ![850000, 1]⟩
abbrev S1 : Shape := ⟨1, ![1]⟩
abbrev S1x1 : Shape := ⟨2, ![1, 1]⟩
abbrev S850000x128 : Shape := ⟨2, ![850000, 128]⟩
abbrev S50x128 : Shape := ⟨2, ![50, 128]⟩
abbrev S50000x1 : Shape := ⟨2, ![50000, 1]⟩
abbrev S50x1 : Shape := ⟨2, ![50, 1]⟩
abbrev S50x64 : Shape := ⟨2, ![50, 64]⟩
abbrev S1x64 : Shape := ⟨2, ![1, 64]⟩
abbrev S50x2 : Shape := ⟨2, ![50, 2]⟩
abbrev S1x2 : Shape := ⟨2, ![1, 2]⟩

abbrev nBuf : Space → Nat
  | .hbm => 427
  | .vmem => 63
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S3x128x128, .f32⟩
  | 5 => ⟨S3x128, .f32⟩
  | 6 => ⟨S3x256x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S128x128, .f32⟩
  | 13 => ⟨S128, .f32⟩
  | 14 => ⟨S128x64, .f32⟩
  | 15 => ⟨S64, .f32⟩
  | 16 => ⟨S64x2, .f32⟩
  | 17 => ⟨S2, .f32⟩
  | 18 => ⟨S800000, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S128, .f32⟩
  | 28 => ⟨S1x128x128, .f32⟩
  | 29 => ⟨S128x128, .f32⟩
  | 30 => ⟨S50000x128, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S1, .i32⟩
  | 40 => ⟨S_, .i32⟩
  | 41 => ⟨S850000x1, .i32⟩
  | 42 => ⟨S850000x1, .i1⟩
  | 43 => ⟨S1x1, .i32⟩
  | 44 => ⟨S850000x1, .i32⟩
  | 45 => ⟨S850000x1, .i1⟩
  | 46 => ⟨S850000x1, .i1⟩
  | 47 => ⟨S_, .i1⟩
  | 48 => ⟨S850000, .i1⟩
  | 49 => ⟨S850000x128, .f32⟩
  | 50 => ⟨S850000x128, .i1⟩
  | 51 => ⟨S_, .f32⟩
  | 52 => ⟨S850000x128, .f32⟩
  | 53 => ⟨S850000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S1, .i32⟩
  | 63 => ⟨S_, .i32⟩
  | 64 => ⟨S850000x1, .i32⟩
  | 65 => ⟨S850000x1, .i1⟩
  | 66 => ⟨S1x1, .i32⟩
  | 67 => ⟨S850000x1, .i32⟩
  | 68 => ⟨S850000x1, .i1⟩
  | 69 => ⟨S850000x1, .i1⟩
  | 70 => ⟨S_, .i1⟩
  | 71 => ⟨S850000, .i1⟩
  | 72 => ⟨S850000x128, .f32⟩
  | 73 => ⟨S850000x128, .i1⟩
  | 74 => ⟨S_, .f32⟩
  | 75 => ⟨S850000x128, .f32⟩
  | 76 => ⟨S850000x128, .f32⟩
  | 77 => ⟨S1x128x128, .f32⟩
  | 78 => ⟨S128x128, .f32⟩
  | 79 => ⟨S1x128x128, .f32⟩
  | 80 => ⟨S128x128, .f32⟩
  | 81 => ⟨S1x128, .f32⟩
  | 82 => ⟨S128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S1x128x128, .f32⟩
  | 94 => ⟨S128x128, .f32⟩
  | 95 => ⟨S1x128, .f32⟩
  | 96 => ⟨S128, .f32⟩
  | 97 => ⟨S50000x128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S1x128x128, .f32⟩
  | 21 => ⟨S128x128, .f32⟩
  | 22 => ⟨S50000x128, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S1, .i32⟩
  | 32 => ⟨S_, .i32⟩
  | 33 => ⟨S850000x1, .i32⟩
  | 34 => ⟨S850000x1, .i1⟩
  | 35 => ⟨S1x1, .i32⟩
  | 36 => ⟨S850000x1, .i32⟩
  | 37 => ⟨S850000x1, .i1⟩
  | 38 => ⟨S850000x1, .i1⟩
  | 39 => ⟨S_, .i1⟩
  | 40 => ⟨S850000, .i1⟩
  | 41 => ⟨S850000x128, .f32⟩
  | 42 => ⟨S850000x128, .i1⟩
  | 43 => ⟨S_, .f32⟩
  | 44 => ⟨S850000x128, .f32⟩
  | 45 => ⟨S850000x128, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S1, .i32⟩
  | 55 => ⟨S_, .i32⟩
  | 56 => ⟨S850000x1, .i32⟩
  | 57 => ⟨S850000x1, .i1⟩
  | 58 => ⟨S1x1, .i32⟩
  | 59 => ⟨S850000x1, .i32⟩
  | 60 => ⟨S850000x1, .i1⟩
  | 61 => ⟨S850000x1, .i1⟩
  | 62 => ⟨S_, .i1⟩
  | 63 => ⟨S850000, .i1⟩
  | 64 => ⟨S850000x128, .f32⟩
  | 65 => ⟨S850000x128, .i1⟩
  | 66 => ⟨S_, .f32⟩
  | 67 => ⟨S850000x128, .f32⟩
  | 68 => ⟨S850000x128, .f32⟩
  | 69 => ⟨S1x128x128, .f32⟩
  | 70 => ⟨S128x128, .f32⟩
  | 71 => ⟨S1x128x128, .f32⟩
  | 72 => ⟨S128x128, .f32⟩
  | 73 => ⟨S1x128, .f32⟩
  | 74 => ⟨S128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S1x128x128, .f32⟩
  | 86 => ⟨S128x128, .f32⟩
  | 87 => ⟨S1x128, .f32⟩
  | 88 => ⟨S128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_2 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S1x128x128, .f32⟩
  | 13 => ⟨S128x128, .f32⟩
  | 14 => ⟨S50000x128, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S1, .i32⟩
  | 24 => ⟨S_, .i32⟩
  | 25 => ⟨S850000x1, .i32⟩
  | 26 => ⟨S850000x1, .i1⟩
  | 27 => ⟨S1x1, .i32⟩
  | 28 => ⟨S850000x1, .i32⟩
  | 29 => ⟨S850000x1, .i1⟩
  | 30 => ⟨S850000x1, .i1⟩
  | 31 => ⟨S_, .i1⟩
  | 32 => ⟨S850000, .i1⟩
  | 33 => ⟨S850000x128, .f32⟩
  | 34 => ⟨S850000x128, .i1⟩
  | 35 => ⟨S_, .f32⟩
  | 36 => ⟨S850000x128, .f32⟩
  | 37 => ⟨S850000x128, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S1, .i32⟩
  | 47 => ⟨S_, .i32⟩
  | 48 => ⟨S850000x1, .i32⟩
  | 49 => ⟨S850000x1, .i1⟩
  | 50 => ⟨S1x1, .i32⟩
  | 51 => ⟨S850000x1, .i32⟩
  | 52 => ⟨S850000x1, .i1⟩
  | 53 => ⟨S850000x1, .i1⟩
  | 54 => ⟨S_, .i1⟩
  | 55 => ⟨S850000, .i1⟩
  | 56 => ⟨S850000x128, .f32⟩
  | 57 => ⟨S850000x128, .i1⟩
  | 58 => ⟨S_, .f32⟩
  | 59 => ⟨S850000x128, .f32⟩
  | 60 => ⟨S850000x128, .f32⟩
  | 61 => ⟨S1x128x128, .f32⟩
  | 62 => ⟨S128x128, .f32⟩
  | 63 => ⟨S1x128x128, .f32⟩
  | 64 => ⟨S128x128, .f32⟩
  | 65 => ⟨S1x128, .f32⟩
  | 66 => ⟨S128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_3 (i : Nat) : BufTy := match i % 128 with
  | 0 => ⟨S50000x128, .f32⟩
  | 1 => ⟨S50000x128, .f32⟩
  | 2 => ⟨S_, .f32⟩
  | 3 => ⟨S50x128, .f32⟩
  | 4 => ⟨S50000x1, .i32⟩
  | 5 => ⟨S50x128, .f32⟩
  | 6 => ⟨S_, .f32⟩
  | 7 => ⟨S50000x1, .f32⟩
  | 8 => ⟨S_, .f32⟩
  | 9 => ⟨S50x1, .f32⟩
  | 10 => ⟨S50000x1, .i32⟩
  | 11 => ⟨S50x1, .f32⟩
  | 12 => ⟨S_, .f32⟩
  | 13 => ⟨S50x1, .f32⟩
  | 14 => ⟨S50x1, .f32⟩
  | 15 => ⟨S50x128, .f32⟩
  | 16 => ⟨S50x128, .f32⟩
  | 17 => ⟨S50x128, .f32⟩
  | 18 => ⟨S1x128, .f32⟩
  | 19 => ⟨S50x128, .f32⟩
  | 20 => ⟨S50x128, .f32⟩
  | 21 => ⟨S_, .f32⟩
  | 22 => ⟨S50x128, .f32⟩
  | 23 => ⟨S50x128, .i1⟩
  | 24 => ⟨S_, .f32⟩
  | 25 => ⟨S50x128, .f32⟩
  | 26 => ⟨S50x128, .f32⟩
  | 27 => ⟨S50x128, .f32⟩
  | 28 => ⟨S50x64, .f32⟩
  | 29 => ⟨S1x64, .f32⟩
  | 30 => ⟨S50x64, .f32⟩
  | 31 => ⟨S50x64, .f32⟩
  | 32 => ⟨S_, .f32⟩
  | 33 => ⟨S50x64, .f32⟩
  | 34 => ⟨S50x64, .i1⟩
  | 35 => ⟨S_, .f32⟩
  | 36 => ⟨S50x64, .f32⟩
  | 37 => ⟨S50x64, .f32⟩
  | 38 => ⟨S50x64, .f32⟩
  | 39 => ⟨S50x2, .f32⟩
  | 40 => ⟨S1x2, .f32⟩
  | 41 => ⟨S50x2, .f32⟩
  | 42 => ⟨S50x2, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S128x128, .f32⟩
  | .local _ .vmem, ⟨54, _⟩ => ⟨S128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S128x128, .f32⟩
  | .local _ .vmem, ⟨60, _⟩ => ⟨S128, .f32⟩
  | .local _ .vmem, ⟨61, _⟩ => ⟨S5000x128, .f32⟩
  | .local _ .vmem, ⟨62, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v12 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_cst_0 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_1 : Ref sig .tc := ⟨.hbm, 98, rfl⟩
abbrev main_v34 : Ref sig .tc := ⟨.hbm, 99, rfl⟩
abbrev main_cst_2 : Ref sig .tc := ⟨.hbm, 100, rfl⟩
abbrev main_v35 : Ref sig .tc := ⟨.hbm, 101, rfl⟩
abbrev main_v36 : Ref sig .tc := ⟨.hbm, 102, rfl⟩
abbrev main_c : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_cst_3 : Ref sig .tc := ⟨.hbm, 120, rfl⟩
abbrev main_call2_v12 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_cst_3 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_cst_4 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_call3_c : Ref sig .tc := ⟨.hbm, 151, rfl⟩
abbrev main_call3_v0 : Ref sig .tc := ⟨.hbm, 152, rfl⟩
abbrev main_call3_v1 : Ref sig .tc := ⟨.hbm, 153, rfl⟩
abbrev main_call3_c_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_c_1 : Ref sig .tc := ⟨.hbm, 159, rfl⟩
abbrev main_call3_c_2 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_c_3 : Ref sig .tc := ⟨.hbm, 167, rfl⟩
abbrev main_call3_v12 : Ref sig .tc := ⟨.hbm, 168, rfl⟩
abbrev main_call3_v13 : Ref sig .tc := ⟨.hbm, 169, rfl⟩
abbrev main_call3_v14 : Ref sig .tc := ⟨.hbm, 170, rfl⟩
abbrev main_call3_cst : Ref sig .tc := ⟨.hbm, 171, rfl⟩
abbrev main_call3_v15 : Ref sig .tc := ⟨.hbm, 172, rfl⟩
abbrev main_v61 : Ref sig .tc := ⟨.hbm, 173, rfl⟩
abbrev main_call4_c : Ref sig .tc := ⟨.hbm, 174, rfl⟩
abbrev main_call4_v0 : Ref sig .tc := ⟨.hbm, 175, rfl⟩
abbrev main_call4_v1 : Ref sig .tc := ⟨.hbm, 176, rfl⟩
abbrev main_call4_c_0 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_call4_v5 : Ref sig .tc := ⟨.hbm, 181, rfl⟩
abbrev main_call4_c_1 : Ref sig .tc := ⟨.hbm, 182, rfl⟩
abbrev main_call4_c_2 : Ref sig .tc := ⟨.hbm, 183, rfl⟩
abbrev main_call4_v6 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_call4_v11 : Ref sig .tc := ⟨.hbm, 189, rfl⟩
abbrev main_call4_c_3 : Ref sig .tc := ⟨.hbm, 190, rfl⟩
abbrev main_call4_v12 : Ref sig .tc := ⟨.hbm, 191, rfl⟩
abbrev main_call4_v13 : Ref sig .tc := ⟨.hbm, 192, rfl⟩
abbrev main_call4_v14 : Ref sig .tc := ⟨.hbm, 193, rfl⟩
abbrev main_call4_cst : Ref sig .tc := ⟨.hbm, 194, rfl⟩
abbrev main_call4_v15 : Ref sig .tc := ⟨.hbm, 195, rfl⟩
abbrev main_v62 : Ref sig .tc := ⟨.hbm, 196, rfl⟩
abbrev main_v63 : Ref sig .tc := ⟨.hbm, 197, rfl⟩
abbrev main_v64 : Ref sig .tc := ⟨.hbm, 198, rfl⟩
abbrev main_v65 : Ref sig .tc := ⟨.hbm, 199, rfl⟩
abbrev main_v66 : Ref sig .tc := ⟨.hbm, 200, rfl⟩
abbrev main_v67 : Ref sig .tc := ⟨.hbm, 201, rfl⟩
abbrev main_v68 : Ref sig .tc := ⟨.hbm, 202, rfl⟩
abbrev main_v69 : Ref sig .tc := ⟨.hbm, 203, rfl⟩
abbrev main_cst_5 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_cst_6 : Ref sig .tc := ⟨.hbm, 218, rfl⟩
abbrev main_v83 : Ref sig .tc := ⟨.hbm, 219, rfl⟩
abbrev main_cst_7 : Ref sig .tc := ⟨.hbm, 220, rfl⟩
abbrev main_v84 : Ref sig .tc := ⟨.hbm, 221, rfl⟩
abbrev main_v85 : Ref sig .tc := ⟨.hbm, 222, rfl⟩
abbrev main_c_8 : Ref sig .tc := ⟨.hbm, 223, rfl⟩
abbrev main_call5_cst : Ref sig .tc := ⟨.hbm, 224, rfl⟩
abbrev main_call5_v0 : Ref sig .tc := ⟨.hbm, 225, rfl⟩
abbrev main_call5_v1 : Ref sig .tc := ⟨.hbm, 226, rfl⟩
abbrev main_call5_cst_0 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_call5_v5 : Ref sig .tc := ⟨.hbm, 231, rfl⟩
abbrev main_call5_v6 : Ref sig .tc := ⟨.hbm, 232, rfl⟩
abbrev main_call5_v7 : Ref sig .tc := ⟨.hbm, 233, rfl⟩
abbrev main_call5_cst_1 : Ref sig .tc := ⟨.hbm, 234, rfl⟩
abbrev main_call5_v8 : Ref sig .tc := ⟨.hbm, 235, rfl⟩
abbrev main_call5_cst_2 : Ref sig .tc := ⟨.hbm, 236, rfl⟩
abbrev main_call5_v9 : Ref sig .tc := ⟨.hbm, 237, rfl⟩
abbrev main_call5_v10 : Ref sig .tc := ⟨.hbm, 238, rfl⟩
abbrev main_call5_v11 : Ref sig .tc := ⟨.hbm, 239, rfl⟩
abbrev main_call5_cst_3 : Ref sig .tc := ⟨.hbm, 240, rfl⟩
abbrev main_call5_v12 : Ref sig .tc := ⟨.hbm, 241, rfl⟩
abbrev main_call5_cst_4 : Ref sig .tc := ⟨.hbm, 242, rfl⟩
abbrev main_call5_call0_v0 : Ref sig .tc := ⟨.hbm, 243, rfl⟩
abbrev main_call5_call0_v1 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_v91 : Ref sig .tc := ⟨.hbm, 250, rfl⟩
abbrev main_v92 : Ref sig .tc := ⟨.hbm, 251, rfl⟩
abbrev main_v93 : Ref sig .tc := ⟨.hbm, 252, rfl⟩
abbrev main_v94 : Ref sig .tc := ⟨.hbm, 253, rfl⟩
abbrev main_cst_9 : Ref sig .tc := ⟨.hbm, 254, rfl⟩
abbrev main_v95 : Ref sig .tc := ⟨.hbm, 255, rfl⟩
abbrev main_v96 : Ref sig .tc := ⟨.hbm, 256, rfl⟩
abbrev main_v97 : Ref sig .tc := ⟨.hbm, 257, rfl⟩
abbrev main_v98 : Ref sig .tc := ⟨.hbm, 258, rfl⟩
abbrev main_v99 : Ref sig .tc := ⟨.hbm, 259, rfl⟩
abbrev main_v100 : Ref sig .tc := ⟨.hbm, 260, rfl⟩
abbrev main_v101 : Ref sig .tc := ⟨.hbm, 261, rfl⟩
abbrev main_v102 : Ref sig .tc := ⟨.hbm, 262, rfl⟩
abbrev main_v103 : Ref sig .tc := ⟨.hbm, 263, rfl⟩
abbrev main_v104 : Ref sig .tc := ⟨.hbm, 264, rfl⟩
abbrev main_v105 : Ref sig .tc := ⟨.hbm, 265, rfl⟩
abbrev main_cst_10 : Ref sig .tc := ⟨.hbm, 266, rfl⟩
abbrev main_v106 : Ref sig .tc := ⟨.hbm, 267, rfl⟩
abbrev main_v107 : Ref sig .tc := ⟨.hbm, 268, rfl⟩
abbrev main_v108 : Ref sig .tc := ⟨.hbm, 269, rfl⟩
abbrev main_v109 : Ref sig .tc := ⟨.hbm, 270, rfl⟩
abbrev main_call6_c : Ref sig .tc := ⟨.hbm, 271, rfl⟩
abbrev main_call6_v0 : Ref sig .tc := ⟨.hbm, 272, rfl⟩
abbrev main_call6_v1 : Ref sig .tc := ⟨.hbm, 273, rfl⟩
abbrev main_call6_c_0 : Ref sig .tc := ⟨.hbm, 274, rfl⟩
abbrev main_call6_v2 : Ref sig .tc := ⟨.hbm, 275, rfl⟩
abbrev main_call6_v3 : Ref sig .tc := ⟨.hbm, 276, rfl⟩
abbrev main_call6_v4 : Ref sig .tc := ⟨.hbm, 277, rfl⟩
abbrev main_call6_v5 : Ref sig .tc := ⟨.hbm, 278, rfl⟩
abbrev main_call6_c_1 : Ref sig .tc := ⟨.hbm, 279, rfl⟩
abbrev main_call6_c_2 : Ref sig .tc := ⟨.hbm, 280, rfl⟩
abbrev main_call6_v6 : Ref sig .tc := ⟨.hbm, 281, rfl⟩
abbrev main_call6_v7 : Ref sig .tc := ⟨.hbm, 282, rfl⟩
abbrev main_call6_v8 : Ref sig .tc := ⟨.hbm, 283, rfl⟩
abbrev main_call6_v9 : Ref sig .tc := ⟨.hbm, 284, rfl⟩
abbrev main_call6_v10 : Ref sig .tc := ⟨.hbm, 285, rfl⟩
abbrev main_call6_v11 : Ref sig .tc := ⟨.hbm, 286, rfl⟩
abbrev main_call6_c_3 : Ref sig .tc := ⟨.hbm, 287, rfl⟩
abbrev main_call6_v12 : Ref sig .tc := ⟨.hbm, 288, rfl⟩
abbrev main_call6_v13 : Ref sig .tc := ⟨.hbm, 289, rfl⟩
abbrev main_call6_v14 : Ref sig .tc := ⟨.hbm, 290, rfl⟩
abbrev main_call6_cst : Ref sig .tc := ⟨.hbm, 291, rfl⟩
abbrev main_call6_v15 : Ref sig .tc := ⟨.hbm, 292, rfl⟩
abbrev main_v110 : Ref sig .tc := ⟨.hbm, 293, rfl⟩
abbrev main_call7_c : Ref sig .tc := ⟨.hbm, 294, rfl⟩
abbrev main_call7_v0 : Ref sig .tc := ⟨.hbm, 295, rfl⟩
abbrev main_call7_v1 : Ref sig .tc := ⟨.hbm, 296, rfl⟩
abbrev main_call7_c_0 : Ref sig .tc := ⟨.hbm, 297, rfl⟩
abbrev main_call7_v2 : Ref sig .tc := ⟨.hbm, 298, rfl⟩
abbrev main_call7_v3 : Ref sig .tc := ⟨.hbm, 299, rfl⟩
abbrev main_call7_v4 : Ref sig .tc := ⟨.hbm, 300, rfl⟩
abbrev main_call7_v5 : Ref sig .tc := ⟨.hbm, 301, rfl⟩
abbrev main_call7_c_1 : Ref sig .tc := ⟨.hbm, 302, rfl⟩
abbrev main_call7_c_2 : Ref sig .tc := ⟨.hbm, 303, rfl⟩
abbrev main_call7_v6 : Ref sig .tc := ⟨.hbm, 304, rfl⟩
abbrev main_call7_v7 : Ref sig .tc := ⟨.hbm, 305, rfl⟩
abbrev main_call7_v8 : Ref sig .tc := ⟨.hbm, 306, rfl⟩
abbrev main_call7_v9 : Ref sig .tc := ⟨.hbm, 307, rfl⟩
abbrev main_call7_v10 : Ref sig .tc := ⟨.hbm, 308, rfl⟩
abbrev main_call7_v11 : Ref sig .tc := ⟨.hbm, 309, rfl⟩
abbrev main_call7_c_3 : Ref sig .tc := ⟨.hbm, 310, rfl⟩
abbrev main_call7_v12 : Ref sig .tc := ⟨.hbm, 311, rfl⟩
abbrev main_call7_v13 : Ref sig .tc := ⟨.hbm, 312, rfl⟩
abbrev main_call7_v14 : Ref sig .tc := ⟨.hbm, 313, rfl⟩
abbrev main_call7_cst : Ref sig .tc := ⟨.hbm, 314, rfl⟩
abbrev main_call7_v15 : Ref sig .tc := ⟨.hbm, 315, rfl⟩
abbrev main_v111 : Ref sig .tc := ⟨.hbm, 316, rfl⟩
abbrev main_v112 : Ref sig .tc := ⟨.hbm, 317, rfl⟩
abbrev main_v113 : Ref sig .tc := ⟨.hbm, 318, rfl⟩
abbrev main_v114 : Ref sig .tc := ⟨.hbm, 319, rfl⟩
abbrev main_v115 : Ref sig .tc := ⟨.hbm, 320, rfl⟩
abbrev main_v116 : Ref sig .tc := ⟨.hbm, 321, rfl⟩
abbrev main_v117 : Ref sig .tc := ⟨.hbm, 322, rfl⟩
abbrev main_v118 : Ref sig .tc := ⟨.hbm, 323, rfl⟩
abbrev main_cst_11 : Ref sig .tc := ⟨.hbm, 324, rfl⟩
abbrev main_v119 : Ref sig .tc := ⟨.hbm, 325, rfl⟩
abbrev main_v120 : Ref sig .tc := ⟨.hbm, 326, rfl⟩
abbrev main_v121 : Ref sig .tc := ⟨.hbm, 327, rfl⟩
abbrev main_v122 : Ref sig .tc := ⟨.hbm, 328, rfl⟩
abbrev main_v123 : Ref sig .tc := ⟨.hbm, 329, rfl⟩
abbrev main_v124 : Ref sig .tc := ⟨.hbm, 330, rfl⟩
abbrev main_v125 : Ref sig .tc := ⟨.hbm, 331, rfl⟩
abbrev main_v126 : Ref sig .tc := ⟨.hbm, 332, rfl⟩
abbrev main_v127 : Ref sig .tc := ⟨.hbm, 333, rfl⟩
abbrev main_v128 : Ref sig .tc := ⟨.hbm, 334, rfl⟩
abbrev main_v129 : Ref sig .tc := ⟨.hbm, 335, rfl⟩
abbrev main_v130 : Ref sig .tc := ⟨.hbm, 336, rfl⟩
abbrev main_v131 : Ref sig .tc := ⟨.hbm, 337, rfl⟩
abbrev main_cst_12 : Ref sig .tc := ⟨.hbm, 338, rfl⟩
abbrev main_v132 : Ref sig .tc := ⟨.hbm, 339, rfl⟩
abbrev main_cst_13 : Ref sig .tc := ⟨.hbm, 340, rfl⟩
abbrev main_v133 : Ref sig .tc := ⟨.hbm, 341, rfl⟩
abbrev main_v134 : Ref sig .tc := ⟨.hbm, 342, rfl⟩
abbrev main_c_14 : Ref sig .tc := ⟨.hbm, 343, rfl⟩
abbrev main_call8_cst : Ref sig .tc := ⟨.hbm, 344, rfl⟩
abbrev main_call8_v0 : Ref sig .tc := ⟨.hbm, 345, rfl⟩
abbrev main_call8_v1 : Ref sig .tc := ⟨.hbm, 346, rfl⟩
abbrev main_call8_cst_0 : Ref sig .tc := ⟨.hbm, 347, rfl⟩
abbrev main_call8_v2 : Ref sig .tc := ⟨.hbm, 348, rfl⟩
abbrev main_call8_v3 : Ref sig .tc := ⟨.hbm, 349, rfl⟩
abbrev main_call8_v4 : Ref sig .tc := ⟨.hbm, 350, rfl⟩
abbrev main_call8_v5 : Ref sig .tc := ⟨.hbm, 351, rfl⟩
abbrev main_call8_v6 : Ref sig .tc := ⟨.hbm, 352, rfl⟩
abbrev main_call8_v7 : Ref sig .tc := ⟨.hbm, 353, rfl⟩
abbrev main_call8_cst_1 : Ref sig .tc := ⟨.hbm, 354, rfl⟩
abbrev main_call8_v8 : Ref sig .tc := ⟨.hbm, 355, rfl⟩
abbrev main_call8_cst_2 : Ref sig .tc := ⟨.hbm, 356, rfl⟩
abbrev main_call8_v9 : Ref sig .tc := ⟨.hbm, 357, rfl⟩
abbrev main_call8_v10 : Ref sig .tc := ⟨.hbm, 358, rfl⟩
abbrev main_call8_v11 : Ref sig .tc := ⟨.hbm, 359, rfl⟩
abbrev main_call8_cst_3 : Ref sig .tc := ⟨.hbm, 360, rfl⟩
abbrev main_call8_v12 : Ref sig .tc := ⟨.hbm, 361, rfl⟩
abbrev main_call8_cst_4 : Ref sig .tc := ⟨.hbm, 362, rfl⟩
abbrev main_call8_call0_v0 : Ref sig .tc := ⟨.hbm, 363, rfl⟩
abbrev main_call8_call0_v1 : Ref sig .tc := ⟨.hbm, 364, rfl⟩
abbrev main_v135 : Ref sig .tc := ⟨.hbm, 365, rfl⟩
abbrev main_v136 : Ref sig .tc := ⟨.hbm, 366, rfl⟩
abbrev main_v137 : Ref sig .tc := ⟨.hbm, 367, rfl⟩
abbrev main_v138 : Ref sig .tc := ⟨.hbm, 368, rfl⟩
abbrev main_v139 : Ref sig .tc := ⟨.hbm, 369, rfl⟩
abbrev main_v140 : Ref sig .tc := ⟨.hbm, 370, rfl⟩
abbrev main_v141 : Ref sig .tc := ⟨.hbm, 371, rfl⟩
abbrev main_v142 : Ref sig .tc := ⟨.hbm, 372, rfl⟩
abbrev main_v143 : Ref sig .tc := ⟨.hbm, 373, rfl⟩
abbrev main_cst_15 : Ref sig .tc := ⟨.hbm, 374, rfl⟩
abbrev main_v144 : Ref sig .tc := ⟨.hbm, 375, rfl⟩
abbrev main_v145 : Ref sig .tc := ⟨.hbm, 376, rfl⟩
abbrev main_v146 : Ref sig .tc := ⟨.hbm, 377, rfl⟩
abbrev main_v147 : Ref sig .tc := ⟨.hbm, 378, rfl⟩
abbrev main_v148 : Ref sig .tc := ⟨.hbm, 379, rfl⟩
abbrev main_v149 : Ref sig .tc := ⟨.hbm, 380, rfl⟩
abbrev main_v150 : Ref sig .tc := ⟨.hbm, 381, rfl⟩
abbrev main_v151 : Ref sig .tc := ⟨.hbm, 382, rfl⟩
abbrev main_v152 : Ref sig .tc := ⟨.hbm, 383, rfl⟩
abbrev main_v153 : Ref sig .tc := ⟨.hbm, 384, rfl⟩
abbrev main_v154 : Ref sig .tc := ⟨.hbm, 385, rfl⟩
abbrev main_cst_16 : Ref sig .tc := ⟨.hbm, 386, rfl⟩
abbrev main_v155 : Ref sig .tc := ⟨.hbm, 387, rfl⟩
abbrev main_v156 : Ref sig .tc := ⟨.hbm, 388, rfl⟩
abbrev main_v157 : Ref sig .tc := ⟨.hbm, 389, rfl⟩
abbrev main_cst_17 : Ref sig .tc := ⟨.hbm, 390, rfl⟩
abbrev main_v158 : Ref sig .tc := ⟨.hbm, 391, rfl⟩
abbrev main_cst_18 : Ref sig .tc := ⟨.hbm, 392, rfl⟩
abbrev main_v159 : Ref sig .tc := ⟨.hbm, 393, rfl⟩
abbrev main_v160 : Ref sig .tc := ⟨.hbm, 394, rfl⟩
abbrev main_v161 : Ref sig .tc := ⟨.hbm, 395, rfl⟩
abbrev main_cst_19 : Ref sig .tc := ⟨.hbm, 396, rfl⟩
abbrev main_v162 : Ref sig .tc := ⟨.hbm, 397, rfl⟩
abbrev main_v163 : Ref sig .tc := ⟨.hbm, 398, rfl⟩
abbrev main_v164 : Ref sig .tc := ⟨.hbm, 399, rfl⟩
abbrev main_v165 : Ref sig .tc := ⟨.hbm, 400, rfl⟩
abbrev main_v166 : Ref sig .tc := ⟨.hbm, 401, rfl⟩
abbrev main_v167 : Ref sig .tc := ⟨.hbm, 402, rfl⟩
abbrev main_v168 : Ref sig .tc := ⟨.hbm, 403, rfl⟩
abbrev main_v169 : Ref sig .tc := ⟨.hbm, 404, rfl⟩
abbrev main_cst_20 : Ref sig .tc := ⟨.hbm, 405, rfl⟩
abbrev main_v170 : Ref sig .tc := ⟨.hbm, 406, rfl⟩
abbrev main_v171 : Ref sig .tc := ⟨.hbm, 407, rfl⟩
abbrev main_cst_21 : Ref sig .tc := ⟨.hbm, 408, rfl⟩
abbrev main_v172 : Ref sig .tc := ⟨.hbm, 409, rfl⟩
abbrev main_v173 : Ref sig .tc := ⟨.hbm, 410, rfl⟩
abbrev main_v174 : Ref sig .tc := ⟨.hbm, 411, rfl⟩
abbrev main_v175 : Ref sig .tc := ⟨.hbm, 412, rfl⟩
abbrev main_v176 : Ref sig .tc := ⟨.hbm, 413, rfl⟩
abbrev main_v177 : Ref sig .tc := ⟨.hbm, 414, rfl⟩
abbrev main_v178 : Ref sig .tc := ⟨.hbm, 415, rfl⟩
abbrev main_cst_22 : Ref sig .tc := ⟨.hbm, 416, rfl⟩
abbrev main_v179 : Ref sig .tc := ⟨.hbm, 417, rfl⟩
abbrev main_v180 : Ref sig .tc := ⟨.hbm, 418, rfl⟩
abbrev main_cst_23 : Ref sig .tc := ⟨.hbm, 419, rfl⟩
abbrev main_v181 : Ref sig .tc := ⟨.hbm, 420, rfl⟩
abbrev main_v182 : Ref sig .tc := ⟨.hbm, 421, rfl⟩
abbrev main_v183 : Ref sig .tc := ⟨.hbm, 422, rfl⟩
abbrev main_v184 : Ref sig .tc := ⟨.hbm, 423, rfl⟩
abbrev main_v185 : Ref sig .tc := ⟨.hbm, 424, rfl⟩
abbrev main_v186 : Ref sig .tc := ⟨.hbm, 425, rfl⟩
abbrev main_v187 : Ref sig .tc := ⟨.hbm, 426, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg5_0 : Ref sig .tc := ⟨.vmem, 55, rfl⟩
abbrev cc7_stg5_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem5_0 : DmaSem sig := 55
abbrev cc7_sem5_1 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem3_0 : DmaSem sig := 61
abbrev cc8_sem3_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  bcast_S_S850000 : S_.BroadcastsInDim S850000 (![] : Fin 0 → Fin S850000.rank)
  bcast_S850000_S850000x1_0 : S850000.BroadcastsInDim S850000x1 (![0] : Fin 1 → Fin S850000x1.rank)
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  slices_S3x256x128_S1x128x128_0_0_0 : S3x256x128.Slices ![0, 0, 0] S1x128x128
  slices_S3x256x128_S1x128x128_0_128_0 : S3x256x128.Slices ![0, 128, 0] S1x128x128
  slices_S3x128_S1x128_0_0 : S3x128.Slices ![0, 0] S1x128
  shapeCasts_S1x128_S128 : S1x128.ShapeCasts S128
  shapeCasts_S5000x128_S5000x128 : S5000x128.ShapeCasts S5000x128
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S1x128 : S_.BroadcastsInDim S1x128 (![] : Fin 0 → Fin S1x128.rank)
  slices_S3x128x128_S1x128x128_1_0_0 : S3x128x128.Slices ![1, 0, 0] S1x128x128
  slices_S3x256x128_S1x128x128_1_0_0 : S3x256x128.Slices ![1, 0, 0] S1x128x128
  slices_S3x256x128_S1x128x128_1_128_0 : S3x256x128.Slices ![1, 128, 0] S1x128x128
  slices_S3x128_S1x128_1_0 : S3x128.Slices ![1, 0] S1x128
  slices_S3x128x128_S1x128x128_2_0_0 : S3x128x128.Slices ![2, 0, 0] S1x128x128
  slices_S3x256x128_S1x128x128_2_0_0 : S3x256x128.Slices ![2, 0, 0] S1x128x128
  slices_S3x256x128_S1x128x128_2_128_0 : S3x256x128.Slices ![2, 128, 0] S1x128x128
  slices_S3x128_S1x128_2_0 : S3x128.Slices ![2, 0] S1x128
  bcast_S_S50x128 : S_.BroadcastsInDim S50x128 (![] : Fin 0 → Fin S50x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50x1 : S_.BroadcastsInDim S50x1 (![] : Fin 0 → Fin S50x1.rank)
  bcast_S50x1_S50x128_0_1 : S50x1.BroadcastsInDim S50x128 (![0, 1] : Fin 2 → Fin S50x128.rank)
  bcast_S1x128_S50x128_0_1 : S1x128.BroadcastsInDim S50x128 (![0, 1] : Fin 2 → Fin S50x128.rank)
  bcast_S64_S1x64_1 : S64.BroadcastsInDim S1x64 (![1] : Fin 1 → Fin S1x64.rank)
  bcast_S1x64_S50x64_0_1 : S1x64.BroadcastsInDim S50x64 (![0, 1] : Fin 2 → Fin S50x64.rank)
  bcast_S_S50x64 : S_.BroadcastsInDim S50x64 (![] : Fin 0 → Fin S50x64.rank)
  bcast_S2_S1x2_1 : S2.BroadcastsInDim S1x2 (![1] : Fin 1 → Fin S1x2.rank)
  bcast_S1x2_S50x2_0_1 : S1x2.BroadcastsInDim S50x2 (![0, 1] : Fin 2 → Fin S50x2.rank)
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50x128_S50000x1_S50000x128_1_0_0_1_wf : ScatterDims.WF S50x128 S50000x1 S50000x128 [1] [0] [0] 1
  scatter_S50x1_S50000x1_S50000x1_1_0_0_1_wf : ScatterDims.WF S50x1 S50000x1 S50000x1 [1] [0] [0] 1
  dot_S50x128_S128x128_S50x128_1_0_0_1_n_n_wf : DotDims.WF S50x128 S128x128 S50x128 [1] [0] [0] [1] [] []
  dot_S50x128_S128x64_S50x64_1_0_0_1_n_n_wf : DotDims.WF S50x128 S128x64 S50x64 [1] [0] [0] [1] [] []
  dot_S50x64_S64x2_S50x2_1_0_0_1_n_n_wf : DotDims.WF S50x64 S64x2 S50x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S850000x128.size a
  hwx1_0 : ∀ i : grid1.Coords, EltTy.bits .f32 = 32 ∨ (Rect.block (s := S850000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S850000x128.size a
  hwx1_1 : ∀ i : grid1.Coords, EltTy.bits .f32 = 32 ∨ (Rect.block (s := S850000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S850000x128.size a
  hwx1_5 : ∀ i : grid1.Coords, EltTy.bits .f32 = 32 ∨ (Rect.block (s := S850000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S850000x128.size a
  hwx4_0 : ∀ i : grid4.Coords, EltTy.bits .f32 = 32 ∨ (Rect.block (s := S850000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S850000x128.size a
  hwx4_1 : ∀ i : grid4.Coords, EltTy.bits .f32 = 32 ∨ (Rect.block (s := S850000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S850000x128.size a
  hwx4_5 : ∀ i : grid4.Coords, EltTy.bits .f32 = 32 ∨ (Rect.block (s := S850000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S850000x128.size a
  hwx7_0 : ∀ i : grid7.Coords, EltTy.bits .f32 = 32 ∨ (Rect.block (s := S850000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S850000x128.size a
  hwx7_1 : ∀ i : grid7.Coords, EltTy.bits .f32 = 32 ∨ (Rect.block (s := S850000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S850000x128.size a
  hwx7_5 : ∀ i : grid7.Coords, EltTy.bits .f32 = 32 ∨ (Rect.block (s := S850000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50x128_S50000x1_S50000x128_1_0_0_1 : ScatterDims S50x128 S50000x1 S50000x128 where
  updateWindowDims := [1]
  insertedWindowDims := [0]
  scatterDimsToOperandDims := [0]
  indexVectorDim := 1
  wf := scatter_S50x128_S50000x1_S50000x128_1_0_0_1_wf
def scatter_S50x1_S50000x1_S50000x1_1_0_0_1 : ScatterDims S50x1 S50000x1 S50000x1 where
  updateWindowDims := [1]
  insertedWindowDims := [0]
  scatterDimsToOperandDims := [0]
  indexVectorDim := 1
  wf := scatter_S50x1_S50000x1_S50000x1_1_0_0_1_wf
def dot_S50x128_S128x128_S50x128_1_0_0_1_n_n : DotDims S50x128 S128x128 S50x128 where
  lhsContracting := [1]
  rhsContracting := [0]
  lhsNonContracting := [0]
  rhsNonContracting := [1]
  lhsBatch := []
  rhsBatch := []
  wf := dot_S50x128_S128x128_S50x128_1_0_0_1_n_n_wf
def dot_S50x128_S128x64_S50x64_1_0_0_1_n_n : DotDims S50x128 S128x64 S50x64 where
  lhsContracting := [1]
  rhsContracting := [0]
  lhsNonContracting := [0]
  rhsNonContracting := [1]
  lhsBatch := []
  rhsBatch := []
  wf := dot_S50x128_S128x64_S50x64_1_0_0_1_n_n_wf
def dot_S50x64_S64x2_S50x2_1_0_0_1_n_n : DotDims S50x64 S64x2 S50x2 where
  lhsContracting := [1]
  rhsContracting := [0]
  lhsNonContracting := [0]
  rhsNonContracting := [1]
  lhsBatch := []
  rhsBatch := []
  wf := dot_S50x64_S64x2_S50x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v105) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v110) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v111) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v113) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v115) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v117) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v118) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v126) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v128) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v130) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v131) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S3x128x128 : Shape := ⟨3, ![3, 128, 128]⟩
abbrev S3x128 : Shape := ⟨2, ![3, 128]⟩
abbrev S3x256x128 : Shape := ⟨3, ![3, 256, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S850000 : Shape := ⟨1, ![850000]⟩
abbrev S1x128x128 : Shape := ⟨3, ![1, 128, 128]⟩
abbrev S_ : Shape := ⟨0, ![]⟩
abbrev S850000x1 : Shape := ⟨2, ![850000, 1]⟩
abbrev S850000x128 : Shape := ⟨2, ![850000, 128]⟩
abbrev S850000x256 : Shape := ⟨2, ![850000, 256]⟩
abbrev S1x256x128 : Shape := ⟨3, ![1, 256, 128]⟩
abbrev S256x128 : Shape := ⟨2, ![256, 128]⟩
abbrev S1x128 : Shape := ⟨2, ![1, 128]⟩
abbrev S50x128 : Shape := ⟨2, ![50, 128]⟩
abbrev S50000x1 : Shape := ⟨2, ![50000, 1]⟩
abbrev S50x1 : Shape := ⟨2, ![50, 1]⟩
abbrev S50x64 : Shape := ⟨2, ![50, 64]⟩
abbrev S1x64 : Shape := ⟨2, ![1, 64]⟩
abbrev S50x2 : Shape := ⟨2, ![50, 2]⟩
abbrev S1x2 : Shape := ⟨2, ![1, 2]⟩

abbrev nBuf : Space → Nat
  | .hbm => 373
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S3x128x128, .f32⟩
  | 5 => ⟨S3x128, .f32⟩
  | 6 => ⟨S3x256x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S128x128, .f32⟩
  | 13 => ⟨S128, .f32⟩
  | 14 => ⟨S128x64, .f32⟩
  | 15 => ⟨S64, .f32⟩
  | 16 => ⟨S64x2, .f32⟩
  | 17 => ⟨S2, .f32⟩
  | 18 => ⟨S800000, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S1x128x128, .f32⟩
  | 27 => ⟨S128x128, .f32⟩
  | 28 => ⟨S50000x128, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000x128, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x128, .f32⟩
  | 47 => ⟨S850000x256, .f32⟩
  | 48 => ⟨S1x256x128, .f32⟩
  | 49 => ⟨S256x128, .f32⟩
  | 50 => ⟨S850000x128, .f32⟩
  | 51 => ⟨S1x128, .f32⟩
  | 52 => ⟨S128, .f32⟩
  | 53 => ⟨S1x128, .f32⟩
  | 54 => ⟨S850000x128, .f32⟩
  | 55 => ⟨S850000x128, .f32⟩
  | 56 => ⟨S_, .f32⟩
  | 57 => ⟨S50000x128, .f32⟩
  | 58 => ⟨S850000x1, .i32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S50000x128, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x128, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x128, .f32⟩
  | 21 => ⟨S850000x256, .f32⟩
  | 22 => ⟨S1x256x128, .f32⟩
  | 23 => ⟨S256x128, .f32⟩
  | 24 => ⟨S850000x128, .f32⟩
  | 25 => ⟨S1x128, .f32⟩
  | 26 => ⟨S128, .f32⟩
  | 27 => ⟨S1x128, .f32⟩
  | 28 => ⟨S850000x128, .f32⟩
  | 29 => ⟨S850000x128, .f32⟩
  | 30 => ⟨S_, .f32⟩
  | 31 => ⟨S50000x128, .f32⟩
  | 32 => ⟨S850000x1, .i32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .i1⟩
  | 50 => ⟨S_, .f32⟩
  | 51 => ⟨S50000x128, .f32⟩
  | 52 => ⟨S50000x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S_, .i32⟩
  | 60 => ⟨S_, .f32⟩
  | 61 => ⟨S128, .f32⟩
  | 62 => ⟨S1x128, .f32⟩
  | 63 => ⟨S_, .f32⟩
  | 64 => ⟨S1x128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S_, .f32⟩
  | 71 => ⟨S_, .f32⟩
  | 72 => ⟨S_, .f32⟩
  | 73 => ⟨S128, .f32⟩
  | 74 => ⟨S128, .f32⟩
  | 75 => ⟨S128, .f32⟩
  | 76 => ⟨S_, .f32⟩
  | 77 => ⟨S_, .i1⟩
  | 78 => ⟨S_, .f32⟩
  | 79 => ⟨S_, .f32⟩
  | 80 => ⟨S128, .f32⟩
  | 81 => ⟨S128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x256, .f32⟩
  | 124 => ⟨S1x256x128, .f32⟩
  | 125 => ⟨S256x128, .f32⟩
  | 126 => ⟨S850000x128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .i1⟩
  | 24 => ⟨S_, .f32⟩
  | 25 => ⟨S50000x128, .f32⟩
  | 26 => ⟨S50000x128, .f32⟩
  | 27 => ⟨S50000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50x128, .f32⟩
  | 78 => ⟨S50000x1, .i32⟩
  | 79 => ⟨S50x128, .f32⟩
  | 80 => ⟨S_, .f32⟩
  | 81 => ⟨S50000x1, .f32⟩
  | 82 => ⟨S_, .f32⟩
  | 83 => ⟨S50x1, .f32⟩
  | 84 => ⟨S50000x1, .i32⟩
  | 85 => ⟨S50x1, .f32⟩
  | 86 => ⟨S_, .f32⟩
  | 87 => ⟨S50x1, .f32⟩
  | 88 => ⟨S50x1, .f32⟩
  | 89 => ⟨S50x128, .f32⟩
  | 90 => ⟨S50x128, .f32⟩
  | 91 => ⟨S50x128, .f32⟩
  | 92 => ⟨S1x128, .f32⟩
  | 93 => ⟨S50x128, .f32⟩
  | 94 => ⟨S50x128, .f32⟩
  | 95 => ⟨S_, .f32⟩
  | 96 => ⟨S50x128, .f32⟩
  | 97 => ⟨S50x128, .i1⟩
  | 98 => ⟨S_, .f32⟩
  | 99 => ⟨S50x128, .f32⟩
  | 100 => ⟨S50x128, .f32⟩
  | 101 => ⟨S50x128, .f32⟩
  | 102 => ⟨S50x64, .f32⟩
  | 103 => ⟨S1x64, .f32⟩
  | 104 => ⟨S50x64, .f32⟩
  | 105 => ⟨S50x64, .f32⟩
  | 106 => ⟨S_, .f32⟩
  | 107 => ⟨S50x64, .f32⟩
  | 108 => ⟨S50x64, .i1⟩
  | 109 => ⟨S_, .f32⟩
  | 110 => ⟨S50x64, .f32⟩
  | 111 => ⟨S50x64, .f32⟩
  | 112 => ⟨S50x64, .f32⟩
  | 113 => ⟨S50x2, .f32⟩
  | 114 => ⟨S1x2, .f32⟩
  | 115 => ⟨S50x2, .f32⟩
  | 116 => ⟨S50x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_3 : Ref sig .tc := ⟨.hbm, 73, rfl⟩
abbrev main_v50 : Ref sig .tc := ⟨.hbm, 74, rfl⟩
abbrev main_v51 : Ref sig .tc := ⟨.hbm, 75, rfl⟩
abbrev main_cst_4 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_cst_6 : Ref sig .tc := ⟨.hbm, 82, rfl⟩
abbrev main_v56 : Ref sig .tc := ⟨.hbm, 83, rfl⟩
abbrev main_v57 : Ref sig .tc := ⟨.hbm, 84, rfl⟩
abbrev main_c_7 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_cst_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_cst_1 : Ref sig .tc := ⟨.hbm, 96, rfl⟩
abbrev main_call1_v8 : Ref sig .tc := ⟨.hbm, 97, rfl⟩
abbrev main_call1_cst_2 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_cst_3 : Ref sig .tc := ⟨.hbm, 102, rfl⟩
abbrev main_call1_v12 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_8 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_9 : Ref sig .tc := ⟨.hbm, 131, rfl⟩
abbrev main_v81 : Ref sig .tc := ⟨.hbm, 132, rfl⟩
abbrev main_v82 : Ref sig .tc := ⟨.hbm, 133, rfl⟩
abbrev main_c_10 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_11 : Ref sig .tc := ⟨.hbm, 140, rfl⟩
abbrev main_v88 : Ref sig .tc := ⟨.hbm, 141, rfl⟩
abbrev main_v89 : Ref sig .tc := ⟨.hbm, 142, rfl⟩
abbrev main_c_12 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_13 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_14 : Ref sig .tc := ⟨.hbm, 175, rfl⟩
abbrev main_v120 : Ref sig .tc := ⟨.hbm, 176, rfl⟩
abbrev main_v121 : Ref sig .tc := ⟨.hbm, 177, rfl⟩
abbrev main_cst_15 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_16 : Ref sig .tc := ⟨.hbm, 182, rfl⟩
abbrev main_v125 : Ref sig .tc := ⟨.hbm, 183, rfl⟩
abbrev main_cst_17 : Ref sig .tc := ⟨.hbm, 184, rfl⟩
abbrev main_v126 : Ref sig .tc := ⟨.hbm, 185, rfl⟩
abbrev main_v127 : Ref sig .tc := ⟨.hbm, 186, rfl⟩
abbrev main_c_18 : Ref sig .tc := ⟨.hbm, 187, rfl⟩
abbrev main_call3_cst : Ref sig .tc := ⟨.hbm, 188, rfl⟩
abbrev main_call3_v0 : Ref sig .tc := ⟨.hbm, 189, rfl⟩
abbrev main_call3_v1 : Ref sig .tc := ⟨.hbm, 190, rfl⟩
abbrev main_call3_cst_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_v6 : Ref sig .tc := ⟨.hbm, 196, rfl⟩
abbrev main_call3_v7 : Ref sig .tc := ⟨.hbm, 197, rfl⟩
abbrev main_call3_cst_1 : Ref sig .tc := ⟨.hbm, 198, rfl⟩
abbrev main_call3_v8 : Ref sig .tc := ⟨.hbm, 199, rfl⟩
abbrev main_call3_cst_2 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_cst_3 : Ref sig .tc := ⟨.hbm, 204, rfl⟩
abbrev main_call3_v12 : Ref sig .tc := ⟨.hbm, 205, rfl⟩
abbrev main_call3_cst_4 : Ref sig .tc := ⟨.hbm, 206, rfl⟩
abbrev main_call3_call0_v0 : Ref sig .tc := ⟨.hbm, 207, rfl⟩
abbrev main_call3_call0_v1 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_cst_19 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_c_20 : Ref sig .tc := ⟨.hbm, 233, rfl⟩
abbrev main_v151 : Ref sig .tc := ⟨.hbm, 234, rfl⟩
abbrev main_v152 : Ref sig .tc := ⟨.hbm, 235, rfl⟩
abbrev main_c_21 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_c_22 : Ref sig .tc := ⟨.hbm, 242, rfl⟩
abbrev main_v158 : Ref sig .tc := ⟨.hbm, 243, rfl⟩
abbrev main_v159 : Ref sig .tc := ⟨.hbm, 244, rfl⟩
abbrev main_c_23 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_cst_24 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_cst_25 : Ref sig .tc := ⟨.hbm, 277, rfl⟩
abbrev main_v190 : Ref sig .tc := ⟨.hbm, 278, rfl⟩
abbrev main_v191 : Ref sig .tc := ⟨.hbm, 279, rfl⟩
abbrev main_cst_26 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_cst_27 : Ref sig .tc := ⟨.hbm, 284, rfl⟩
abbrev main_v195 : Ref sig .tc := ⟨.hbm, 285, rfl⟩
abbrev main_cst_28 : Ref sig .tc := ⟨.hbm, 286, rfl⟩
abbrev main_v196 : Ref sig .tc := ⟨.hbm, 287, rfl⟩
abbrev main_v197 : Ref sig .tc := ⟨.hbm, 288, rfl⟩
abbrev main_c_29 : Ref sig .tc := ⟨.hbm, 289, rfl⟩
abbrev main_call5_cst : Ref sig .tc := ⟨.hbm, 290, rfl⟩
abbrev main_call5_v0 : Ref sig .tc := ⟨.hbm, 291, rfl⟩
abbrev main_call5_v1 : Ref sig .tc := ⟨.hbm, 292, rfl⟩
abbrev main_call5_cst_0 : Ref sig .tc := ⟨.hbm, 293, rfl⟩
abbrev main_call5_v2 : Ref sig .tc := ⟨.hbm, 294, rfl⟩
abbrev main_call5_v3 : Ref sig .tc := ⟨.hbm, 295, rfl⟩
abbrev main_call5_v4 : Ref sig .tc := ⟨.hbm, 296, rfl⟩
abbrev main_call5_v5 : Ref sig .tc := ⟨.hbm, 297, rfl⟩
abbrev main_call5_v6 : Ref sig .tc := ⟨.hbm, 298, rfl⟩
abbrev main_call5_v7 : Ref sig .tc := ⟨.hbm, 299, rfl⟩
abbrev main_call5_cst_1 : Ref sig .tc := ⟨.hbm, 300, rfl⟩
abbrev main_call5_v8 : Ref sig .tc := ⟨.hbm, 301, rfl⟩
abbrev main_call5_cst_2 : Ref sig .tc := ⟨.hbm, 302, rfl⟩
abbrev main_call5_v9 : Ref sig .tc := ⟨.hbm, 303, rfl⟩
abbrev main_call5_v10 : Ref sig .tc := ⟨.hbm, 304, rfl⟩
abbrev main_call5_v11 : Ref sig .tc := ⟨.hbm, 305, rfl⟩
abbrev main_call5_cst_3 : Ref sig .tc := ⟨.hbm, 306, rfl⟩
abbrev main_call5_v12 : Ref sig .tc := ⟨.hbm, 307, rfl⟩
abbrev main_call5_cst_4 : Ref sig .tc := ⟨.hbm, 308, rfl⟩
abbrev main_call5_call0_v0 : Ref sig .tc := ⟨.hbm, 309, rfl⟩
abbrev main_call5_call0_v1 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_cst_30 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_cst_31 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_cst_32 : Ref sig .tc := ⟨.hbm, 336, rfl⟩
abbrev main_v221 : Ref sig .tc := ⟨.hbm, 337, rfl⟩
abbrev main_cst_33 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_cst_34 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_cst_35 : Ref sig .tc := ⟨.hbm, 351, rfl⟩
abbrev main_v233 : Ref sig .tc := ⟨.hbm, 352, rfl⟩
abbrev main_v234 : Ref sig .tc := ⟨.hbm, 353, rfl⟩
abbrev main_cst_36 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_cst_37 : Ref sig .tc := ⟨.hbm, 362, rfl⟩
abbrev main_v242 : Ref sig .tc := ⟨.hbm, 363, rfl⟩
abbrev main_v243 : Ref sig .tc := ⟨.hbm, 364, rfl⟩
abbrev main_cst_38 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  bcast_S_S850000 : S_.BroadcastsInDim S850000 (![] : Fin 0 → Fin S850000.rank)
  bcast_S850000_S850000x1_0 : S850000.BroadcastsInDim S850000x1 (![0] : Fin 1 → Fin S850000x1.rank)
  concatenates_S850000x128_S850000x128_S850000x256_d1 : Shape.Concatenates [S850000x128, S850000x128] S850000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S850000x128_0_1 : S1x128.BroadcastsInDim S850000x128 (![0, 1] : Fin 2 → Fin S850000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x256x128_S1x256x128_1_0_0 : S3x256x128.Slices ![1, 0, 0] S1x256x128
  slices_S3x128_S1x128_1_0 : S3x128.Slices ![1, 0] S1x128
  slices_S3x128x128_S1x128x128_2_0_0 : S3x128x128.Slices ![2, 0, 0] S1x128x128
  slices_S3x256x128_S1x256x128_2_0_0 : S3x256x128.Slices ![2, 0, 0] S1x256x128
  slices_S3x128_S1x128_2_0 : S3x128.Slices ![2, 0] S1x128
  bcast_S_S50x128 : S_.BroadcastsInDim S50x128 (![] : Fin 0 → Fin S50x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50x1 : S_.BroadcastsInDim S50x1 (![] : Fin 0 → Fin S50x1.rank)
  bcast_S50x1_S50x128_0_1 : S50x1.BroadcastsInDim S50x128 (![0, 1] : Fin 2 → Fin S50x128.rank)
  bcast_S1x128_S50x128_0_1 : S1x128.BroadcastsInDim S50x128 (![0, 1] : Fin 2 → Fin S50x128.rank)
  bcast_S64_S1x64_1 : S64.BroadcastsInDim S1x64 (![1] : Fin 1 → Fin S1x64.rank)
  bcast_S1x64_S50x64_0_1 : S1x64.BroadcastsInDim S50x64 (![0, 1] : Fin 2 → Fin S50x64.rank)
  bcast_S_S50x64 : S_.BroadcastsInDim S50x64 (![] : Fin 0 → Fin S50x64.rank)
  bcast_S2_S1x2_1 : S2.BroadcastsInDim S1x2 (![1] : Fin 1 → Fin S1x2.rank)
  bcast_S1x2_S50x2_0_1 : S1x2.BroadcastsInDim S50x2 (![0, 1] : Fin 2 → Fin S50x2.rank)
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  dot_S850000x256_S256x128_S850000x128_1_0_0_1_n_n_wf : DotDims.WF S850000x256 S256x128 S850000x128 [1] [0] [0] [1] [] []
  scatter_S50000x128_S850000x1_S850000x128_1_0_0_1_wf : ScatterDims.WF S50000x128 S850000x1 S850000x128 [1] [0] [0] 1
  scatter_S50x128_S50000x1_S50000x128_1_0_0_1_wf : ScatterDims.WF S50x128 S50000x1 S50000x128 [1] [0] [0] 1
  scatter_S50x1_S50000x1_S50000x1_1_0_0_1_wf : ScatterDims.WF S50x1 S50000x1 S50000x1 [1] [0] [0] 1
  dot_S50x128_S128x128_S50x128_1_0_0_1_n_n_wf : DotDims.WF S50x128 S128x128 S50x128 [1] [0] [0] [1] [] []
  dot_S50x128_S128x64_S50x64_1_0_0_1_n_n_wf : DotDims.WF S50x128 S128x64 S50x64 [1] [0] [0] [1] [] []
  dot_S50x64_S64x2_S50x2_1_0_0_1_n_n_wf : DotDims.WF S50x64 S64x2 S50x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def dot_S850000x256_S256x128_S850000x128_1_0_0_1_n_n : DotDims S850000x256 S256x128 S850000x128 where
  lhsContracting := [1]
  rhsContracting := [0]
  lhsNonContracting := [0]
  rhsNonContracting := [1]
  lhsBatch := []
  rhsBatch := []
  wf := dot_S850000x256_S256x128_S850000x128_1_0_0_1_n_n_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50x128_S50000x1_S50000x128_1_0_0_1 : ScatterDims S50x128 S50000x1 S50000x128 where
  updateWindowDims := [1]
  insertedWindowDims := [0]
  scatterDimsToOperandDims := [0]
  indexVectorDim := 1
  wf := scatter_S50x128_S50000x1_S50000x128_1_0_0_1_wf
def scatter_S50x1_S50000x1_S50000x1_1_0_0_1 : ScatterDims S50x1 S50000x1 S50000x1 where
  updateWindowDims := [1]
  insertedWindowDims := [0]
  scatterDimsToOperandDims := [0]
  indexVectorDim := 1
  wf := scatter_S50x1_S50000x1_S50000x1_1_0_0_1_wf
def dot_S50x128_S128x128_S50x128_1_0_0_1_n_n : DotDims S50x128 S128x128 S50x128 where
  lhsContracting := [1]
  rhsContracting := [0]
  lhsNonContracting := [0]
  rhsNonContracting := [1]
  lhsBatch := []
  rhsBatch := []
  wf := dot_S50x128_S128x128_S50x128_1_0_0_1_n_n_wf
def dot_S50x128_S128x64_S50x64_1_0_0_1_n_n : DotDims S50x128 S128x64 S50x64 where
  lhsContracting := [1]
  rhsContracting := [0]
  lhsNonContracting := [0]
  rhsNonContracting := [1]
  lhsBatch := []
  rhsBatch := []
  wf := dot_S50x128_S128x64_S50x64_1_0_0_1_n_n_wf
def dot_S50x64_S64x2_S50x2_1_0_0_1_n_n : DotDims S50x64 S64x2 S50x2 where
  lhsContracting := [1]
  rhsContracting := [0]
  lhsNonContracting := [0]
  rhsNonContracting := [1]
  lhsBatch := []
  rhsBatch := []
  wf := dot_S50x64_S64x2_S50x2_1_0_0_1_n_n_wf

class Facts : Prop extends Facts₀ where

variable [Facts]
-- ==== Proof.Ctx.lean ====
import proofs.«427610_j64510408786513_1_alg».proof.Defs

noncomputable section

namespace Cert.Bridge

open Idealize.ShloMosaic Idealize.SL.Sem

abbrev KMem : Type := (ℓ : Loc Cert.KernelIdeal.nD Cert.KernelIdeal.τ Cert.KernelIdeal.sig) → Buf (Elt Ideal) ℓ

abbrev RMem : Type := (ℓ : Loc Cert.ReferenceIdeal.nD Cert.ReferenceIdeal.τ Cert.ReferenceIdeal.sig) → Buf (Elt Ideal) ℓ

-- The two launch memories hold the same eighteen argument arrays.
def Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

-- Every entry of the edge list is a node number in [0, 50000).
def InRange (m : KMem) (c : Dev Cert.KernelIdeal.nD) : Prop :=
  ∀ i : Cert.KernelIdeal.S2x800000.Idx,
    0 ≤ ((m ((c.tc : Thread Cert.KernelIdeal.nD Cert.KernelIdeal.τ).loc Cert.KernelIdeal.main_arg1) : IVec Cert.KernelIdeal.S2x800000 32) i).toInt
    ∧ ((m ((c.tc : Thread Cert.KernelIdeal.nD Cert.KernelIdeal.τ).loc Cert.KernelIdeal.main_arg1) : IVec Cert.KernelIdeal.S2x800000 32) i).toInt < 50000

end Cert.Bridge

end
-- ==== Proof.RefStages.lean ====
import proofs.«427610_j64510408786513_1_alg».proof.Proof.Gen.ReferenceIdeal
import Idealize.ShloMosaic.Lib.StableHlo.Run
import Idealize.ShloMosaic.Lib.Pipeline.Frame

set_option maxRecDepth 2588

noncomputable section

namespace Cert.ReferenceIdeal.Stages

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

abbrev sP : List (HloOp τ sig (Elt F)) :=
  ( StableHlo.unary main_arg2 main_v0 (Host.absf : (⟨S800000, .f32⟩ : BufTy).Contents (Elt F) → (⟨S800000, .f32⟩ : BufTy).Contents (Elt F))
  :: StableHlo.nullary main_v1 (iotaInDim S50000 32 0)
  :: StableHlo.unary main_arg1 main_v2 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v2 main_v3 rfl shapeCasts_S1x800000_S800000
  :: StableHlo.binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.unary main_arg1 main_v5 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v5 main_v6 rfl shapeCasts_S1x800000_S800000
  :: StableHlo.binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))
  :: StableHlo.unary main_arg4 main_v8 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v8 main_v9 rfl shapeCasts_S1x128x128_S128x128
  :: [] )
abbrev sH0 : List (HloOp τ sig (Elt F)) :=
  ( StableHlo.binary main_arg0 main_v9 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: [] )
abbrev sG0 : List (HloOp τ sig (Elt F)) :=
  ( StableHlo.nullary main_c (constantI S_ 32 0#32)
  :: StableHlo.unary main_c main_v11 (broadcastInDim S850000 ![] bcast_S_S850000 : (⟨S_, .i32⟩ : BufTy).Contents (Elt F) → (⟨S850000, .i32⟩ : BufTy).Contents (Elt F))
  :: StableHlo.binary main_v7 main_v11 main_v12 (cmpi .slt : (⟨S850000, .i32⟩ : BufTy).Contents (Elt F) → (⟨S850000, .i32⟩ : BufTy).Contents (Elt F) → (⟨S850000, .i1⟩ : BufTy).Contents (Elt F))
  :: StableHlo.nullary main_c_0 (constantI S_ 32 50000#32)
  :: StableHlo.unary main_c_0 main_v13 (broadcastInDim S850000 ![] bcast_S_S850000 : (⟨S_, .i32⟩ : BufTy).Contents (Elt F) → (⟨S850000, .i32⟩ : BufTy).Contents (Elt F))
  :: StableHlo.binary main_v7 main_v13 main_v14 (addi : (⟨S850000, .i32⟩ : BufTy).Contents (Elt F) → (⟨S850000, .i32⟩ : BufTy).Contents (Elt F) → (⟨S850000, .i32⟩ : BufTy).Contents (Elt F))
  :: StableHlo.ternary main_v12 main_v14 main_v7 main_v15 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v15 main_v16 (broadcastInDim S850000x1 ![0] bcast_S850000_S850000x1_0 : (⟨S850000, .i32⟩ : BufTy).Contents (Elt F) → (⟨S850000x1, .i32⟩ : BufTy).Contents (Elt F))
  :: StableHlo.binary main_v10 main_v16 main_v17 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: StableHlo.nullary main_c_1 (constantI S_ 32 0#32)
  :: StableHlo.unary main_c_1 main_v18 (broadcastInDim S850000 ![] bcast_S_S850000 : (⟨S_, .i32⟩ : BufTy).Contents (Elt F) → (⟨S850000, .i32⟩ : BufTy).Contents (Elt F))
  :: StableHlo.binary main_v4 main_v18 main_v19 (cmpi .slt : (⟨S850000, .i32⟩ : BufTy).Contents (Elt F) → (⟨S850000, .i32⟩ : BufTy).Contents (Elt F) → (⟨S850000, .i1⟩ : BufTy).Contents (Elt F))
  :: StableHlo.nullary main_c_2 (constantI S_ 32 50000#32)
  :: StableHlo.unary main_c_2 main_v20 (broadcastInDim S850000 ![] bcast_S_S850000 : (⟨S_, .i32⟩ : BufTy).Contents (Elt F) → (⟨S850000, .i32⟩ : BufTy).Contents (Elt F))
  :: StableHlo.binary main_v4 main_v20 main_v21 (addi : (⟨S850000, .i32⟩ : BufTy).Contents (Elt F) → (⟨S850000, .i32⟩ : BufTy).Contents (Elt F) → (⟨S850000, .i32⟩ : BufTy).Contents (Elt F))
  :: StableHlo.ternary main_v19 main_v21 main_v4 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v22 main_v23 (broadcastInDim S850000x1 ![0] bcast_S850000_S850000x1_0 : (⟨S850000, .i32⟩ : BufTy).Contents (Elt F) → (⟨S850000x1, .i32⟩ : BufTy).Contents (Elt F))
  :: StableHlo.binary main_v10 main_v23 main_v24 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: [] )
abbrev sM0 : List (HloOp τ sig (Elt F)) :=
  ( StableHlo.binary main_v17 main_v24 main_v25 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F))
  :: StableHlo.unary main_arg6 main_v26 ((extractStridedSlice S1x256x128 ![0, 0, 0] · slices_S3x256x128_S1x256x128_0_0_0) : (⟨S3x256x128, .f32⟩ : BufTy).Contents (Elt F) → (⟨S1x256x128, .f32⟩ : BufTy).Contents (Elt F))
  :: StableHlo.reshape main_v26 main_v27 rfl shapeCasts_S1x256x128_S256x128
  :: StableHlo.binary main_v25 main_v27 main_v28 ((fun l r => Host.dotGeneral dot_S850000x256_S256x128_S850000x128_1_0_0_1_n_n none l r) : (⟨S850000x256, .f32⟩ : BufTy).Contents (Elt F) → (⟨S256x128, .f32⟩ : BufTy).Contents (Elt F) → (⟨S850000x128, .f32⟩ : BufTy).Contents (Elt F))
  :: StableHlo.unary main_arg7 main_v29 ((extractStridedSlice S1x128 ![0, 0] · slices_S3x128_S1x128_0_0) : (⟨S3x128, .f32⟩ : BufTy).Contents (Elt F) → (⟨S1x128, .f32⟩ : BufTy).Contents (Elt F))
  :: StableHlo.reshape main_v29 main_v30 rfl shapeCasts_S1x128_S128
  :: StableHlo.unary main_v30 main_v31 (broadcastInDim S1x128 ![1] bcast_S128_S1x128_1 : (⟨S128, .f32⟩ : BufTy).Contents (Elt F) → (⟨S1x128, .f32⟩ : BufTy).Contents (Elt F))
  :: StableHlo.unary main_v31 main_v32 (broadcastInDim S850000x128 ![0, 1] bcast_S1x128_S850000x128_0_1 : (⟨S1x128, .f32⟩ : BufTy).Contents (Elt F) → (⟨S850000x128, .f32⟩ : BufTy).Contents (Elt F))
  :: StableHlo.binary main_v28 main_v32 main_v33 (addf : (⟨S850000x128, .f32⟩ : BufTy).Contents (Elt F) → (⟨S850000x128, .f32⟩ : BufTy).Contents (Elt F) → (⟨S850000x128, .f32⟩ : BufTy).Contents (Elt F))
  :: [] )
abbrev sA0 : List (HloOp τ sig (Elt F)) :=
  ( StableHlo.nullary main_cst (constant S_ .f32 0x00000000#32)
  :: StableHlo.unary main_cst main_v34 (broadcastInDim S50000x128 ![] bcast_S_S50000x128 : (⟨S_, .f32⟩ : BufTy).Contents (Elt F) → (⟨S50000x128, .f32⟩ : BufTy).Contents (Elt F))
  :: StableHlo.unary main_v7 main_v35 (broadcastInDim S850000x1 ![0] bcast_S850000_S850000x1_0 : (⟨S850000, .i32⟩ : BufTy).Contents (Elt F) → (⟨S850000x1, .i32⟩ : BufTy).Contents (Elt F))
  :: StableHlo.ternary main_v34 main_v35 main_v33 main_v36 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F))
  :: StableHlo.unary main_arg5 main_v37 ((extractStridedSlice S1x128 ![0, 0] · slices_S3x128_S1x128_0_0) : (⟨S3x128, .f32⟩ : BufTy).Contents (Elt F) → (⟨S1x128, .f32⟩ : BufTy).Contents (Elt F))
  :: StableHlo.reshape main_v37 main_v38 rfl shapeCasts_S1x128_S128
  :: StableHlo.unary main_v38 main_v39 (broadcastInDim S1x128 ![1] bcast_S128_S1x128_1 : (⟨S128, .f32⟩ : BufTy).Contents (Elt F) → (⟨S1x128, .f32⟩ : BufTy).Contents (Elt F))
  :: StableHlo.unary main_v39 main_v40 (broadcastInDim S50000x128 ![0, 1] bcast_S1x128_S50000x128_0_1 : (⟨S1x128, .f32⟩ : BufTy).Contents (Elt F) → (⟨S50000x128, .f32⟩ : BufTy).Contents (Elt F))
  :: StableHlo.binary main_v36 main_v40 main_v41 (addf : (⟨S50000x128, .f32⟩ : BufTy).Contents (Elt F) → (⟨S50000x128, .f32⟩ : BufTy).Contents (Elt F) → (⟨S50000x128, .f32⟩ : BufTy).Contents (Elt F))
  :: [] )
abbrev sD0a : List (HloOp τ sig (Elt F)) :=
  ( StableHlo.unary main_arg8 main_v42 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v42 main_v43 rfl shapeCasts_S1x128x128_S128x128
  :: StableHlo.binary main_v41 main_v43 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg9 main_v45 ((extractStridedSlice S1x128 ![0, 0] · slices_S3x128_S1x128_0_0) : (⟨S3x128, .f32⟩ : BufTy).Contents (Elt F) → (⟨S1x128, .f32⟩ : BufTy).Contents (Elt F))
  :: StableHlo.reshape main_v45 main_v46 rfl shapeCasts_S1x128_S128
  :: StableHlo.unary main_v46 main_v47 (broadcastInDim S1x128 ![1] bcast_S128_S1x128_1 : (⟨S128, .f32⟩ : BufTy).Contents (Elt F) → (⟨S1x128, .f32⟩ : BufTy).Contents (Elt F))
  :: StableHlo.unary main_v47 main_v48 (broadcastInDim S50000x128 ![0, 1] bcast_S1x128_S50000x128_0_1 : (⟨S1x128, .f32⟩ : BufTy).Contents (Elt F) → (⟨S50000x128, .f32⟩ : BufTy).Contents (Elt F))
  :: StableHlo.binary main_v44 main_v48 main_v49 (addf : (⟨S50000x128, .f32⟩ : BufTy).Contents (Elt F) → (⟨S50000x128, .f32⟩ : BufTy).Contents (Elt F) → (⟨S50000x128, .f32⟩ : BufTy).Contents (Elt F))
  :: StableHlo.nullary main_cst_3 (constant S_ .f32 0x00000000#32)
  :: StableHlo.unary main_cst_3 main_v50 (broadcastInDim S50000x128 ![] bcast_S_S50000x128 : (⟨S_, .f32⟩ : BufTy).Contents (Elt F) → (⟨S50000x128, .f32⟩ : BufTy).Contents (Elt F))
  :: StableHlo.binary main_v49 main_v50 main_v51 (cmpf .oge : (⟨S50000x128, .f32⟩ : BufTy).Contents (Elt F) → (⟨S50000x128, .f32⟩ : BufTy).Contents (Elt F) → (⟨S50000x128, .i1⟩ : BufTy).Contents (Elt F))
  :: StableHlo.nullary main_cst_4 (constant S_ .f32 0x3E4CCCCD#32)
  :: StableHlo.unary main_cst_4 main_v52 (broadcastInDim S50000x128 ![] bcast_S_S50000x128 : (⟨S_, .f32⟩ : BufTy).Contents (Elt F) → (⟨S50000x128, .f32⟩ : BufTy).Contents (Elt F))
  :: [] )
abbrev sD0b : List (HloOp τ sig (Elt F)) :=
  ( StableHlo.binary main_v52 main_v49 main_v53 (mulf : (⟨S50000x128, .f32⟩ : BufTy).Contents (Elt F) → (⟨S50000x128, .f32⟩ : BufTy).Contents (Elt F) → (⟨S50000x128, .f32⟩ : BufTy).Contents (Elt F))
  :: [] )
abbrev sD0c : List (HloOp τ sig (Elt F)) :=
  ( StableHlo.TRef.ternary (.of main_v51 : StableHlo.TRef sig ⟨S50000x128, .i1⟩) (.of main_v49 : StableHlo.TRef sig ⟨S50000x128, .f32⟩) (.of main_v53 : StableHlo.TRef sig ⟨S50000x128, .f32⟩) (.of main_v54 : StableHlo.TRef sig ⟨S50000x128, .f32⟩) select
  :: [] )
abbrev sD0 : List (HloOp τ sig (Elt F)) := sD0a ++ (sD0b ++ (sD0c))
abbrev sB0a : List (HloOp τ sig (Elt F)) :=
  ( StableHlo.nullary main_cst_5 (constant S_ .f32 0x00000000#32)
  :: StableHlo.binary main_v54 main_cst_5 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_6 (constant S_ .f32 0x47435000#32)
  :: StableHlo.unary main_cst_6 main_v56 (broadcastInDim S128 ![] bcast_S_S128 : (⟨S_, .f32⟩ : BufTy).Contents (Elt F) → (⟨S128, .f32⟩ : BufTy).Contents (Elt F))
  :: StableHlo.binary main_v55 main_v56 main_v57 (Host.divf : (⟨S128, .f32⟩ : BufTy).Contents (Elt F) → (⟨S128, .f32⟩ : BufTy).Contents (Elt F) → (⟨S128, .f32⟩ : BufTy).Contents (Elt F))
  :: StableHlo.nullary main_c_7 (constantI S_ 32 0#32)
  :: [] )
abbrev sB0b : List (HloOp τ sig (Elt F)) :=
  ( StableHlo.TRef.nullary (.of main_call1_cst : StableHlo.TRef sig ⟨S_, .f32⟩) (constant S_ .f32 0x00000000#32)
  :: StableHlo.TRef.binary (.of main_v54 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_)
  :: StableHlo.TRef.unary (.of main_call1_v0 : StableHlo.TRef sig ⟨S128, .f32⟩) (.of main_call1_v1 : StableHlo.TRef sig ⟨S1x128, .f32⟩) (broadcastInDim S1x128 ![1] bcast_S128_S1x128_1)
  :: StableHlo.TRef.nullary (.of main_call1_cst_0 : StableHlo.TRef sig ⟨S_, .f32⟩) (constant S_ .f32 0x47435000#32)
  :: StableHlo.TRef.unary (.of main_call1_cst_0 : StableHlo.TRef sig ⟨S_, .f32⟩) (.of main_call1_v2 : StableHlo.TRef sig ⟨S1x128, .f32⟩) (broadcastInDim S1x128 ![] bcast_S_S1x128)
  :: StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf
  :: StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1)
  :: StableHlo.TRef.binary (.of main_v54 : StableHlo.TRef sig ⟨S50000x128, .f32⟩) (.of main_call1_v4 : StableHlo.TRef sig ⟨S50000x128, .f32⟩) (.of main_call1_v5 : StableHlo.TRef sig ⟨S50000x128, .f32⟩) subf
  :: StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf
  :: StableHlo.TRef.unary (.of main_c_7 : StableHlo.TRef sig ⟨S_, .i32⟩) (.of main_call1_v7 : StableHlo.TRef sig ⟨S_, .f32⟩) (sitofp .f32)
  :: StableHlo.TRef.nullary (.of main_call1_cst_1 : StableHlo.TRef sig ⟨S_, .f32⟩) (constant S_ .f32 0x47435000#32)
  :: StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf
  :: StableHlo.TRef.nullary (.of main_call1_cst_2 : StableHlo.TRef sig ⟨S_, .f32⟩) (constant S_ .f32 0x00000000#32)
  :: StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_)
  :: StableHlo.TRef.unary (.of main_call1_v8 : StableHlo.TRef sig ⟨S_, .f32⟩) (.of main_call1_v10 : StableHlo.TRef sig ⟨S128, .f32⟩) (broadcastInDim S128 ![] bcast_S_S128)
  :: StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf
  :: StableHlo.TRef.nullary (.of main_call1_cst_3 : StableHlo.TRef sig ⟨S_, .f32⟩) (constant S_ .f32 0x00000000#32)
  :: StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt)
  :: StableHlo.TRef.nullary (.of main_call1_cst_4 : StableHlo.TRef sig ⟨S_, .f32⟩) (constant S_ .f32 0x7FC00000#32)
  :: StableHlo.TRef.unary (.of main_call1_cst_4 : StableHlo.TRef sig ⟨S_, .f32⟩) (.of main_call1_call0_v0 : StableHlo.TRef sig ⟨S_, .f32⟩) id
  :: StableHlo.TRef.unary (.of main_call1_call0_v0 : StableHlo.TRef sig ⟨S_, .f32⟩) (.of main_call1_call0_v1 : StableHlo.TRef sig ⟨S128, .f32⟩) (broadcastInDim S128 ![] bcast_S_S128)
  :: StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v58 : StableHlo.TRef sig ⟨S128, .f32⟩) (fun p a b => select (broadcastInDim S128 ![] bcast_S_S128 p) a b)
  :: [] )
abbrev sB0c : List (HloOp τ sig (Elt F)) :=
  ( StableHlo.unary main_arg10 main_v59 ((extractStridedSlice S1x128 ![0, 0] · slices_S3x128_S1x128_0_0) : (⟨S3x128, .f32⟩ : BufTy).Contents (Elt F) → (⟨S1x128, .f32⟩ : BufTy).Contents (Elt F))
  :: StableHlo.reshape main_v59 main_v60 rfl shapeCasts_S1x128_S128
  :: StableHlo.unary main_v57 main_v61 (broadcastInDim S1x128 ![1] bcast_S128_S1x128_1 : (⟨S128, .f32⟩ : BufTy).Contents (Elt F) → (⟨S1x128, .f32⟩ : BufTy).Contents (Elt F))
  :: StableHlo.unary main_v61 main_v62 (broadcastInDim S50000x128 ![0, 1] bcast_S1x128_S50000x128_0_1 : (⟨S1x128, .f32⟩ : BufTy).Contents (Elt F) → (⟨S50000x128, .f32⟩ : BufTy).Contents (Elt F))
  :: StableHlo.binary main_v54 main_v62 main_v63 (subf : (⟨S50000x128, .f32⟩ : BufTy).Contents (Elt F) → (⟨S50000x128, .f32⟩ : BufTy).Contents (Elt F) → (⟨S50000x128, .f32⟩ : BufTy).Contents (Elt F))
  :: StableHlo.unary main_v60 main_v64 (broadcastInDim S1x128 ![1] bcast_S128_S1x128_1 : (⟨S128, .f32⟩ : BufTy).Contents (Elt F) → (⟨S1x128, .f32⟩ : BufTy).Contents (Elt F))
  :: StableHlo.unary main_v64 main_v65 (broadcastInDim S50000x128 ![0, 1] bcast_S1x128_S50000x128_0_1 : (⟨S1x128, .f32⟩ : BufTy).Contents (Elt F) → (⟨S50000x128, .f32⟩ : BufTy).Contents (Elt F))
  :: StableHlo.binary main_v65 main_v63 main_v66 (mulf : (⟨S50000x128, .f32⟩ : BufTy).Contents (Elt F) → (⟨S50000x128, .f32⟩ : BufTy).Contents (Elt F) → (⟨S50000x128, .f32⟩ : BufTy).Contents (Elt F))
  :: StableHlo.nullary main_cst_8 (constant S_ .f32 0x3727C5AC#32)
  :: StableHlo.unary main_cst_8 main_v67 (broadcastInDim S128 ![] bcast_S_S128 : (⟨S_, .f32⟩ : BufTy).Contents (Elt F) → (⟨S128, .f32⟩ : BufTy).Contents (Elt F))
  :: StableHlo.binary main_v58 main_v67 main_v68 (addf : (⟨S128, .f32⟩ : BufTy).Contents (Elt F) → (⟨S128, .f32⟩ : BufTy).Contents (Elt F) → (⟨S128, .f32⟩ : BufTy).Contents (Elt F))
  :: StableHlo.unary main_v68 main_v69 (Host.rsqrt : (⟨S128, .f32⟩ : BufTy).Contents (Elt F) → (⟨S128, .f32⟩ : BufTy).Contents (Elt F))
  :: StableHlo.unary main_v69 main_v70 (broadcastInDim S1x128 ![1] bcast_S128_S1x128_1 : (⟨S128, .f32⟩ : BufTy).Contents (Elt F) → (⟨S1x128, .f32⟩ : BufTy).Contents (Elt F))
  :: StableHlo.unary main_v70 main_v71 (broadcastInDim S50000x128 ![0, 1] bcast_S1x128_S50000x128_0_1 : (⟨S1x128, .f32⟩ : BufTy).Contents (Elt F) → (⟨S50000x128, .f32⟩ : BufTy).Contents (Elt F))
  :: StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F))
  :: StableHlo.unary main_arg11 main_v73 ((extractStridedSlice S1x128 ![0, 0] · slices_S3x128_S1x128_0_0) : (⟨S3x128, .f32⟩ : BufTy).Contents (Elt F) → (⟨S1x128, .f32⟩ : BufTy).Contents (Elt F))
  :: StableHlo.reshape main_v73 main_v74 rfl shapeCasts_S1x128_S128
  :: StableHlo.unary main_v74 main_v75 (broadcastInDim S1x128 ![1] bcast_S128_S1x128_1 : (⟨S128, .f32⟩ : BufTy).Contents (Elt F) → (⟨S1x128, .f32⟩ : BufTy).Contents (Elt F))
  :: StableHlo.unary main_v75 main_v76 (broadcastInDim S50000x128 ![0, 1] bcast_S1x128_S50000x128_0_1 : (⟨S1x128, .f32⟩ : BufTy).Contents (Elt F) → (⟨S50000x128, .f32⟩ : BufTy).Contents (Elt F))
  :: StableHlo.binary main_v72 main_v76 main_v77 (addf : (⟨S50000x128, .f32⟩ : BufTy).Contents (Elt F) → (⟨S50000x128, .f32⟩ : BufTy).Contents (Elt F) → (⟨S50000x128, .f32⟩ : BufTy).Contents (Elt F))
  :: StableHlo.unary main_arg4 main_v78 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v78 main_v79 rfl shapeCasts_S1x128x128_S128x128
  :: [] )
abbrev sB0 : List (HloOp τ sig (Elt F)) := sB0a ++ (sB0b ++ (sB0c))
abbrev sH1 : List (HloOp τ sig (Elt F)) :=
  ( StableHlo.binary main_v77 main_v79 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: [] )
abbrev sG1 : List (HloOp τ sig (Elt F)) :=
  ( StableHlo.nullary main_c_9 (constantI S_ 32 0#32)
  :: StableHlo.unary main_c_9 main_v81 (broadcastInDim S850000 ![] bcast_S_S850000 : (⟨S_, .i32⟩ : BufTy).Contents (Elt F) → (⟨S850000, .i32⟩ : BufTy).Contents (Elt F))
  :: StableHlo.binary main_v7 main_v81 main_v82 (cmpi .slt : (⟨S850000, .i32⟩ : BufTy).Contents (Elt F) → (⟨S850000, .i32⟩ : BufTy).Contents (Elt F) → (⟨S850000, .i1⟩ : BufTy).Contents (Elt F))
  :: StableHlo.nullary main_c_10 (constantI S_ 32 50000#32)
  :: StableHlo.unary main_c_10 main_v83 (broadcastInDim S850000 ![] bcast_S_S850000 : (⟨S_, .i32⟩ : BufTy).Contents (Elt F) → (⟨S850000, .i32⟩ : BufTy).Contents (Elt F))
  :: StableHlo.binary main_v7 main_v83 main_v84 (addi : (⟨S850000, .i32⟩ : BufTy).Contents (Elt F) → (⟨S850000, .i32⟩ : BufTy).Contents (Elt F) → (⟨S850000, .i32⟩ : BufTy).Contents (Elt F))
  :: StableHlo.ternary main_v82 main_v84 main_v7 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v85 main_v86 (broadcastInDim S850000x1 ![0] bcast_S850000_S850000x1_0 : (⟨S850000, .i32⟩ : BufTy).Contents (Elt F) → (⟨S850000x1, .i32⟩ : BufTy).Contents (Elt F))
  :: StableHlo.binary main_v80 main_v86 main_v87 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: StableHlo.nullary main_c_11 (constantI S_ 32 0#32)
  :: StableHlo.unary main_c_11 main_v88 (broadcastInDim S850000 ![] bcast_S_S850000 : (⟨S_, .i32⟩ : BufTy).Contents (Elt F) → (⟨S850000, .i32⟩ : BufTy).Contents (Elt F))
  :: StableHlo.binary main_v4 main_v88 main_v89 (cmpi .slt : (⟨S850000, .i32⟩ : BufTy).Contents (Elt F) → (⟨S850000, .i32⟩ : BufTy).Contents (Elt F) → (⟨S850000, .i1⟩ : BufTy).Contents (Elt F))
  :: StableHlo.nullary main_c_12 (constantI S_ 32 50000#32)
  :: StableHlo.unary main_c_12 main_v90 (broadcastInDim S850000 ![] bcast_S_S850000 : (⟨S_, .i32⟩ : BufTy).Contents (Elt F) → (⟨S850000, .i32⟩ : BufTy).Contents (Elt F))
  :: StableHlo.binary main_v4 main_v90 main_v91 (addi : (⟨S850000, .i32⟩ : BufTy).Contents (Elt F) → (⟨S850000, .i32⟩ : BufTy).Contents (Elt F) → (⟨S850000, .i32⟩ : BufTy).Contents (Elt F))
  :: StableHlo.ternary main_v89 main_v91 main_v4 main_v92 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v92 main_v93 (broadcastInDim S850000x1 ![0] bcast_S850000_S850000x1_0 : (⟨S850000, .i32⟩ : BufTy).Contents (Elt F) → (⟨S850000x1, .i32⟩ : BufTy).Contents (Elt F))
  :: StableHlo.binary main_v80 main_v93 main_v94 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: [] )
abbrev sM1 : List (HloOp τ sig (Elt F)) :=
  ( StableHlo.binary main_v87 main_v94 main_v95 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F))
  :: StableHlo.unary main_arg6 main_v96 ((extractStridedSlice S1x256x128 ![1, 0, 0] · slices_S3x256x128_S1x256x128_1_0_0) : (⟨S3x256x128, .f32⟩ : BufTy).Contents (Elt F) → (⟨S1x256x128, .f32⟩ : BufTy).Contents (Elt F))
  :: StableHlo.reshape main_v96 main_v97 rfl shapeCasts_S1x256x128_S256x128
  :: StableHlo.binary main_v95 main_v97 main_v98 ((fun l r => Host.dotGeneral dot_S850000x256_S256x128_S850000x128_1_0_0_1_n_n none l r) : (⟨S850000x256, .f32⟩ : BufTy).Contents (Elt F) → (⟨S256x128, .f32⟩ : BufTy).Contents (Elt F) → (⟨S850000x128, .f32⟩ : BufTy).Contents (Elt F))
  :: StableHlo.unary main_arg7 main_v99 ((extractStridedSlice S1x128 ![1, 0] · slices_S3x128_S1x128_1_0) : (⟨S3x128, .f32⟩ : BufTy).Contents (Elt F) → (⟨S1x128, .f32⟩ : BufTy).Contents (Elt F))
  :: StableHlo.reshape main_v99 main_v100 rfl shapeCasts_S1x128_S128
  :: StableHlo.unary main_v100 main_v101 (broadcastInDim S1x128 ![1] bcast_S128_S1x128_1 : (⟨S128, .f32⟩ : BufTy).Contents (Elt F) → (⟨S1x128, .f32⟩ : BufTy).Contents (Elt F))
  :: StableHlo.unary main_v101 main_v102 (broadcastInDim S850000x128 ![0, 1] bcast_S1x128_S850000x128_0_1 : (⟨S1x128, .f32⟩ : BufTy).Contents (Elt F) → (⟨S850000x128, .f32⟩ : BufTy).Contents (Elt F))
  :: StableHlo.binary main_v98 main_v102 main_v103 (addf : (⟨S850000x128, .f32⟩ : BufTy).Contents (Elt F) → (⟨S850000x128, .f32⟩ : BufTy).Contents (Elt F) → (⟨S850000x128, .f32⟩ : BufTy).Contents (Elt F))
  :: [] )
abbrev sA1a : List (HloOp τ sig (Elt F)) :=
  ( StableHlo.nullary main_cst_13 (constant S_ .f32 0x00000000#32)
  :: [] )
abbrev sA1b : List (HloOp τ sig (Elt F)) :=
  ( StableHlo.unary main_cst_13 main_v104 (broadcastInDim S50000x128 ![] bcast_S_S50000x128 : (⟨S_, .f32⟩ : BufTy).Contents (Elt F) → (⟨S50000x128, .f32⟩ : BufTy).Contents (Elt F))
  :: StableHlo.unary main_v7 main_v105 (broadcastInDim S850000x1 ![0] bcast_S850000_S850000x1_0 : (⟨S850000, .i32⟩ : BufTy).Contents (Elt F) → (⟨S850000x1, .i32⟩ : BufTy).Contents (Elt F))
  :: StableHlo.ternary main_v104 main_v105 main_v103 main_v106 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F))
  :: StableHlo.unary main_arg5 main_v107 ((extractStridedSlice S1x128 ![1, 0] · slices_S3x128_S1x128_1_0) : (⟨S3x128, .f32⟩ : BufTy).Contents (Elt F) → (⟨S1x128, .f32⟩ : BufTy).Contents (Elt F))
  :: StableHlo.reshape main_v107 main_v108 rfl shapeCasts_S1x128_S128
  :: StableHlo.unary main_v108 main_v109 (broadcastInDim S1x128 ![1] bcast_S128_S1x128_1 : (⟨S128, .f32⟩ : BufTy).Contents (Elt F) → (⟨S1x128, .f32⟩ : BufTy).Contents (Elt F))
  :: StableHlo.unary main_v109 main_v110 (broadcastInDim S50000x128 ![0, 1] bcast_S1x128_S50000x128_0_1 : (⟨S1x128, .f32⟩ : BufTy).Contents (Elt F) → (⟨S50000x128, .f32⟩ : BufTy).Contents (Elt F))
  :: StableHlo.binary main_v106 main_v110 main_v111 (addf : (⟨S50000x128, .f32⟩ : BufTy).Contents (Elt F) → (⟨S50000x128, .f32⟩ : BufTy).Contents (Elt F) → (⟨S50000x128, .f32⟩ : BufTy).Contents (Elt F))
  :: [] )
abbrev sA1 : List (HloOp τ sig (Elt F)) := sA1a ++ (sA1b)
abbrev sD1a : List (HloOp τ sig (Elt F)) :=
  ( StableHlo.unary main_arg8 main_v112 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v112 main_v113 rfl shapeCasts_S1x128x128_S128x128
  :: StableHlo.binary main_v111 main_v113 main_v114 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg9 main_v115 ((extractStridedSlice S1x128 ![1, 0] · slices_S3x128_S1x128_1_0) : (⟨S3x128, .f32⟩ : BufTy).Contents (Elt F) → (⟨S1x128, .f32⟩ : BufTy).Contents (Elt F))
  :: StableHlo.reshape main_v115 main_v116 rfl shapeCasts_S1x128_S128
  :: StableHlo.unary main_v116 main_v117 (broadcastInDim S1x128 ![1] bcast_S128_S1x128_1 : (⟨S128, .f32⟩ : BufTy).Contents (Elt F) → (⟨S1x128, .f32⟩ : BufTy).Contents (Elt F))
  :: StableHlo.unary main_v117 main_v118 (broadcastInDim S50000x128 ![0, 1] bcast_S1x128_S50000x128_0_1 : (⟨S1x128, .f32⟩ : BufTy).Contents (Elt F) → (⟨S50000x128, .f32⟩ : BufTy).Contents (Elt F))
  :: StableHlo.binary main_v114 main_v118 main_v119 (addf : (⟨S50000x128, .f32⟩ : BufTy).Contents (Elt F) → (⟨S50000x128, .f32⟩ : BufTy).Contents (Elt F) → (⟨S50000x128, .f32⟩ : BufTy).Contents (Elt F))
  :: StableHlo.nullary main_cst_14 (constant S_ .f32 0x00000000#32)
  :: StableHlo.unary main_cst_14 main_v120 (broadcastInDim S50000x128 ![] bcast_S_S50000x128 : (⟨S_, .f32⟩ : BufTy).Contents (Elt F) → (⟨S50000x128, .f32⟩ : BufTy).Contents (Elt F))
  :: StableHlo.binary main_v119 main_v120 main_v121 (cmpf .oge : (⟨S50000x128, .f32⟩ : BufTy).Contents (Elt F) → (⟨S50000x128, .f32⟩ : BufTy).Contents (Elt F) → (⟨S50000x128, .i1⟩ : BufTy).Contents (Elt F))
  :: StableHlo.nullary main_cst_15 (constant S_ .f32 0x3E4CCCCD#32)
  :: StableHlo.unary main_cst_15 main_v122 (broadcastInDim S50000x128 ![] bcast_S_S50000x128 : (⟨S_, .f32⟩ : BufTy).Contents (Elt F) → (⟨S50000x128, .f32⟩ : BufTy).Contents (Elt F))
  :: StableHlo.binary main_v122 main_v119 main_v123 (mulf : (⟨S50000x128, .f32⟩ : BufTy).Contents (Elt F) → (⟨S50000x128, .f32⟩ : BufTy).Contents (Elt F) → (⟨S50000x128, .f32⟩ : BufTy).Contents (Elt F))
  :: [] )
abbrev sD1b : List (HloOp τ sig (Elt F)) :=
  ( StableHlo.TRef.ternary (.of main_v121 : StableHlo.TRef sig ⟨S50000x128, .i1⟩) (.of main_v119 : StableHlo.TRef sig ⟨S50000x128, .f32⟩) (.of main_v123 : StableHlo.TRef sig ⟨S50000x128, .f32⟩) (.of main_v124 : StableHlo.TRef sig ⟨S50000x128, .f32⟩) select
  :: [] )
abbrev sD1 : List (HloOp τ sig (Elt F)) := sD1a ++ (sD1b)
abbrev sB1a : List (HloOp τ sig (Elt F)) :=
  ( StableHlo.nullary main_cst_16 (constant S_ .f32 0x00000000#32)
  :: StableHlo.binary main_v124 main_cst_16 main_v125 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_17 (constant S_ .f32 0x47435000#32)
  :: StableHlo.unary main_cst_17 main_v126 (broadcastInDim S128 ![] bcast_S_S128 : (⟨S_, .f32⟩ : BufTy).Contents (Elt F) → (⟨S128, .f32⟩ : BufTy).Contents (Elt F))
  :: StableHlo.binary main_v125 main_v126 main_v127 (Host.divf : (⟨S128, .f32⟩ : BufTy).Contents (Elt F) → (⟨S128, .f32⟩ : BufTy).Contents (Elt F) → (⟨S128, .f32⟩ : BufTy).Contents (Elt F))
  :: StableHlo.nullary main_c_18 (constantI S_ 32 0#32)
  :: [] )
abbrev sB1b : List (HloOp τ sig (Elt F)) :=
  ( StableHlo.TRef.nullary (.of main_call3_cst : StableHlo.TRef sig ⟨S_, .f32⟩) (constant S_ .f32 0x00000000#32)
  :: StableHlo.TRef.binary (.of main_v124 : StableHlo.TRef sig ⟨S50000x128, .f32⟩) (.of main_call3_cst : StableHlo.TRef sig ⟨S_, .f32⟩) (.of main_call3_v0 : StableHlo.TRef sig ⟨S128, .f32⟩) (fun x v => Host.reduceAdd x v reducesTo_S50000x128_S128_d0 h_S_)
  :: StableHlo.TRef.unary (.of main_call3_v0 : StableHlo.TRef sig ⟨S128, .f32⟩) (.of main_call3_v1 : StableHlo.TRef sig ⟨S1x128, .f32⟩) (broadcastInDim S1x128 ![1] bcast_S128_S1x128_1)
  :: StableHlo.TRef.nullary (.of main_call3_cst_0 : StableHlo.TRef sig ⟨S_, .f32⟩) (constant S_ .f32 0x47435000#32)
  :: StableHlo.TRef.unary (.of main_call3_cst_0 : StableHlo.TRef sig ⟨S_, .f32⟩) (.of main_call3_v2 : StableHlo.TRef sig ⟨S1x128, .f32⟩) (broadcastInDim S1x128 ![] bcast_S_S1x128)
  :: StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf
  :: StableHlo.TRef.unary (.of main_call3_v3 : StableHlo.TRef sig ⟨S1x128, .f32⟩) (.of main_call3_v4 : StableHlo.TRef sig ⟨S50000x128, .f32⟩) (broadcastInDim S50000x128 ![0, 1] bcast_S1x128_S50000x128_0_1)
  :: StableHlo.TRef.binary (.of main_v124 : StableHlo.TRef sig ⟨S50000x128, .f32⟩) (.of main_call3_v4 : StableHlo.TRef sig ⟨S50000x128, .f32⟩) (.of main_call3_v5 : StableHlo.TRef sig ⟨S50000x128, .f32⟩) subf
  :: StableHlo.TRef.binary (.of main_call3_v5 : StableHlo.TRef sig ⟨S50000x128, .f32⟩) (.of main_call3_v5 : StableHlo.TRef sig ⟨S50000x128, .f32⟩) (.of main_call3_v6 : StableHlo.TRef sig ⟨S50000x128, .f32⟩) mulf
  :: StableHlo.TRef.unary (.of main_c_18 : StableHlo.TRef sig ⟨S_, .i32⟩) (.of main_call3_v7 : StableHlo.TRef sig ⟨S_, .f32⟩) (sitofp .f32)
  :: StableHlo.TRef.nullary (.of main_call3_cst_1 : StableHlo.TRef sig ⟨S_, .f32⟩) (constant S_ .f32 0x47435000#32)
  :: StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf
  :: StableHlo.TRef.nullary (.of main_call3_cst_2 : StableHlo.TRef sig ⟨S_, .f32⟩) (constant S_ .f32 0x00000000#32)
  :: StableHlo.TRef.binary (.of main_call3_v6 : StableHlo.TRef sig ⟨S50000x128, .f32⟩) (.of main_call3_cst_2 : StableHlo.TRef sig ⟨S_, .f32⟩) (.of main_call3_v9 : StableHlo.TRef sig ⟨S128, .f32⟩) (fun x v => Host.reduceAdd x v reducesTo_S50000x128_S128_d0 h_S_)
  :: StableHlo.TRef.unary (.of main_call3_v8 : StableHlo.TRef sig ⟨S_, .f32⟩) (.of main_call3_v10 : StableHlo.TRef sig ⟨S128, .f32⟩) (broadcastInDim S128 ![] bcast_S_S128)
  :: StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf
  :: StableHlo.TRef.nullary (.of main_call3_cst_3 : StableHlo.TRef sig ⟨S_, .f32⟩) (constant S_ .f32 0x00000000#32)
  :: StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt)
  :: StableHlo.TRef.nullary (.of main_call3_cst_4 : StableHlo.TRef sig ⟨S_, .f32⟩) (constant S_ .f32 0x7FC00000#32)
  :: StableHlo.TRef.unary (.of main_call3_cst_4 : StableHlo.TRef sig ⟨S_, .f32⟩) (.of main_call3_call0_v0 : StableHlo.TRef sig ⟨S_, .f32⟩) id
  :: StableHlo.TRef.unary (.of main_call3_call0_v0 : StableHlo.TRef sig ⟨S_, .f32⟩) (.of main_call3_call0_v1 : StableHlo.TRef sig ⟨S128, .f32⟩) (broadcastInDim S128 ![] bcast_S_S128)
  :: StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v128 : StableHlo.TRef sig ⟨S128, .f32⟩) (fun p a b => select (broadcastInDim S128 ![] bcast_S_S128 p) a b)
  :: [] )
abbrev sB1c : List (HloOp τ sig (Elt F)) :=
  ( StableHlo.unary main_arg10 main_v129 ((extractStridedSlice S1x128 ![1, 0] · slices_S3x128_S1x128_1_0) : (⟨S3x128, .f32⟩ : BufTy).Contents (Elt F) → (⟨S1x128, .f32⟩ : BufTy).Contents (Elt F))
  :: StableHlo.reshape main_v129 main_v130 rfl shapeCasts_S1x128_S128
  :: StableHlo.unary main_v127 main_v131 (broadcastInDim S1x128 ![1] bcast_S128_S1x128_1 : (⟨S128, .f32⟩ : BufTy).Contents (Elt F) → (⟨S1x128, .f32⟩ : BufTy).Contents (Elt F))
  :: StableHlo.unary main_v131 main_v132 (broadcastInDim S50000x128 ![0, 1] bcast_S1x128_S50000x128_0_1 : (⟨S1x128, .f32⟩ : BufTy).Contents (Elt F) → (⟨S50000x128, .f32⟩ : BufTy).Contents (Elt F))
  :: StableHlo.binary main_v124 main_v132 main_v133 (subf : (⟨S50000x128, .f32⟩ : BufTy).Contents (Elt F) → (⟨S50000x128, .f32⟩ : BufTy).Contents (Elt F) → (⟨S50000x128, .f32⟩ : BufTy).Contents (Elt F))
  :: StableHlo.unary main_v130 main_v134 (broadcastInDim S1x128 ![1] bcast_S128_S1x128_1 : (⟨S128, .f32⟩ : BufTy).Contents (Elt F) → (⟨S1x128, .f32⟩ : BufTy).Contents (Elt F))
  :: StableHlo.unary main_v134 main_v135 (broadcastInDim S50000x128 ![0, 1] bcast_S1x128_S50000x128_0_1 : (⟨S1x128, .f32⟩ : BufTy).Contents (Elt F) → (⟨S50000x128, .f32⟩ : BufTy).Contents (Elt F))
  :: StableHlo.binary main_v135 main_v133 main_v136 (mulf : (⟨S50000x128, .f32⟩ : BufTy).Contents (Elt F) → (⟨S50000x128, .f32⟩ : BufTy).Contents (Elt F) → (⟨S50000x128, .f32⟩ : BufTy).Contents (Elt F))
  :: StableHlo.nullary main_cst_19 (constant S_ .f32 0x3727C5AC#32)
  :: StableHlo.unary main_cst_19 main_v137 (broadcastInDim S128 ![] bcast_S_S128 : (⟨S_, .f32⟩ : BufTy).Contents (Elt F) → (⟨S128, .f32⟩ : BufTy).Contents (Elt F))
  :: StableHlo.binary main_v128 main_v137 main_v138 (addf : (⟨S128, .f32⟩ : BufTy).Contents (Elt F) → (⟨S128, .f32⟩ : BufTy).Contents (Elt F) → (⟨S128, .f32⟩ : BufTy).Contents (Elt F))
  :: StableHlo.unary main_v138 main_v139 (Host.rsqrt : (⟨S128, .f32⟩ : BufTy).Contents (Elt F) → (⟨S128, .f32⟩ : BufTy).Contents (Elt F))
  :: StableHlo.unary main_v139 main_v140 (broadcastInDim S1x128 ![1] bcast_S128_S1x128_1 : (⟨S128, .f32⟩ : BufTy).Contents (Elt F) → (⟨S1x128, .f32⟩ : BufTy).Contents (Elt F))
  :: StableHlo.unary main_v140 main_v141 (broadcastInDim S50000x128 ![0, 1] bcast_S1x128_S50000x128_0_1 : (⟨S1x128, .f32⟩ : BufTy).Contents (Elt F) → (⟨S50000x128, .f32⟩ : BufTy).Contents (Elt F))
  :: StableHlo.binary main_v136 main_v141 main_v142 (mulf : (⟨S50000x128, .f32⟩ : BufTy).Contents (Elt F) → (⟨S50000x128, .f32⟩ : BufTy).Contents (Elt F) → (⟨S50000x128, .f32⟩ : BufTy).Contents (Elt F))
  :: StableHlo.unary main_arg11 main_v143 ((extractStridedSlice S1x128 ![1, 0] · slices_S3x128_S1x128_1_0) : (⟨S3x128, .f32⟩ : BufTy).Contents (Elt F) → (⟨S1x128, .f32⟩ : BufTy).Contents (Elt F))
  :: StableHlo.reshape main_v143 main_v144 rfl shapeCasts_S1x128_S128
  :: StableHlo.unary main_v144 main_v145 (broadcastInDim S1x128 ![1] bcast_S128_S1x128_1 : (⟨S128, .f32⟩ : BufTy).Contents (Elt F) → (⟨S1x128, .f32⟩ : BufTy).Contents (Elt F))
  :: StableHlo.unary main_v145 main_v146 (broadcastInDim S50000x128 ![0, 1] bcast_S1x128_S50000x128_0_1 : (⟨S1x128, .f32⟩ : BufTy).Contents (Elt F) → (⟨S50000x128, .f32⟩ : BufTy).Contents (Elt F))
  :: StableHlo.binary main_v142 main_v146 main_v147 (addf : (⟨S50000x128, .f32⟩ : BufTy).Contents (Elt F) → (⟨S50000x128, .f32⟩ : BufTy).Contents (Elt F) → (⟨S50000x128, .f32⟩ : BufTy).Contents (Elt F))
  :: StableHlo.unary main_arg4 main_v148 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v148 main_v149 rfl shapeCasts_S1x128x128_S128x128
  :: [] )
abbrev sB1 : List (HloOp τ sig (Elt F)) := sB1a ++ (sB1b ++ (sB1c))
abbrev sH2 : List (HloOp τ sig (Elt F)) :=
  ( StableHlo.binary main_v147 main_v149 main_v150 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: [] )
abbrev sG2a : List (HloOp τ sig (Elt F)) :=
  ( StableHlo.nullary main_c_20 (constantI S_ 32 0#32)
  :: StableHlo.unary main_c_20 main_v151 (broadcastInDim S850000 ![] bcast_S_S850000 : (⟨S_, .i32⟩ : BufTy).Contents (Elt F) → (⟨S850000, .i32⟩ : BufTy).Contents (Elt F))
  :: StableHlo.binary main_v7 main_v151 main_v152 (cmpi .slt : (⟨S850000, .i32⟩ : BufTy).Contents (Elt F) → (⟨S850000, .i32⟩ : BufTy).Contents (Elt F) → (⟨S850000, .i1⟩ : BufTy).Contents (Elt F))
  :: StableHlo.nullary main_c_21 (constantI S_ 32 50000#32)
  :: StableHlo.unary main_c_21 main_v153 (broadcastInDim S850000 ![] bcast_S_S850000 : (⟨S_, .i32⟩ : BufTy).Contents (Elt F) → (⟨S850000, .i32⟩ : BufTy).Contents (Elt F))
  :: StableHlo.binary main_v7 main_v153 main_v154 (addi : (⟨S850000, .i32⟩ : BufTy).Contents (Elt F) → (⟨S850000, .i32⟩ : BufTy).Contents (Elt F) → (⟨S850000, .i32⟩ : BufTy).Contents (Elt F))
  :: StableHlo.ternary main_v152 main_v154 main_v7 main_v155 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: [] )
abbrev sG2b : List (HloOp τ sig (Elt F)) :=
  ( StableHlo.unary main_v155 main_v156 (broadcastInDim S850000x1 ![0] bcast_S850000_S850000x1_0 : (⟨S850000, .i32⟩ : BufTy).Contents (Elt F) → (⟨S850000x1, .i32⟩ : BufTy).Contents (Elt F))
  :: StableHlo.binary main_v150 main_v156 main_v157 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: StableHlo.nullary main_c_22 (constantI S_ 32 0#32)
  :: StableHlo.unary main_c_22 main_v158 (broadcastInDim S850000 ![] bcast_S_S850000 : (⟨S_, .i32⟩ : BufTy).Contents (Elt F) → (⟨S850000, .i32⟩ : BufTy).Contents (Elt F))
  :: StableHlo.binary main_v4 main_v158 main_v159 (cmpi .slt : (⟨S850000, .i32⟩ : BufTy).Contents (Elt F) → (⟨S850000, .i32⟩ : BufTy).Contents (Elt F) → (⟨S850000, .i1⟩ : BufTy).Contents (Elt F))
  :: StableHlo.nullary main_c_23 (constantI S_ 32 50000#32)
  :: StableHlo.unary main_c_23 main_v160 (broadcastInDim S850000 ![] bcast_S_S850000 : (⟨S_, .i32⟩ : BufTy).Contents (Elt F) → (⟨S850000, .i32⟩ : BufTy).Contents (Elt F))
  :: StableHlo.binary main_v4 main_v160 main_v161 (addi : (⟨S850000, .i32⟩ : BufTy).Contents (Elt F) → (⟨S850000, .i32⟩ : BufTy).Contents (Elt F) → (⟨S850000, .i32⟩ : BufTy).Contents (Elt F))
  :: StableHlo.ternary main_v159 main_v161 main_v4 main_v162 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
  :: StableHlo.unary main_v162 main_v163 (broadcastInDim S850000x1 ![0] bcast_S850000_S850000x1_0 : (⟨S850000, .i32⟩ : BufTy).Contents (Elt F) → (⟨S850000x1, .i32⟩ : BufTy).Contents (Elt F))
  :: StableHlo.binary main_v150 main_v163 main_v164 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))
  :: [] )
abbrev sG2 : List (HloOp τ sig (Elt F)) := sG2a ++ (sG2b)
abbrev sM2 : List (HloOp τ sig (Elt F)) :=
  ( StableHlo.binary main_v157 main_v164 main_v165 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F))
  :: StableHlo.unary main_arg6 main_v166 ((extractStridedSlice S1x256x128 ![2, 0, 0] · slices_S3x256x128_S1x256x128_2_0_0) : (⟨S3x256x128, .f32⟩ : BufTy).Contents (Elt F) → (⟨S1x256x128, .f32⟩ : BufTy).Contents (Elt F))
  :: StableHlo.reshape main_v166 main_v167 rfl shapeCasts_S1x256x128_S256x128
  :: StableHlo.binary main_v165 main_v167 main_v168 ((fun l r => Host.dotGeneral dot_S850000x256_S256x128_S850000x128_1_0_0_1_n_n none l r) : (⟨S850000x256, .f32⟩ : BufTy).Contents (Elt F) → (⟨S256x128, .f32⟩ : BufTy).Contents (Elt F) → (⟨S850000x128, .f32⟩ : BufTy).Contents (Elt F))
  :: StableHlo.unary main_arg7 main_v169 ((extractStridedSlice S1x128 ![2, 0] · slices_S3x128_S1x128_2_0) : (⟨S3x128, .f32⟩ : BufTy).Contents (Elt F) → (⟨S1x128, .f32⟩ : BufTy).Contents (Elt F))
  :: StableHlo.reshape main_v169 main_v170 rfl shapeCasts_S1x128_S128
  :: StableHlo.unary main_v170 main_v171 (broadcastInDim S1x128 ![1] bcast_S128_S1x128_1 : (⟨S128, .f32⟩ : BufTy).Contents (Elt F) → (⟨S1x128, .f32⟩ : BufTy).Contents (Elt F))
  :: StableHlo.unary main_v171 main_v172 (broadcastInDim S850000x128 ![0, 1] bcast_S1x128_S850000x128_0_1 : (⟨S1x128, .f32⟩ : BufTy).Contents (Elt F) → (⟨S850000x128, .f32⟩ : BufTy).Contents (Elt F))
  :: StableHlo.binary main_v168 main_v172 main_v173 (addf : (⟨S850000x128, .f32⟩ : BufTy).Contents (Elt F) → (⟨S850000x128, .f32⟩ : BufTy).Contents (Elt F) → (⟨S850000x128, .f32⟩ : BufTy).Contents (Elt F))
  :: [] )
abbrev sA2 : List (HloOp τ sig (Elt F)) :=
  ( StableHlo.nullary main_cst_24 (constant S_ .f32 0x00000000#32)
  :: StableHlo.unary main_cst_24 main_v174 (broadcastInDim S50000x128 ![] bcast_S_S50000x128 : (⟨S_, .f32⟩ : BufTy).Contents (Elt F) → (⟨S50000x128, .f32⟩ : BufTy).Contents (Elt F))
  :: StableHlo.unary main_v7 main_v175 (broadcastInDim S850000x1 ![0] bcast_S850000_S850000x1_0 : (⟨S850000, .i32⟩ : BufTy).Contents (Elt F) → (⟨S850000x1, .i32⟩ : BufTy).Contents (Elt F))
  :: StableHlo.ternary main_v174 main_v175 main_v173 main_v176 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F))
  :: StableHlo.unary main_arg5 main_v177 ((extractStridedSlice S1x128 ![2, 0] · slices_S3x128_S1x128_2_0) : (⟨S3x128, .f32⟩ : BufTy).Contents (Elt F) → (⟨S1x128, .f32⟩ : BufTy).Contents (Elt F))
  :: StableHlo.reshape main_v177 main_v178 rfl shapeCasts_S1x128_S128
  :: StableHlo.unary main_v178 main_v179 (broadcastInDim S1x128 ![1] bcast_S128_S1x128_1 : (⟨S128, .f32⟩ : BufTy).Contents (Elt F) → (⟨S1x128, .f32⟩ : BufTy).Contents (Elt F))
  :: StableHlo.unary main_v179 main_v180 (broadcastInDim S50000x128 ![0, 1] bcast_S1x128_S50000x128_0_1 : (⟨S1x128, .f32⟩ : BufTy).Contents (Elt F) → (⟨S50000x128, .f32⟩ : BufTy).Contents (Elt F))
  :: StableHlo.binary main_v176 main_v180 main_v181 (addf : (⟨S50000x128, .f32⟩ : BufTy).Contents (Elt F) → (⟨S50000x128, .f32⟩ : BufTy).Contents (Elt F) → (⟨S50000x128, .f32⟩ : BufTy).Contents (Elt F))
  :: [] )
abbrev sD2a : List (HloOp τ sig (Elt F)) :=
  ( StableHlo.unary main_arg8 main_v182 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v182 main_v183 rfl shapeCasts_S1x128x128_S128x128
  :: StableHlo.binary main_v181 main_v183 main_v184 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_arg9 main_v185 ((extractStridedSlice S1x128 ![2, 0] · slices_S3x128_S1x128_2_0) : (⟨S3x128, .f32⟩ : BufTy).Contents (Elt F) → (⟨S1x128, .f32⟩ : BufTy).Contents (Elt F))
  :: StableHlo.reshape main_v185 main_v186 rfl shapeCasts_S1x128_S128
  :: StableHlo.unary main_v186 main_v187 (broadcastInDim S1x128 ![1] bcast_S128_S1x128_1 : (⟨S128, .f32⟩ : BufTy).Contents (Elt F) → (⟨S1x128, .f32⟩ : BufTy).Contents (Elt F))
  :: StableHlo.unary main_v187 main_v188 (broadcastInDim S50000x128 ![0, 1] bcast_S1x128_S50000x128_0_1 : (⟨S1x128, .f32⟩ : BufTy).Contents (Elt F) → (⟨S50000x128, .f32⟩ : BufTy).Contents (Elt F))
  :: StableHlo.binary main_v184 main_v188 main_v189 (addf : (⟨S50000x128, .f32⟩ : BufTy).Contents (Elt F) → (⟨S50000x128, .f32⟩ : BufTy).Contents (Elt F) → (⟨S50000x128, .f32⟩ : BufTy).Contents (Elt F))
  :: StableHlo.nullary main_cst_25 (constant S_ .f32 0x00000000#32)
  :: StableHlo.unary main_cst_25 main_v190 (broadcastInDim S50000x128 ![] bcast_S_S50000x128 : (⟨S_, .f32⟩ : BufTy).Contents (Elt F) → (⟨S50000x128, .f32⟩ : BufTy).Contents (Elt F))
  :: StableHlo.binary main_v189 main_v190 main_v191 (cmpf .oge : (⟨S50000x128, .f32⟩ : BufTy).Contents (Elt F) → (⟨S50000x128, .f32⟩ : BufTy).Contents (Elt F) → (⟨S50000x128, .i1⟩ : BufTy).Contents (Elt F))
  :: StableHlo.nullary main_cst_26 (constant S_ .f32 0x3E4CCCCD#32)
  :: StableHlo.unary main_cst_26 main_v192 (broadcastInDim S50000x128 ![] bcast_S_S50000x128 : (⟨S_, .f32⟩ : BufTy).Contents (Elt F) → (⟨S50000x128, .f32⟩ : BufTy).Contents (Elt F))
  :: StableHlo.binary main_v192 main_v189 main_v193 (mulf : (⟨S50000x128, .f32⟩ : BufTy).Contents (Elt F) → (⟨S50000x128, .f32⟩ : BufTy).Contents (Elt F) → (⟨S50000x128, .f32⟩ : BufTy).Contents (Elt F))
  :: [] )
abbrev sD2b : List (HloOp τ sig (Elt F)) :=
  ( StableHlo.TRef.ternary (.of main_v191 : StableHlo.TRef sig ⟨S50000x128, .i1⟩) (.of main_v189 : StableHlo.TRef sig ⟨S50000x128, .f32⟩) (.of main_v193 : StableHlo.TRef sig ⟨S50000x128, .f32⟩) (.of main_v194 : StableHlo.TRef sig ⟨S50000x128, .f32⟩) select
  :: [] )
abbrev sD2 : List (HloOp τ sig (Elt F)) := sD2a ++ (sD2b)
abbrev sTa : List (HloOp τ sig (Elt F)) :=
  ( StableHlo.nullary main_cst_27 (constant S_ .f32 0x00000000#32)
  :: StableHlo.binary main_v194 main_cst_27 main_v195 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_28 (constant S_ .f32 0x47435000#32)
  :: StableHlo.unary main_cst_28 main_v196 (broadcastInDim S128 ![] bcast_S_S128 : (⟨S_, .f32⟩ : BufTy).Contents (Elt F) → (⟨S128, .f32⟩ : BufTy).Contents (Elt F))
  :: StableHlo.binary main_v195 main_v196 main_v197 (Host.divf : (⟨S128, .f32⟩ : BufTy).Contents (Elt F) → (⟨S128, .f32⟩ : BufTy).Contents (Elt F) → (⟨S128, .f32⟩ : BufTy).Contents (Elt F))
  :: StableHlo.nullary main_c_29 (constantI S_ 32 0#32)
  :: [] )
abbrev sTb : List (HloOp τ sig (Elt F)) :=
  ( StableHlo.TRef.nullary (.of main_call5_cst : StableHlo.TRef sig ⟨S_, .f32⟩) (constant S_ .f32 0x00000000#32)
  :: StableHlo.TRef.binary (.of main_v194 : StableHlo.TRef sig ⟨S50000x128, .f32⟩) (.of main_call5_cst : StableHlo.TRef sig ⟨S_, .f32⟩) (.of main_call5_v0 : StableHlo.TRef sig ⟨S128, .f32⟩) (fun x v => Host.reduceAdd x v reducesTo_S50000x128_S128_d0 h_S_)
  :: StableHlo.TRef.unary (.of main_call5_v0 : StableHlo.TRef sig ⟨S128, .f32⟩) (.of main_call5_v1 : StableHlo.TRef sig ⟨S1x128, .f32⟩) (broadcastInDim S1x128 ![1] bcast_S128_S1x128_1)
  :: StableHlo.TRef.nullary (.of main_call5_cst_0 : StableHlo.TRef sig ⟨S_, .f32⟩) (constant S_ .f32 0x47435000#32)
  :: StableHlo.TRef.unary (.of main_call5_cst_0 : StableHlo.TRef sig ⟨S_, .f32⟩) (.of main_call5_v2 : StableHlo.TRef sig ⟨S1x128, .f32⟩) (broadcastInDim S1x128 ![] bcast_S_S1x128)
  :: StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf
  :: StableHlo.TRef.unary (.of main_call5_v3 : StableHlo.TRef sig ⟨S1x128, .f32⟩) (.of main_call5_v4 : StableHlo.TRef sig ⟨S50000x128, .f32⟩) (broadcastInDim S50000x128 ![0, 1] bcast_S1x128_S50000x128_0_1)
  :: StableHlo.TRef.binary (.of main_v194 : StableHlo.TRef sig ⟨S50000x128, .f32⟩) (.of main_call5_v4 : StableHlo.TRef sig ⟨S50000x128, .f32⟩) (.of main_call5_v5 : StableHlo.TRef sig ⟨S50000x128, .f32⟩) subf
  :: StableHlo.TRef.binary (.of main_call5_v5 : StableHlo.TRef sig ⟨S50000x128, .f32⟩) (.of main_call5_v5 : StableHlo.TRef sig ⟨S50000x128, .f32⟩) (.of main_call5_v6 : StableHlo.TRef sig ⟨S50000x128, .f32⟩) mulf
  :: StableHlo.TRef.unary (.of main_c_29 : StableHlo.TRef sig ⟨S_, .i32⟩) (.of main_call5_v7 : StableHlo.TRef sig ⟨S_, .f32⟩) (sitofp .f32)
  :: StableHlo.TRef.nullary (.of main_call5_cst_1 : StableHlo.TRef sig ⟨S_, .f32⟩) (constant S_ .f32 0x47435000#32)
  :: StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf
  :: StableHlo.TRef.nullary (.of main_call5_cst_2 : StableHlo.TRef sig ⟨S_, .f32⟩) (constant S_ .f32 0x00000000#32)
  :: StableHlo.TRef.binary (.of main_call5_v6 : StableHlo.TRef sig ⟨S50000x128, .f32⟩) (.of main_call5_cst_2 : StableHlo.TRef sig ⟨S_, .f32⟩) (.of main_call5_v9 : StableHlo.TRef sig ⟨S128, .f32⟩) (fun x v => Host.reduceAdd x v reducesTo_S50000x128_S128_d0 h_S_)
  :: StableHlo.TRef.unary (.of main_call5_v8 : StableHlo.TRef sig ⟨S_, .f32⟩) (.of main_call5_v10 : StableHlo.TRef sig ⟨S128, .f32⟩) (broadcastInDim S128 ![] bcast_S_S128)
  :: StableHlo.TRef.binary (.of main_call5_v9 : StableHlo.TRef sig ⟨S128, .f32⟩) (.of main_call5_v10 : StableHlo.TRef sig ⟨S128, .f32⟩) (.of main_call5_v11 : StableHlo.TRef sig ⟨S128, .f32⟩) Host.divf
  :: StableHlo.TRef.nullary (.of main_call5_cst_3 : StableHlo.TRef sig ⟨S_, .f32⟩) (constant S_ .f32 0x00000000#32)
  :: StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt)
  :: StableHlo.TRef.nullary (.of main_call5_cst_4 : StableHlo.TRef sig ⟨S_, .f32⟩) (constant S_ .f32 0x7FC00000#32)
  :: StableHlo.TRef.unary (.of main_call5_cst_4 : StableHlo.TRef sig ⟨S_, .f32⟩) (.of main_call5_call0_v0 : StableHlo.TRef sig ⟨S_, .f32⟩) id
  :: StableHlo.TRef.unary (.of main_call5_call0_v0 : StableHlo.TRef sig ⟨S_, .f32⟩) (.of main_call5_call0_v1 : StableHlo.TRef sig ⟨S128, .f32⟩) (broadcastInDim S128 ![] bcast_S_S128)
  :: StableHlo.TRef.ternary (.of main_call5_v12 : StableHlo.TRef sig ⟨S_, .i1⟩) (.of main_call5_v11 : StableHlo.TRef sig ⟨S128, .f32⟩) (.of main_call5_call0_v1 : StableHlo.TRef sig ⟨S128, .f32⟩) (.of main_v198 : StableHlo.TRef sig ⟨S128, .f32⟩) (fun p a b => select (broadcastInDim S128 ![] bcast_S_S128 p) a b)
  :: [] )
abbrev sTc : List (HloOp τ sig (Elt F)) :=
  ( StableHlo.unary main_arg10 main_v199 ((extractStridedSlice S1x128 ![2, 0] · slices_S3x128_S1x128_2_0) : (⟨S3x128, .f32⟩ : BufTy).Contents (Elt F) → (⟨S1x128, .f32⟩ : BufTy).Contents (Elt F))
  :: StableHlo.reshape main_v199 main_v200 rfl shapeCasts_S1x128_S128
  :: StableHlo.unary main_v197 main_v201 (broadcastInDim S1x128 ![1] bcast_S128_S1x128_1 : (⟨S128, .f32⟩ : BufTy).Contents (Elt F) → (⟨S1x128, .f32⟩ : BufTy).Contents (Elt F))
  :: StableHlo.unary main_v201 main_v202 (broadcastInDim S50000x128 ![0, 1] bcast_S1x128_S50000x128_0_1 : (⟨S1x128, .f32⟩ : BufTy).Contents (Elt F) → (⟨S50000x128, .f32⟩ : BufTy).Contents (Elt F))
  :: StableHlo.binary main_v194 main_v202 main_v203 (subf : (⟨S50000x128, .f32⟩ : BufTy).Contents (Elt F) → (⟨S50000x128, .f32⟩ : BufTy).Contents (Elt F) → (⟨S50000x128, .f32⟩ : BufTy).Contents (Elt F))
  :: StableHlo.unary main_v200 main_v204 (broadcastInDim S1x128 ![1] bcast_S128_S1x128_1 : (⟨S128, .f32⟩ : BufTy).Contents (Elt F) → (⟨S1x128, .f32⟩ : BufTy).Contents (Elt F))
  :: StableHlo.unary main_v204 main_v205 (broadcastInDim S50000x128 ![0, 1] bcast_S1x128_S50000x128_0_1 : (⟨S1x128, .f32⟩ : BufTy).Contents (Elt F) → (⟨S50000x128, .f32⟩ : BufTy).Contents (Elt F))
  :: StableHlo.binary main_v205 main_v203 main_v206 (mulf : (⟨S50000x128, .f32⟩ : BufTy).Contents (Elt F) → (⟨S50000x128, .f32⟩ : BufTy).Contents (Elt F) → (⟨S50000x128, .f32⟩ : BufTy).Contents (Elt F))
  :: StableHlo.nullary main_cst_30 (constant S_ .f32 0x3727C5AC#32)
  :: [] )
abbrev sTd : List (HloOp τ sig (Elt F)) :=
  ( StableHlo.unary main_cst_30 main_v207 (broadcastInDim S128 ![] bcast_S_S128 : (⟨S_, .f32⟩ : BufTy).Contents (Elt F) → (⟨S128, .f32⟩ : BufTy).Contents (Elt F))
  :: StableHlo.binary main_v198 main_v207 main_v208 (addf : (⟨S128, .f32⟩ : BufTy).Contents (Elt F) → (⟨S128, .f32⟩ : BufTy).Contents (Elt F) → (⟨S128, .f32⟩ : BufTy).Contents (Elt F))
  :: StableHlo.unary main_v208 main_v209 (Host.rsqrt : (⟨S128, .f32⟩ : BufTy).Contents (Elt F) → (⟨S128, .f32⟩ : BufTy).Contents (Elt F))
  :: StableHlo.unary main_v209 main_v210 (broadcastInDim S1x128 ![1] bcast_S128_S1x128_1 : (⟨S128, .f32⟩ : BufTy).Contents (Elt F) → (⟨S1x128, .f32⟩ : BufTy).Contents (Elt F))
  :: StableHlo.unary main_v210 main_v211 (broadcastInDim S50000x128 ![0, 1] bcast_S1x128_S50000x128_0_1 : (⟨S1x128, .f32⟩ : BufTy).Contents (Elt F) → (⟨S50000x128, .f32⟩ : BufTy).Contents (Elt F))
  :: StableHlo.binary main_v206 main_v211 main_v212 (mulf : (⟨S50000x128, .f32⟩ : BufTy).Contents (Elt F) → (⟨S50000x128, .f32⟩ : BufTy).Contents (Elt F) → (⟨S50000x128, .f32⟩ : BufTy).Contents (Elt F))
  :: StableHlo.unary main_arg11 main_v213 ((extractStridedSlice S1x128 ![2, 0] · slices_S3x128_S1x128_2_0) : (⟨S3x128, .f32⟩ : BufTy).Contents (Elt F) → (⟨S1x128, .f32⟩ : BufTy).Contents (Elt F))
  :: StableHlo.reshape main_v213 main_v214 rfl shapeCasts_S1x128_S128
  :: StableHlo.unary main_v214 main_v215 (broadcastInDim S1x128 ![1] bcast_S128_S1x128_1 : (⟨S128, .f32⟩ : BufTy).Contents (Elt F) → (⟨S1x128, .f32⟩ : BufTy).Contents (Elt F))
  :: StableHlo.unary main_v215 main_v216 (broadcastInDim S50000x128 ![0, 1] bcast_S1x128_S50000x128_0_1 : (⟨S1x128, .f32⟩ : BufTy).Contents (Elt F) → (⟨S50000x128, .f32⟩ : BufTy).Contents (Elt F))
  :: StableHlo.binary main_v212 main_v216 main_v217 (addf : (⟨S50000x128, .f32⟩ : BufTy).Contents (Elt F) → (⟨S50000x128, .f32⟩ : BufTy).Contents (Elt F) → (⟨S50000x128, .f32⟩ : BufTy).Contents (Elt F))
  :: StableHlo.nullary main_cst_31 (constant S_ .f32 0x00000000#32)
  :: StableHlo.unary main_cst_31 main_v218 (broadcastInDim S50x128 ![] bcast_S_S50x128 : (⟨S_, .f32⟩ : BufTy).Contents (Elt F) → (⟨S50x128, .f32⟩ : BufTy).Contents (Elt F))
  :: StableHlo.unary main_arg3 main_v219 (broadcastInDim S50000x1 ![0] bcast_S50000_S50000x1_0 : (⟨S50000, .i32⟩ : BufTy).Contents (Elt F) → (⟨S50000x1, .i32⟩ : BufTy).Contents (Elt F))
  :: StableHlo.ternary main_v218 main_v219 main_v217 main_v220 ((fun x i u => Host.scatterAdd scatter_S50x128_S50000x1_S50000x128_1_0_0_1 x i u) : (⟨S50x128, .f32⟩ : BufTy).Contents (Elt F) → (⟨S50000x1, .i32⟩ : BufTy).Contents (Elt F) → (⟨S50000x128, .f32⟩ : BufTy).Contents (Elt F) → (⟨S50x128, .f32⟩ : BufTy).Contents (Elt F))
  :: StableHlo.nullary main_cst_32 (constant S_ .f32 0x3F800000#32)
  :: StableHlo.unary main_cst_32 main_v221 (broadcastInDim S50000x1 ![] bcast_S_S50000x1 : (⟨S_, .f32⟩ : BufTy).Contents (Elt F) → (⟨S50000x1, .f32⟩ : BufTy).Contents (Elt F))
  :: StableHlo.nullary main_cst_33 (constant S_ .f32 0x00000000#32)
  :: StableHlo.unary main_cst_33 main_v222 (broadcastInDim S50x1 ![] bcast_S_S50x1 : (⟨S_, .f32⟩ : BufTy).Contents (Elt F) → (⟨S50x1, .f32⟩ : BufTy).Contents (Elt F))
  :: StableHlo.unary main_arg3 main_v223 (broadcastInDim S50000x1 ![0] bcast_S50000_S50000x1_0 : (⟨S50000, .i32⟩ : BufTy).Contents (Elt F) → (⟨S50000x1, .i32⟩ : BufTy).Contents (Elt F))
  :: StableHlo.ternary main_v222 main_v223 main_v221 main_v224 ((fun x i u => Host.scatterAdd scatter_S50x1_S50000x1_S50000x1_1_0_0_1 x i u) : (⟨S50x1, .f32⟩ : BufTy).Contents (Elt F) → (⟨S50000x1, .i32⟩ : BufTy).Contents (Elt F) → (⟨S50000x1, .f32⟩ : BufTy).Contents (Elt F) → (⟨S50x1, .f32⟩ : BufTy).Contents (Elt F))
  :: StableHlo.nullary main_cst_34 (constant S_ .f32 0x3F800000#32)
  :: StableHlo.unary main_cst_34 main_v225 (broadcastInDim S50x1 ![] bcast_S_S50x1 : (⟨S_, .f32⟩ : BufTy).Contents (Elt F) → (⟨S50x1, .f32⟩ : BufTy).Contents (Elt F))
  :: StableHlo.binary main_v224 main_v225 main_v226 (maximumf : (⟨S50x1, .f32⟩ : BufTy).Contents (Elt F) → (⟨S50x1, .f32⟩ : BufTy).Contents (Elt F) → (⟨S50x1, .f32⟩ : BufTy).Contents (Elt F))
  :: StableHlo.unary main_v226 main_v227 (broadcastInDim S50x128 ![0, 1] bcast_S50x1_S50x128_0_1 : (⟨S50x1, .f32⟩ : BufTy).Contents (Elt F) → (⟨S50x128, .f32⟩ : BufTy).Contents (Elt F))
  :: StableHlo.binary main_v220 main_v227 main_v228 (Host.divf : (⟨S50x128, .f32⟩ : BufTy).Contents (Elt F) → (⟨S50x128, .f32⟩ : BufTy).Contents (Elt F) → (⟨S50x128, .f32⟩ : BufTy).Contents (Elt F))
  :: StableHlo.binary main_v228 main_arg12 main_v229 ((fun l r => Host.dotGeneral dot_S50x128_S128x128_S50x128_1_0_0_1_n_n none l r) : (⟨S50x128, .f32⟩ : BufTy).Contents (Elt F) → (⟨S128x128, .f32⟩ : BufTy).Contents (Elt F) → (⟨S50x128, .f32⟩ : BufTy).Contents (Elt F))
  :: StableHlo.unary main_arg13 main_v230 (broadcastInDim S1x128 ![1] bcast_S128_S1x128_1 : (⟨S128, .f32⟩ : BufTy).Contents (Elt F) → (⟨S1x128, .f32⟩ : BufTy).Contents (Elt F))
  :: StableHlo.unary main_v230 main_v231 (broadcastInDim S50x128 ![0, 1] bcast_S1x128_S50x128_0_1 : (⟨S1x128, .f32⟩ : BufTy).Contents (Elt F) → (⟨S50x128, .f32⟩ : BufTy).Contents (Elt F))
  :: StableHlo.binary main_v229 main_v231 main_v232 (addf : (⟨S50x128, .f32⟩ : BufTy).Contents (Elt F) → (⟨S50x128, .f32⟩ : BufTy).Contents (Elt F) → (⟨S50x128, .f32⟩ : BufTy).Contents (Elt F))
  :: StableHlo.nullary main_cst_35 (constant S_ .f32 0x00000000#32)
  :: StableHlo.unary main_cst_35 main_v233 (broadcastInDim S50x128 ![] bcast_S_S50x128 : (⟨S_, .f32⟩ : BufTy).Contents (Elt F) → (⟨S50x128, .f32⟩ : BufTy).Contents (Elt F))
  :: StableHlo.binary main_v232 main_v233 main_v234 (cmpf .oge : (⟨S50x128, .f32⟩ : BufTy).Contents (Elt F) → (⟨S50x128, .f32⟩ : BufTy).Contents (Elt F) → (⟨S50x128, .i1⟩ : BufTy).Contents (Elt F))
  :: StableHlo.nullary main_cst_36 (constant S_ .f32 0x3E4CCCCD#32)
  :: StableHlo.unary main_cst_36 main_v235 (broadcastInDim S50x128 ![] bcast_S_S50x128 : (⟨S_, .f32⟩ : BufTy).Contents (Elt F) → (⟨S50x128, .f32⟩ : BufTy).Contents (Elt F))
  :: StableHlo.binary main_v235 main_v232 main_v236 (mulf : (⟨S50x128, .f32⟩ : BufTy).Contents (Elt F) → (⟨S50x128, .f32⟩ : BufTy).Contents (Elt F) → (⟨S50x128, .f32⟩ : BufTy).Contents (Elt F))
  :: [] )
abbrev sTe : List (HloOp τ sig (Elt F)) :=
  ( StableHlo.TRef.ternary (.of main_v234 : StableHlo.TRef sig ⟨S50x128, .i1⟩) (.of main_v232 : StableHlo.TRef sig ⟨S50x128, .f32⟩) (.of main_v236 : StableHlo.TRef sig ⟨S50x128, .f32⟩) (.of main_v237 : StableHlo.TRef sig ⟨S50x128, .f32⟩) select
  :: [] )
abbrev sTf : List (HloOp τ sig (Elt F)) :=
  ( StableHlo.binary main_v237 main_arg14 main_v238 ((fun l r => Host.dotGeneral dot_S50x128_S128x64_S50x64_1_0_0_1_n_n none l r) : (⟨S50x128, .f32⟩ : BufTy).Contents (Elt F) → (⟨S128x64, .f32⟩ : BufTy).Contents (Elt F) → (⟨S50x64, .f32⟩ : BufTy).Contents (Elt F))
  :: StableHlo.unary main_arg15 main_v239 (broadcastInDim S1x64 ![1] bcast_S64_S1x64_1 : (⟨S64, .f32⟩ : BufTy).Contents (Elt F) → (⟨S1x64, .f32⟩ : BufTy).Contents (Elt F))
  :: StableHlo.unary main_v239 main_v240 (broadcastInDim S50x64 ![0, 1] bcast_S1x64_S50x64_0_1 : (⟨S1x64, .f32⟩ : BufTy).Contents (Elt F) → (⟨S50x64, .f32⟩ : BufTy).Contents (Elt F))
  :: StableHlo.binary main_v238 main_v240 main_v241 (addf : (⟨S50x64, .f32⟩ : BufTy).Contents (Elt F) → (⟨S50x64, .f32⟩ : BufTy).Contents (Elt F) → (⟨S50x64, .f32⟩ : BufTy).Contents (Elt F))
  :: StableHlo.nullary main_cst_37 (constant S_ .f32 0x00000000#32)
  :: StableHlo.unary main_cst_37 main_v242 (broadcastInDim S50x64 ![] bcast_S_S50x64 : (⟨S_, .f32⟩ : BufTy).Contents (Elt F) → (⟨S50x64, .f32⟩ : BufTy).Contents (Elt F))
  :: StableHlo.binary main_v241 main_v242 main_v243 (cmpf .oge : (⟨S50x64, .f32⟩ : BufTy).Contents (Elt F) → (⟨S50x64, .f32⟩ : BufTy).Contents (Elt F) → (⟨S50x64, .i1⟩ : BufTy).Contents (Elt F))
  :: StableHlo.nullary main_cst_38 (constant S_ .f32 0x3E4CCCCD#32)
  :: StableHlo.unary main_cst_38 main_v244 (broadcastInDim S50x64 ![] bcast_S_S50x64 : (⟨S_, .f32⟩ : BufTy).Contents (Elt F) → (⟨S50x64, .f32⟩ : BufTy).Contents (Elt F))
  :: StableHlo.binary main_v244 main_v241 main_v245 (mulf : (⟨S50x64, .f32⟩ : BufTy).Contents (Elt F) → (⟨S50x64, .f32⟩ : BufTy).Contents (Elt F) → (⟨S50x64, .f32⟩ : BufTy).Contents (Elt F))
  :: [] )
abbrev sTg : List (HloOp τ sig (Elt F)) :=
  ( StableHlo.TRef.ternary (.of main_v243 : StableHlo.TRef sig ⟨S50x64, .i1⟩) (.of main_v241 : StableHlo.TRef sig ⟨S50x64, .f32⟩) (.of main_v245 : StableHlo.TRef sig ⟨S50x64, .f32⟩) (.of main_v246 : StableHlo.TRef sig ⟨S50x64, .f32⟩) select
  :: [] )
abbrev sTh : List (HloOp τ sig (Elt F)) :=
  ( StableHlo.binary main_v246 main_arg16 main_v247 ((fun l r => Host.dotGeneral dot_S50x64_S64x2_S50x2_1_0_0_1_n_n none l r) : (⟨S50x64, .f32⟩ : BufTy).Contents (Elt F) → (⟨S64x2, .f32⟩ : BufTy).Contents (Elt F) → (⟨S50x2, .f32⟩ : BufTy).Contents (Elt F))
  :: StableHlo.unary main_arg17 main_v248 (broadcastInDim S1x2 ![1] bcast_S2_S1x2_1 : (⟨S2, .f32⟩ : BufTy).Contents (Elt F) → (⟨S1x2, .f32⟩ : BufTy).Contents (Elt F))
  :: StableHlo.unary main_v248 main_v249 (broadcastInDim S50x2 ![0, 1] bcast_S1x2_S50x2_0_1 : (⟨S1x2, .f32⟩ : BufTy).Contents (Elt F) → (⟨S50x2, .f32⟩ : BufTy).Contents (Elt F))
  :: StableHlo.binary main_v247 main_v249 main_v250 (addf : (⟨S50x2, .f32⟩ : BufTy).Contents (Elt F) → (⟨S50x2, .f32⟩ : BufTy).Contents (Elt F) → (⟨S50x2, .f32⟩ : BufTy).Contents (Elt F))
  :: [] )
abbrev sT : List (HloOp τ sig (Elt F)) := sTa ++ (sTb ++ (sTc ++ (sTd ++ (sTe ++ (sTf ++ (sTg ++ (sTh)))))))

-- The whole program, cut wherever a stage, a called function or a printed block of the program ends.
abbrev refOps : List (HloOp τ sig (Elt F)) :=
  sP ++ (sH0 ++ (sG0 ++ (sM0 ++ (sA0 ++ (sD0a ++ (sD0b ++ (sD0c ++ (sB0a ++ (sB0b ++ (sB0c ++ (sH1 ++ (sG1 ++ (sM1 ++ (sA1a ++ (sA1b ++ (sD1a ++ (sD1b ++ (sB1a ++ (sB1b ++ (sB1c ++ (sH2 ++ (sG2a ++ (sG2b ++ (sM2 ++ (sA2 ++ (sD2a ++ (sD2b ++ (sTa ++ (sTb ++ (sTc ++ (sTd ++ (sTe ++ (sTf ++ (sTg ++ (sTh ++ ([]))))))))))))))))))))))))))))))))))))

abbrev vP (V : Valuation τ sig (Elt F)) : Valuation τ sig (Elt F) := StableHlo.after sP V
abbrev vH0 (V : Valuation τ sig (Elt F)) : Valuation τ sig (Elt F) := StableHlo.after sH0 (vP V)
abbrev vG0 (V : Valuation τ sig (Elt F)) : Valuation τ sig (Elt F) := StableHlo.after sG0 (vH0 V)
abbrev vM0 (V : Valuation τ sig (Elt F)) : Valuation τ sig (Elt F) := StableHlo.after sM0 (vG0 V)
abbrev vA0 (V : Valuation τ sig (Elt F)) : Valuation τ sig (Elt F) := StableHlo.after sA0 (vM0 V)
abbrev vD0 (V : Valuation τ sig (Elt F)) : Valuation τ sig (Elt F) := StableHlo.after sD0 (vA0 V)
abbrev vB0 (V : Valuation τ sig (Elt F)) : Valuation τ sig (Elt F) := StableHlo.after sB0 (vD0 V)
abbrev vH1 (V : Valuation τ sig (Elt F)) : Valuation τ sig (Elt F) := StableHlo.after sH1 (vB0 V)
abbrev vG1 (V : Valuation τ sig (Elt F)) : Valuation τ sig (Elt F) := StableHlo.after sG1 (vH1 V)
abbrev vM1 (V : Valuation τ sig (Elt F)) : Valuation τ sig (Elt F) := StableHlo.after sM1 (vG1 V)
abbrev vA1 (V : Valuation τ sig (Elt F)) : Valuation τ sig (Elt F) := StableHlo.after sA1 (vM1 V)
abbrev vD1 (V : Valuation τ sig (Elt F)) : Valuation τ sig (Elt F) := StableHlo.after sD1 (vA1 V)
abbrev vB1 (V : Valuation τ sig (Elt F)) : Valuation τ sig (Elt F) := StableHlo.after sB1 (vD1 V)
abbrev vH2 (V : Valuation τ sig (Elt F)) : Valuation τ sig (Elt F) := StableHlo.after sH2 (vB1 V)
abbrev vG2 (V : Valuation τ sig (Elt F)) : Valuation τ sig (Elt F) := StableHlo.after sG2 (vH2 V)
abbrev vM2 (V : Valuation τ sig (Elt F)) : Valuation τ sig (Elt F) := StableHlo.after sM2 (vG2 V)
abbrev vA2 (V : Valuation τ sig (Elt F)) : Valuation τ sig (Elt F) := StableHlo.after sA2 (vM2 V)
abbrev vD2 (V : Valuation τ sig (Elt F)) : Valuation τ sig (Elt F) := StableHlo.after sD2 (vA2 V)
abbrev vT (V : Valuation τ sig (Elt F)) : Valuation τ sig (Elt F) := StableHlo.after sT (vD2 V)

-- Running the whole program is running the 19 stages one after the other: the two cuts list the same operations.
theorem after_refOps (V : Valuation τ sig (Elt F)) : StableHlo.after (refOps (F := F)) V = vT V := by
  rw [show (refOps (F := F)) = sP ++ (sH0 ++ (sG0 ++ (sM0 ++ (sA0 ++ (sD0 ++ (sB0 ++ (sH1 ++ (sG1 ++ (sM1 ++ (sA1 ++ (sD1 ++ (sB1 ++ (sH2 ++ (sG2 ++ (sM2 ++ (sA2 ++ (sD2 ++ (sT ++ ([]))))))))))))))))))) from rfl, List.append_nil]
  iterate 18 rw [StableHlo.after_append]

end Cert.ReferenceIdeal.Stages

end
-- ==== Proof.RefSegs.lean ====
import proofs.«427610_j64510408786513_1_alg».proof.Proof.RefStages
import Idealize.ShloMosaic.Lib.Pipeline.Kit
import Idealize.ShloMosaic.Lib.Pipeline.Regions

set_option maxRecDepth 2588

noncomputable section

namespace Cert.ReferenceIdeal.Segs

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen Cert.ReferenceIdeal.Stages

variable {F : FTy → Type} [FloatOps F]

theorem main_part0_chain (c : Dev nD) : main_part0 (F := F) c = (Pipeline.chainK
  [ StableHlo.seq sP, StableHlo.seq sH0, StableHlo.seq sG0, StableHlo.seq sM0, StableHlo.seq sA0 ]
  (StableHlo.seq sD0a) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ StableHlo.seq sD0b, StableHlo.seq sD0c, StableHlo.seq sB0a, StableHlo.seq sB0b, StableHlo.seq sB0c, StableHlo.seq sH1, StableHlo.seq sG1, StableHlo.seq sM1 ]
  (StableHlo.seq sA1a) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chainK
  [ StableHlo.seq sA1b, StableHlo.seq sD1a, StableHlo.seq sD1b, StableHlo.seq sB1a, StableHlo.seq sB1b, StableHlo.seq sB1c, StableHlo.seq sH2 ]
  (StableHlo.seq sG2a) : Prog (TpuEff nD τ sig (Elt F) (Pipeline.Sig Λ₀ (Fin 0) fun p => (pcfgs (F := F) p).Adm) .tc) PUnit) := by
  chain_rfl

theorem main_part3_chain (c : Dev nD) : main_part3 (F := F) c = (Pipeline.chainK
  [ StableHlo.seq sG2b, StableHlo.seq sM2, StableHlo.seq sA2, StableHlo.seq sD2a, StableHlo.seq sD2b, StableHlo.seq sTa, StableHlo.seq sTb ]
  (StableHlo.seq sTc) : Prog (TpuEff nD τ sig (Elt F) (Pipeline.Sig Λ₀ (Fin 0) fun p => (pcfgs (F := F) p).Adm) .tc) PUnit) := by
  chain_rfl

theorem main_part4_chain (c : Dev nD) : main_part4 (F := F) c = (Pipeline.chain
  [ StableHlo.seq sTd, StableHlo.seq sTe, StableHlo.seq sTf, StableHlo.seq sTg, StableHlo.seq sTh ] : Prog (TpuEff nD τ sig (Elt F) (Pipeline.Sig Λ₀ (Fin 0) fun p => (pcfgs (F := F) p).Adm) .tc) PUnit) := by
  chain_rfl

-- Each printed block is the chain of its pieces, a block then the chain of the rest is the chain of all, so the program is the chain of its 36 pieces.
theorem main_chain (c : Dev nD) : main (F := F) c = (Pipeline.chain
  [ StableHlo.seq sP, StableHlo.seq sH0, StableHlo.seq sG0, StableHlo.seq sM0, StableHlo.seq sA0, StableHlo.seq sD0a, StableHlo.seq sD0b, StableHlo.seq sD0c, StableHlo.seq sB0a, StableHlo.seq sB0b, StableHlo.seq sB0c, StableHlo.seq sH1, StableHlo.seq sG1, StableHlo.seq sM1, StableHlo.seq sA1a, StableHlo.seq sA1b, StableHlo.seq sD1a, StableHlo.seq sD1b, StableHlo.seq sB1a, StableHlo.seq sB1b, StableHlo.seq sB1c, StableHlo.seq sH2, StableHlo.seq sG2a, StableHlo.seq sG2b, StableHlo.seq sM2, StableHlo.seq sA2, StableHlo.seq sD2a, StableHlo.seq sD2b, StableHlo.seq sTa, StableHlo.seq sTb, StableHlo.seq sTc, StableHlo.seq sTd, StableHlo.seq sTe, StableHlo.seq sTf, StableHlo.seq sTg, StableHlo.seq sTh ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

end Cert.ReferenceIdeal.Segs

end
-- ==== Proof.RefRun.lean ====
import proofs.«427610_j64510408786513_1_alg».proof.Proof.RefSegs
import Idealize.ShloMosaic.Lib.StableHlo.Run
import Idealize.ShloMosaic.Lib.Pipeline.Regions
import Mathlib.Data.List.Basic

set_option maxRecDepth 2588

noncomputable section

namespace Cert.ReferenceIdeal.Run

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen Cert.ReferenceIdeal.Segs Cert.ReferenceIdeal.Stages

variable {F : FTy → Type} [FloatOps F]

-- A chain of straight lines is the straight line of their concatenation.
theorem chain_seq {nD : Nat} {τ : Topo} {sig : RefSig} {Val : EltTy → Type} {Λ : Labels} :
    ∀ L : List (List (HloOp τ sig Val)),
      Pipeline.chain (L.map fun l => (StableHlo.seq l : Prog (TpuEff nD τ sig Val Λ .tc) PUnit))
        = StableHlo.seq (L.foldr (fun l acc => l ++ acc) [])
  | [] => rfl
  | l :: L => by
    rw [List.map_cons, Pipeline.chain_cons, List.foldr_cons, StableHlo.seq_append, chain_seq L]

theorem main_eq (c : Dev nD) : main (F := F) c = StableHlo.seq refOps :=
  (main_chain c).trans (chain_seq
    [sP, sH0, sG0, sM0, sA0, sD0a, sD0b, sD0c, sB0a, sB0b, sB0c, sH1, sG1, sM1, sA1a, sA1b, sD1a, sD1b, sB1a, sB1b, sB1c, sH2, sG2a, sG2b, sM2, sA2, sD2a, sD2b, sTa, sTb, sTc, sTd, sTe, sTf, sTg, sTh])

theorem forall_app {α : Type*} {p : α → Prop} {l₁ l₂ : List α} (h₁ : l₁.Forall p) (h₂ : l₂.Forall p) :
    (l₁ ++ l₂).Forall p :=
  List.forall_append.mpr ⟨h₁, h₂⟩

-- Every operation reads and writes buffers of the one memory the program runs in.
theorem refOps_sub : (refOps : List (HloOp τ sig (Elt F))).Forall fun op => op.bufs ⊆ StableHlo.tcRefs τ sig := by
  repeat' apply forall_app
  all_goals simp only [List.Forall, StableHlo.nullary_bufs_sub, StableHlo.unary_bufs_sub, StableHlo.binary_bufs_sub,
    StableHlo.ternary_bufs_sub, StableHlo.reshape_bufs_sub, and_self]

-- No operation allocates a buffer.
theorem refOps_fresh : (refOps : List (HloOp τ sig (Elt F))).Forall fun op => op.fresh = ∅ := by
  repeat' apply forall_app
  all_goals (simp only [List.Forall]; repeat' constructor)

theorem scopedRefs_eq : (Finset.univ.filter fun b : Ref sig .tc => b.isScoped) = ∅ := by decide
theorem scopedSems_eq : (Finset.univ.filter fun sm : SemLoc sig => sm.isScoped .tc) = ∅ := by decide

-- Every weakly fair execution of the reference terminates with each buffer at the fold of its operations' results over the launch contents.
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after refOps (StableHlo.launchContents m c) (Proc.devRef .tc b) :=
  StableHlo.run_seq scopedRefs_eq scopedSems_eq defs main (fun _ => refOps) main_eq (fun _ => refOps_sub) m ρ
    (fun _ => List.forall_iff_forall_mem.mp refOps_fresh)

end Cert.ReferenceIdeal.Run

end
-- ==== Proof.RefKeep.lean ====
import proofs.«427610_j64510408786513_1_alg».proof.Proof.RefRun

set_option maxRecDepth 2588

noncomputable section

namespace Cert.ReferenceIdeal.Keep

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen Cert.ReferenceIdeal.Stages Cert.ReferenceIdeal.Run

variable {F : FTy → Type} [FloatOps F]

theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

-- Per stage: the buffers it writes, that it writes no other, and so that any other buffer keeps its contents over it.
abbrev sP_W : List (Ref sig .tc) := [main_v0, main_v1, main_v2, main_v3, main_v4, main_v5, main_v6, main_v7, main_v8, main_v9]
theorem sP_writes : (sP : List (HloOp τ sig (Elt F))).Forall fun op => op.writes ⊆ (sP_W.map (Proc.devRef (τ := τ) .tc)).toFinset := by
  repeat' apply forall_app
  all_goals (simp only [List.Forall]; repeat' constructor)
  all_goals exact single_sub (by decide)
theorem vP_of (V : Valuation τ sig (Elt F)) {r : Ref sig .tc} (h : r ∉ sP_W) :
    vP V (Proc.devRef .tc r) = V (Proc.devRef .tc r) :=
  StableHlo.after_of_writes_sub sP _ sP_writes h
abbrev sH0_W : List (Ref sig .tc) := [main_v10]
theorem sH0_writes : (sH0 : List (HloOp τ sig (Elt F))).Forall fun op => op.writes ⊆ (sH0_W.map (Proc.devRef (τ := τ) .tc)).toFinset := by
  repeat' apply forall_app
  all_goals (simp only [List.Forall]; repeat' constructor)
  all_goals exact single_sub (by decide)
theorem vH0_of (V : Valuation τ sig (Elt F)) {r : Ref sig .tc} (h : r ∉ sH0_W) :
    vH0 V (Proc.devRef .tc r) = vP V (Proc.devRef .tc r) :=
  StableHlo.after_of_writes_sub sH0 _ sH0_writes h
abbrev sG0_W : List (Ref sig .tc) := [main_c, main_v11, main_v12, main_c_0, main_v13, main_v14, main_v15, main_v16, main_v17, main_c_1, main_v18, main_v19, main_c_2, main_v20, main_v21, main_v22, main_v23, main_v24]
theorem sG0_writes : (sG0 : List (HloOp τ sig (Elt F))).Forall fun op => op.writes ⊆ (sG0_W.map (Proc.devRef (τ := τ) .tc)).toFinset := by
  repeat' apply forall_app
  all_goals (simp only [List.Forall]; repeat' constructor)
  all_goals exact single_sub (by decide)
theorem vG0_of (V : Valuation τ sig (Elt F)) {r : Ref sig .tc} (h : r ∉ sG0_W) :
    vG0 V (Proc.devRef .tc r) = vH0 V (Proc.devRef .tc r) :=
  StableHlo.after_of_writes_sub sG0 _ sG0_writes h
abbrev sM0_W : List (Ref sig .tc) := [main_v25, main_v26, main_v27, main_v28, main_v29, main_v30, main_v31, main_v32, main_v33]
theorem sM0_writes : (sM0 : List (HloOp τ sig (Elt F))).Forall fun op => op.writes ⊆ (sM0_W.map (Proc.devRef (τ := τ) .tc)).toFinset := by
  repeat' apply forall_app
  all_goals (simp only [List.Forall]; repeat' constructor)
  all_goals exact single_sub (by decide)
theorem vM0_of (V : Valuation τ sig (Elt F)) {r : Ref sig .tc} (h : r ∉ sM0_W) :
    vM0 V (Proc.devRef .tc r) = vG0 V (Proc.devRef .tc r) :=
  StableHlo.after_of_writes_sub sM0 _ sM0_writes h
abbrev sA0_W : List (Ref sig .tc) := [main_cst, main_v34, main_v35, main_v36, main_v37, main_v38, main_v39, main_v40, main_v41]
theorem sA0_writes : (sA0 : List (HloOp τ sig (Elt F))).Forall fun op => op.writes ⊆ (sA0_W.map (Proc.devRef (τ := τ) .tc)).toFinset := by
  repeat' apply forall_app
  all_goals (simp only [List.Forall]; repeat' constructor)
  all_goals exact single_sub (by decide)
theorem vA0_of (V : Valuation τ sig (Elt F)) {r : Ref sig .tc} (h : r ∉ sA0_W) :
    vA0 V (Proc.devRef .tc r) = vM0 V (Proc.devRef .tc r) :=
  StableHlo.after_of_writes_sub sA0 _ sA0_writes h
abbrev sD0_W : List (Ref sig .tc) := [main_v42, main_v43, main_v44, main_v45, main_v46, main_v47, main_v48, main_v49, main_cst_3, main_v50, main_v51, main_cst_4, main_v52, main_v53, main_v54]
theorem sD0_writes : (sD0 : List (HloOp τ sig (Elt F))).Forall fun op => op.writes ⊆ (sD0_W.map (Proc.devRef (τ := τ) .tc)).toFinset := by
  repeat' apply forall_app
  all_goals (simp only [List.Forall]; repeat' constructor)
  all_goals exact single_sub (by decide)
theorem vD0_of (V : Valuation τ sig (Elt F)) {r : Ref sig .tc} (h : r ∉ sD0_W) :
    vD0 V (Proc.devRef .tc r) = vA0 V (Proc.devRef .tc r) :=
  StableHlo.after_of_writes_sub sD0 _ sD0_writes h
abbrev sB0_W : List (Ref sig .tc) := [main_cst_5, main_v55, main_cst_6, main_v56, main_v57, main_c_7, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v58, main_v59, main_v60, main_v61, main_v62, main_v63, main_v64, main_v65, main_v66, main_cst_8, main_v67, main_v68, main_v69, main_v70, main_v71, main_v72, main_v73, main_v74, main_v75, main_v76, main_v77, main_v78, main_v79]
theorem sB0_writes : (sB0 : List (HloOp τ sig (Elt F))).Forall fun op => op.writes ⊆ (sB0_W.map (Proc.devRef (τ := τ) .tc)).toFinset := by
  repeat' apply forall_app
  all_goals (simp only [List.Forall]; repeat' constructor)
  all_goals exact single_sub (by decide)
theorem vB0_of (V : Valuation τ sig (Elt F)) {r : Ref sig .tc} (h : r ∉ sB0_W) :
    vB0 V (Proc.devRef .tc r) = vD0 V (Proc.devRef .tc r) :=
  StableHlo.after_of_writes_sub sB0 _ sB0_writes h
abbrev sH1_W : List (Ref sig .tc) := [main_v80]
theorem sH1_writes : (sH1 : List (HloOp τ sig (Elt F))).Forall fun op => op.writes ⊆ (sH1_W.map (Proc.devRef (τ := τ) .tc)).toFinset := by
  repeat' apply forall_app
  all_goals (simp only [List.Forall]; repeat' constructor)
  all_goals exact single_sub (by decide)
theorem vH1_of (V : Valuation τ sig (Elt F)) {r : Ref sig .tc} (h : r ∉ sH1_W) :
    vH1 V (Proc.devRef .tc r) = vB0 V (Proc.devRef .tc r) :=
  StableHlo.after_of_writes_sub sH1 _ sH1_writes h
abbrev sG1_W : List (Ref sig .tc) := [main_c_9, main_v81, main_v82, main_c_10, main_v83, main_v84, main_v85, main_v86, main_v87, main_c_11, main_v88, main_v89, main_c_12, main_v90, main_v91, main_v92, main_v93, main_v94]
theorem sG1_writes : (sG1 : List (HloOp τ sig (Elt F))).Forall fun op => op.writes ⊆ (sG1_W.map (Proc.devRef (τ := τ) .tc)).toFinset := by
  repeat' apply forall_app
  all_goals (simp only [List.Forall]; repeat' constructor)
  all_goals exact single_sub (by decide)
theorem vG1_of (V : Valuation τ sig (Elt F)) {r : Ref sig .tc} (h : r ∉ sG1_W) :
    vG1 V (Proc.devRef .tc r) = vH1 V (Proc.devRef .tc r) :=
  StableHlo.after_of_writes_sub sG1 _ sG1_writes h
abbrev sM1_W : List (Ref sig .tc) := [main_v95, main_v96, main_v97, main_v98, main_v99, main_v100, main_v101, main_v102, main_v103]
theorem sM1_writes : (sM1 : List (HloOp τ sig (Elt F))).Forall fun op => op.writes ⊆ (sM1_W.map (Proc.devRef (τ := τ) .tc)).toFinset := by
  repeat' apply forall_app
  all_goals (simp only [List.Forall]; repeat' constructor)
  all_goals exact single_sub (by decide)
theorem vM1_of (V : Valuation τ sig (Elt F)) {r : Ref sig .tc} (h : r ∉ sM1_W) :
    vM1 V (Proc.devRef .tc r) = vG1 V (Proc.devRef .tc r) :=
  StableHlo.after_of_writes_sub sM1 _ sM1_writes h
abbrev sA1_W : List (Ref sig .tc) := [main_cst_13, main_v104, main_v105, main_v106, main_v107, main_v108, main_v109, main_v110, main_v111]
theorem sA1_writes : (sA1 : List (HloOp τ sig (Elt F))).Forall fun op => op.writes ⊆ (sA1_W.map (Proc.devRef (τ := τ) .tc)).toFinset := by
  repeat' apply forall_app
  all_goals (simp only [List.Forall]; repeat' constructor)
  all_goals exact single_sub (by decide)
theorem vA1_of (V : Valuation τ sig (Elt F)) {r : Ref sig .tc} (h : r ∉ sA1_W) :
    vA1 V (Proc.devRef .tc r) = vM1 V (Proc.devRef .tc r) :=
  StableHlo.after_of_writes_sub sA1 _ sA1_writes h
abbrev sD1_W : List (Ref sig .tc) := [main_v112, main_v113, main_v114, main_v115, main_v116, main_v117, main_v118, main_v119, main_cst_14, main_v120, main_v121, main_cst_15, main_v122, main_v123, main_v124]
theorem sD1_writes : (sD1 : List (HloOp τ sig (Elt F))).Forall fun op => op.writes ⊆ (sD1_W.map (Proc.devRef (τ := τ) .tc)).toFinset := by
  repeat' apply forall_app
  all_goals (simp only [List.Forall]; repeat' constructor)
  all_goals exact single_sub (by decide)
theorem vD1_of (V : Valuation τ sig (Elt F)) {r : Ref sig .tc} (h : r ∉ sD1_W) :
    vD1 V (Proc.devRef .tc r) = vA1 V (Proc.devRef .tc r) :=
  StableHlo.after_of_writes_sub sD1 _ sD1_writes h
abbrev sB1_W : List (Ref sig .tc) := [main_cst_16, main_v125, main_cst_17, main_v126, main_v127, main_c_18, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v128, main_v129, main_v130, main_v131, main_v132, main_v133, main_v134, main_v135, main_v136, main_cst_19, main_v137, main_v138, main_v139, main_v140, main_v141, main_v142, main_v143, main_v144, main_v145, main_v146, main_v147, main_v148, main_v149]
theorem sB1_writes : (sB1 : List (HloOp τ sig (Elt F))).Forall fun op => op.writes ⊆ (sB1_W.map (Proc.devRef (τ := τ) .tc)).toFinset := by
  repeat' apply forall_app
  all_goals (simp only [List.Forall]; repeat' constructor)
  all_goals exact single_sub (by decide)
theorem vB1_of (V : Valuation τ sig (Elt F)) {r : Ref sig .tc} (h : r ∉ sB1_W) :
    vB1 V (Proc.devRef .tc r) = vD1 V (Proc.devRef .tc r) :=
  StableHlo.after_of_writes_sub sB1 _ sB1_writes h
abbrev sH2_W : List (Ref sig .tc) := [main_v150]
theorem sH2_writes : (sH2 : List (HloOp τ sig (Elt F))).Forall fun op => op.writes ⊆ (sH2_W.map (Proc.devRef (τ := τ) .tc)).toFinset := by
  repeat' apply forall_app
  all_goals (simp only [List.Forall]; repeat' constructor)
  all_goals exact single_sub (by decide)
theorem vH2_of (V : Valuation τ sig (Elt F)) {r : Ref sig .tc} (h : r ∉ sH2_W) :
    vH2 V (Proc.devRef .tc r) = vB1 V (Proc.devRef .tc r) :=
  StableHlo.after_of_writes_sub sH2 _ sH2_writes h
abbrev sG2_W : List (Ref sig .tc) := [main_c_20, main_v151, main_v152, main_c_21, main_v153, main_v154, main_v155, main_v156, main_v157, main_c_22, main_v158, main_v159, main_c_23, main_v160, main_v161, main_v162, main_v163, main_v164]
theorem sG2_writes : (sG2 : List (HloOp τ sig (Elt F))).Forall fun op => op.writes ⊆ (sG2_W.map (Proc.devRef (τ := τ) .tc)).toFinset := by
  repeat' apply forall_app
  all_goals (simp only [List.Forall]; repeat' constructor)
  all_goals exact single_sub (by decide)
theorem vG2_of (V : Valuation τ sig (Elt F)) {r : Ref sig .tc} (h : r ∉ sG2_W) :
    vG2 V (Proc.devRef .tc r) = vH2 V (Proc.devRef .tc r) :=
  StableHlo.after_of_writes_sub sG2 _ sG2_writes h
abbrev sM2_W : List (Ref sig .tc) := [main_v165, main_v166, main_v167, main_v168, main_v169, main_v170, main_v171, main_v172, main_v173]
theorem sM2_writes : (sM2 : List (HloOp τ sig (Elt F))).Forall fun op => op.writes ⊆ (sM2_W.map (Proc.devRef (τ := τ) .tc)).toFinset := by
  repeat' apply forall_app
  all_goals (simp only [List.Forall]; repeat' constructor)
  all_goals exact single_sub (by decide)
theorem vM2_of (V : Valuation τ sig (Elt F)) {r : Ref sig .tc} (h : r ∉ sM2_W) :
    vM2 V (Proc.devRef .tc r) = vG2 V (Proc.devRef .tc r) :=
  StableHlo.after_of_writes_sub sM2 _ sM2_writes h
abbrev sA2_W : List (Ref sig .tc) := [main_cst_24, main_v174, main_v175, main_v176, main_v177, main_v178, main_v179, main_v180, main_v181]
theorem sA2_writes : (sA2 : List (HloOp τ sig (Elt F))).Forall fun op => op.writes ⊆ (sA2_W.map (Proc.devRef (τ := τ) .tc)).toFinset := by
  repeat' apply forall_app
  all_goals (simp only [List.Forall]; repeat' constructor)
  all_goals exact single_sub (by decide)
theorem vA2_of (V : Valuation τ sig (Elt F)) {r : Ref sig .tc} (h : r ∉ sA2_W) :
    vA2 V (Proc.devRef .tc r) = vM2 V (Proc.devRef .tc r) :=
  StableHlo.after_of_writes_sub sA2 _ sA2_writes h
abbrev sD2_W : List (Ref sig .tc) := [main_v182, main_v183, main_v184, main_v185, main_v186, main_v187, main_v188, main_v189, main_cst_25, main_v190, main_v191, main_cst_26, main_v192, main_v193, main_v194]
theorem sD2_writes : (sD2 : List (HloOp τ sig (Elt F))).Forall fun op => op.writes ⊆ (sD2_W.map (Proc.devRef (τ := τ) .tc)).toFinset := by
  repeat' apply forall_app
  all_goals (simp only [List.Forall]; repeat' constructor)
  all_goals exact single_sub (by decide)
theorem vD2_of (V : Valuation τ sig (Elt F)) {r : Ref sig .tc} (h : r ∉ sD2_W) :
    vD2 V (Proc.devRef .tc r) = vA2 V (Proc.devRef .tc r) :=
  StableHlo.after_of_writes_sub sD2 _ sD2_writes h
abbrev sT_W : List (Ref sig .tc) := [main_cst_27, main_v195, main_cst_28, main_v196, main_v197, main_c_29, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v198, main_v199, main_v200, main_v201, main_v202, main_v203, main_v204, main_v205, main_v206, main_cst_30, main_v207, main_v208, main_v209, main_v210, main_v211, main_v212, main_v213, main_v214, main_v215, main_v216, main_v217, main_cst_31, main_v218, main_v219, main_v220, main_cst_32, main_v221, main_cst_33, main_v222, main_v223, main_v224, main_cst_34, main_v225, main_v226, main_v227, main_v228, main_v229, main_v230, main_v231, main_v232, main_cst_35, main_v233, main_v234, main_cst_36, main_v235, main_v236, main_v237, main_v238, main_v239, main_v240, main_v241, main_cst_37, main_v242, main_v243, main_cst_38, main_v244, main_v245, main_v246, main_v247, main_v248, main_v249, main_v250]
theorem sT_writes : (sT : List (HloOp τ sig (Elt F))).Forall fun op => op.writes ⊆ (sT_W.map (Proc.devRef (τ := τ) .tc)).toFinset := by
  repeat' apply forall_app
  all_goals (simp only [List.Forall]; repeat' constructor)
  all_goals exact single_sub (by decide)
theorem vT_of (V : Valuation τ sig (Elt F)) {r : Ref sig .tc} (h : r ∉ sT_W) :
    vT V (Proc.devRef .tc r) = vD2 V (Proc.devRef .tc r) :=
  StableHlo.after_of_writes_sub sT _ sT_writes h

-- A buffer that no stage writes (each of the 18 argument arrays is one) holds after every stage what it held at the launch.
abbrev Kept (r : Ref sig .tc) : Prop :=
  r ∉ sP_W ∧ r ∉ sH0_W ∧ r ∉ sG0_W ∧ r ∉ sM0_W ∧ r ∉ sA0_W ∧ r ∉ sD0_W ∧ r ∉ sB0_W ∧ r ∉ sH1_W ∧ r ∉ sG1_W ∧ r ∉ sM1_W ∧ r ∉ sA1_W ∧ r ∉ sD1_W ∧ r ∉ sB1_W ∧ r ∉ sH2_W ∧ r ∉ sG2_W ∧ r ∉ sM2_W ∧ r ∉ sA2_W ∧ r ∉ sD2_W ∧ r ∉ sT_W
theorem vP_arg (V : Valuation τ sig (Elt F)) {r : Ref sig .tc} (h : Kept r) : vP V (Proc.devRef .tc r) = V (Proc.devRef .tc r) :=
  vP_of V h.1
theorem vH0_arg (V : Valuation τ sig (Elt F)) {r : Ref sig .tc} (h : Kept r) : vH0 V (Proc.devRef .tc r) = V (Proc.devRef .tc r) :=
  (vH0_of V h.2.1).trans (vP_arg V h)
theorem vG0_arg (V : Valuation τ sig (Elt F)) {r : Ref sig .tc} (h : Kept r) : vG0 V (Proc.devRef .tc r) = V (Proc.devRef .tc r) :=
  (vG0_of V h.2.2.1).trans (vH0_arg V h)
theorem vM0_arg (V : Valuation τ sig (Elt F)) {r : Ref sig .tc} (h : Kept r) : vM0 V (Proc.devRef .tc r) = V (Proc.devRef .tc r) :=
  (vM0_of V h.2.2.2.1).trans (vG0_arg V h)
theorem vA0_arg (V : Valuation τ sig (Elt F)) {r : Ref sig .tc} (h : Kept r) : vA0 V (Proc.devRef .tc r) = V (Proc.devRef .tc r) :=
  (vA0_of V h.2.2.2.2.1).trans (vM0_arg V h)
theorem vD0_arg (V : Valuation τ sig (Elt F)) {r : Ref sig .tc} (h : Kept r) : vD0 V (Proc.devRef .tc r) = V (Proc.devRef .tc r) :=
  (vD0_of V h.2.2.2.2.2.1).trans (vA0_arg V h)
theorem vB0_arg (V : Valuation τ sig (Elt F)) {r : Ref sig .tc} (h : Kept r) : vB0 V (Proc.devRef .tc r) = V (Proc.devRef .tc r) :=
  (vB0_of V h.2.2.2.2.2.2.1).trans (vD0_arg V h)
theorem vH1_arg (V : Valuation τ sig (Elt F)) {r : Ref sig .tc} (h : Kept r) : vH1 V (Proc.devRef .tc r) = V (Proc.devRef .tc r) :=
  (vH1_of V h.2.2.2.2.2.2.2.1).trans (vB0_arg V h)
theorem vG1_arg (V : Valuation τ sig (Elt F)) {r : Ref sig .tc} (h : Kept r) : vG1 V (Proc.devRef .tc r) = V (Proc.devRef .tc r) :=
  (vG1_of V h.2.2.2.2.2.2.2.2.1).trans (vH1_arg V h)
theorem vM1_arg (V : Valuation τ sig (Elt F)) {r : Ref sig .tc} (h : Kept r) : vM1 V (Proc.devRef .tc r) = V (Proc.devRef .tc r) :=
  (vM1_of V h.2.2.2.2.2.2.2.2.2.1).trans (vG1_arg V h)
theorem vA1_arg (V : Valuation τ sig (Elt F)) {r : Ref sig .tc} (h : Kept r) : vA1 V (Proc.devRef .tc r) = V (Proc.devRef .tc r) :=
  (vA1_of V h.2.2.2.2.2.2.2.2.2.2.1).trans (vM1_arg V h)
theorem vD1_arg (V : Valuation τ sig (Elt F)) {r : Ref sig .tc} (h : Kept r) : vD1 V (Proc.devRef .tc r) = V (Proc.devRef .tc r) :=
  (vD1_of V h.2.2.2.2.2.2.2.2.2.2.2.1).trans (vA1_arg V h)
theorem vB1_arg (V : Valuation τ sig (Elt F)) {r : Ref sig .tc} (h : Kept r) : vB1 V (Proc.devRef .tc r) = V (Proc.devRef .tc r) :=
  (vB1_of V h.2.2.2.2.2.2.2.2.2.2.2.2.1).trans (vD1_arg V h)
theorem vH2_arg (V : Valuation τ sig (Elt F)) {r : Ref sig .tc} (h : Kept r) : vH2 V (Proc.devRef .tc r) = V (Proc.devRef .tc r) :=
  (vH2_of V h.2.2.2.2.2.2.2.2.2.2.2.2.2.1).trans (vB1_arg V h)
theorem vG2_arg (V : Valuation τ sig (Elt F)) {r : Ref sig .tc} (h : Kept r) : vG2 V (Proc.devRef .tc r) = V (Proc.devRef .tc r) :=
  (vG2_of V h.2.2.2.2.2.2.2.2.2.2.2.2.2.2.1).trans (vH2_arg V h)
theorem vM2_arg (V : Valuation τ sig (Elt F)) {r : Ref sig .tc} (h : Kept r) : vM2 V (Proc.devRef .tc r) = V (Proc.devRef .tc r) :=
  (vM2_of V h.2.2.2.2.2.2.2.2.2.2.2.2.2.2.2.1).trans (vG2_arg V h)
theorem vA2_arg (V : Valuation τ sig (Elt F)) {r : Ref sig .tc} (h : Kept r) : vA2 V (Proc.devRef .tc r) = V (Proc.devRef .tc r) :=
  (vA2_of V h.2.2.2.2.2.2.2.2.2.2.2.2.2.2.2.2.1).trans (vM2_arg V h)
theorem vD2_arg (V : Valuation τ sig (Elt F)) {r : Ref sig .tc} (h : Kept r) : vD2 V (Proc.devRef .tc r) = V (Proc.devRef .tc r) :=
  (vD2_of V h.2.2.2.2.2.2.2.2.2.2.2.2.2.2.2.2.2.1).trans (vA2_arg V h)
theorem vT_arg (V : Valuation τ sig (Elt F)) {r : Ref sig .tc} (h : Kept r) : vT V (Proc.devRef .tc r) = V (Proc.devRef .tc r) :=
  (vT_of V h.2.2.2.2.2.2.2.2.2.2.2.2.2.2.2.2.2.2).trans (vD2_arg V h)
theorem keep (V : Valuation τ sig (Elt F)) {r : Ref sig .tc} (h : Kept r) :
    StableHlo.after (refOps (F := F)) V (Proc.devRef .tc r) = V (Proc.devRef .tc r) :=
  (congrFun (after_refOps V) _).trans (vT_arg V h)

end Cert.ReferenceIdeal.Keep

end
-- ==== Proof.Range.lean ====
import proofs.«427610_j64510408786513_1_alg».proof.Proof.Ctx
import proofs.«427610_j64510408786513_1_alg».proof.Proof.Gen.Pre_finite_inputs
import Idealize.ShloMosaic.Lib.ReduceAll
import Idealize.ShloMosaic.Lib.IdealHost

noncomputable section

namespace Cert.Bridge.Range

open Idealize.ShloMosaic Idealize.SL.Sem
open Cert.Pre_finite_inputs Cert.Pre_finite_inputs.Facts

instance : Subsingleton S_.Idx := ⟨fun a b => funext fun d => d.elim0⟩

def rangeMask (e : IVec S2x800000 32) : IVec S2x800000 1 :=
  andi (cmpi .sge e (broadcastInDim S2x800000 ![] bcast_S_S2x800000 (constantI S_ 32 0#32)))
    (cmpi .slt e (broadcastInDim S2x800000 ![] bcast_S_S2x800000 (constantI S_ 32 50000#32)))

theorem fn_split (a0 : FVec Ideal S50000x128 .f32) (a1 : IVec S2x800000 32) (a2 : FVec Ideal S800000 .f32) (a3 : IVec S50000 32)
    (a4 : FVec Ideal S3x128x128 .f32) (a5 : FVec Ideal S3x128 .f32) (a6 : FVec Ideal S3x256x128 .f32) (a7 : FVec Ideal S3x128 .f32)
    (a8 : FVec Ideal S3x128x128 .f32) (a9 : FVec Ideal S3x128 .f32) (a10 : FVec Ideal S3x128 .f32) (a11 : FVec Ideal S3x128 .f32)
    (a12 : FVec Ideal S128x128 .f32) (a13 : FVec Ideal S128 .f32) (a14 : FVec Ideal S128x64 .f32) (a15 : FVec Ideal S64 .f32)
    (a16 : FVec Ideal S64x2 .f32) (a17 : FVec Ideal S2 .f32) :
    ∃ X : IVec S_ 1, fn (F := Ideal) a0 a1 a2 a3 a4 a5 a6 a7 a8 a9 a10 a11 a12 a13 a14 a15 a16 a17
      = andi X (Host.reduce IntOp.andi (rangeMask a1) (constantI S_ 1 1#1) reducesTo_S2x800000_S_d0_1 h_S_) :=
  ⟨_, rfl⟩

theorem zero_toInt : (0#32 : BitVec 32).toInt = 0 := by decide

theorem bound_toInt : (50000#32 : BitVec 32).toInt = 50000 := by decide

theorem range_of_fn (a0 : FVec Ideal S50000x128 .f32) (a1 : IVec S2x800000 32) (a2 : FVec Ideal S800000 .f32) (a3 : IVec S50000 32)
    (a4 : FVec Ideal S3x128x128 .f32) (a5 : FVec Ideal S3x128 .f32) (a6 : FVec Ideal S3x256x128 .f32) (a7 : FVec Ideal S3x128 .f32)
    (a8 : FVec Ideal S3x128x128 .f32) (a9 : FVec Ideal S3x128 .f32) (a10 : FVec Ideal S3x128 .f32) (a11 : FVec Ideal S3x128 .f32)
    (a12 : FVec Ideal S128x128 .f32) (a13 : FVec Ideal S128 .f32) (a14 : FVec Ideal S128x64 .f32) (a15 : FVec Ideal S64 .f32)
    (a16 : FVec Ideal S64x2 .f32) (a17 : FVec Ideal S2 .f32)
    (h : fn (F := Ideal) a0 a1 a2 a3 a4 a5 a6 a7 a8 a9 a10 a11 a12 a13 a14 a15 a16 a17 = fun _ => 1#1)
    (i : S2x800000.Idx) : 0 ≤ (a1 i).toInt ∧ (a1 i).toInt < 50000 := by
  obtain ⟨X, hX⟩ := fn_split a0 a1 a2 a3 a4 a5 a6 a7 a8 a9 a10 a11 a12 a13 a14 a15 a16 a17
  have h0 := congrFun h ValueIdx.ix0
  rw [hX] at h0

  have h1 : IntOp.andi (X ValueIdx.ix0)
      (Host.reduce IntOp.andi (rangeMask a1) (constantI S_ 1 1#1) reducesTo_S2x800000_S_d0_1 h_S_ ValueIdx.ix0) = 1#1 := h0
  have h2 := (IntOp.andi_eq_one.1 h1).2

  have h3 : rangeMask a1 i = 1#1 := Host.reduce_andi_all _ _ _ _ _ h2 i

  have h4 : IntOp.andi (IntOp.cmpi .sge (a1 i) (broadcastInDim S2x800000 ![] bcast_S_S2x800000 (constantI S_ 32 0#32) i))
      (IntOp.cmpi .slt (a1 i) (broadcastInDim S2x800000 ![] bcast_S_S2x800000 (constantI S_ 32 50000#32) i)) = 1#1 := h3
  obtain ⟨h5, h6⟩ := IntOp.andi_eq_one.1 h4

  rw [IntOp.cmpi_sge, ValueIdx.broadcastInDim_scalar_apply] at h5
  rw [IntOp.cmpi_slt, ValueIdx.broadcastInDim_scalar_apply] at h6
  have h7 : (0#32 : BitVec 32).toInt ≤ (a1 i).toInt := h5
  have h8 : (a1 i).toInt < (50000#32 : BitVec 32).toInt := h6
  rw [zero_toInt] at h7
  rw [bound_toInt] at h8
  exact ⟨h7, h8⟩

theorem inRange_of_pre (m : Cert.Bridge.KMem) (hpre : Cert.Pre_KernelIdeal m) (c : Dev Cert.KernelIdeal.nD) :
    Cert.Bridge.InRange m c :=
  fun i => range_of_fn _ _ _ _ _ _ _ _ _ _ _ _ _ _ _ _ _ _ (hpre c) i

end Cert.Bridge.Range

end
-- ==== Proof.Read.lean ====
import proofs.«427610_j64510408786513_1_alg».proof.Proof.Gen.KernelIdeal.Frame
import Idealize.ShloMosaic.Lib.StableHlo.Run
import Idealize.ShloMosaic.PureOps.Ideal

set_option maxRecDepth 16384

noncomputable section

namespace Cert.KernelIdeal.Read

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem W2_ne' (b : Ref sig .tc) (hb : ∀ w, Pipeline.arrRef spec0 w ≠ b) :
    Gen.W2 m ρ c (no_index (Proc.devRef .tc b)) = Gen.W1 m ρ c (Proc.devRef .tc b) := Gen.W2_of_ne m ρ c b hb

theorem W6_ne' (b : Ref sig .tc) (hb : ∀ w, Pipeline.arrRef spec1 w ≠ b) :
    Gen.W6 m ρ c (no_index (Proc.devRef .tc b)) = Gen.W5 m ρ c (Proc.devRef .tc b) := Gen.W6_of_ne m ρ c b hb

theorem W8_ne' (b : Ref sig .tc) (hb : ∀ w, Pipeline.arrRef spec2 w ≠ b) :
    Gen.W8 m ρ c (no_index (Proc.devRef .tc b)) = Gen.W7 m ρ c (Proc.devRef .tc b) := Gen.W8_of_ne m ρ c b hb

theorem W12_ne' (b : Ref sig .tc) (hb : ∀ w, Pipeline.arrRef spec3 w ≠ b) :
    Gen.W12 m ρ c (no_index (Proc.devRef .tc b)) = Gen.W11 m ρ c (Proc.devRef .tc b) := Gen.W12_of_ne m ρ c b hb

theorem W16_ne' (b : Ref sig .tc) (hb : ∀ w, Pipeline.arrRef spec4 w ≠ b) :
    Gen.W16 m ρ c (no_index (Proc.devRef .tc b)) = Gen.W15 m ρ c (Proc.devRef .tc b) := Gen.W16_of_ne m ρ c b hb

theorem W18_ne' (b : Ref sig .tc) (hb : ∀ w, Pipeline.arrRef spec5 w ≠ b) :
    Gen.W18 m ρ c (no_index (Proc.devRef .tc b)) = Gen.W17 m ρ c (Proc.devRef .tc b) := Gen.W18_of_ne m ρ c b hb

theorem W22_ne' (b : Ref sig .tc) (hb : ∀ w, Pipeline.arrRef spec6 w ≠ b) :
    Gen.W22 m ρ c (no_index (Proc.devRef .tc b)) = Gen.W21 m ρ c (Proc.devRef .tc b) := Gen.W22_of_ne m ρ c b hb

theorem W26_ne' (b : Ref sig .tc) (hb : ∀ w, Pipeline.arrRef spec7 w ≠ b) :
    Gen.W26 m ρ c (no_index (Proc.devRef .tc b)) = Gen.W25 m ρ c (Proc.devRef .tc b) := Gen.W26_of_ne m ρ c b hb

theorem W28_ne' (b : Ref sig .tc) (hb : ∀ w, Pipeline.arrRef spec8 w ≠ b) :
    Gen.W28 m ρ c (no_index (Proc.devRef .tc b)) = Gen.W27 m ρ c (Proc.devRef .tc b) := Gen.W28_of_ne m ρ c b hb

end Cert.KernelIdeal.Read

macro "read_results" : tactic =>
  `(tactic| (repeat (first
               | rw [Idealize.ShloMosaic.StableHlo.nullary_result] | rw [Idealize.ShloMosaic.StableHlo.unary_result] | rw [Idealize.ShloMosaic.StableHlo.binary_result] | rw [Idealize.ShloMosaic.StableHlo.ternary_result] | rw [Idealize.ShloMosaic.StableHlo.quaternary_result]
               | rw [Idealize.ShloMosaic.StableHlo.reshape_result] | rw [Idealize.ShloMosaic.StableHlo.binaryIndexed_result] | rw [Idealize.ShloMosaic.StableHlo.nary4_result] | rw [Idealize.ShloMosaic.StableHlo.nary_result] | rw [Idealize.ShloMosaic.StableHlo.unaryIndexed_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.binaryIndexed_result_ne]; rotate_left; decide)
               | (rw [Idealize.ShloMosaic.StableHlo.nary_result_ne]; rotate_left; decide)
               | (rw [Idealize.ShloMosaic.StableHlo.unaryIndexed_result_ne]; rotate_left; decide))))

macro "walk" "[" args:Lean.Parser.Tactic.simpLemma,* "]" : tactic =>
  `(tactic| simp (disch := decide) only [$args,*,
      Idealize.ShloMosaic.StableHlo.after_cons, Idealize.ShloMosaic.StableHlo.after_nil, Idealize.ShloMosaic.StableHlo.after_append,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne'])

macro "kread" : tactic =>
  `(tactic| simp (disch := decide) only [
      Cert.KernelIdeal.Read.W2_ne', Cert.KernelIdeal.Read.W6_ne', Cert.KernelIdeal.Read.W8_ne', Cert.KernelIdeal.Read.W12_ne', Cert.KernelIdeal.Read.W16_ne', Cert.KernelIdeal.Read.W18_ne', Cert.KernelIdeal.Read.W22_ne', Cert.KernelIdeal.Read.W26_ne', Cert.KernelIdeal.Read.W28_ne',
      Cert.KernelIdeal.Gen.W0, Cert.KernelIdeal.Gen.W1, Cert.KernelIdeal.Gen.W3, Cert.KernelIdeal.Gen.W4, Cert.KernelIdeal.Gen.W5, Cert.KernelIdeal.Gen.W7, Cert.KernelIdeal.Gen.W9, Cert.KernelIdeal.Gen.W10, Cert.KernelIdeal.Gen.W11, Cert.KernelIdeal.Gen.W13, Cert.KernelIdeal.Gen.W14, Cert.KernelIdeal.Gen.W15, Cert.KernelIdeal.Gen.W17, Cert.KernelIdeal.Gen.W19, Cert.KernelIdeal.Gen.W20, Cert.KernelIdeal.Gen.W21, Cert.KernelIdeal.Gen.W23, Cert.KernelIdeal.Gen.W24, Cert.KernelIdeal.Gen.W25, Cert.KernelIdeal.Gen.W27, Cert.KernelIdeal.Gen.W29, Cert.KernelIdeal.Gen.W30, Cert.KernelIdeal.Gen.W31, Cert.KernelIdeal.Gen.W32, Cert.KernelIdeal.Gen.W33, Cert.KernelIdeal.Gen.W34, Cert.KernelIdeal.Gen.W35,
      Cert.KernelIdeal.Gen.hostOps0, Cert.KernelIdeal.Gen.hostOps1, Cert.KernelIdeal.Gen.hostOps1_1, Cert.KernelIdeal.Gen.hostOps1_2, Cert.KernelIdeal.Gen.hostOps2, Cert.KernelIdeal.Gen.hostOps3, Cert.KernelIdeal.Gen.hostOps3_1, Cert.KernelIdeal.Gen.hostOps3_2, Cert.KernelIdeal.Gen.hostOps4, Cert.KernelIdeal.Gen.hostOps4_1, Cert.KernelIdeal.Gen.hostOps4_2, Cert.KernelIdeal.Gen.hostOps5, Cert.KernelIdeal.Gen.hostOps6, Cert.KernelIdeal.Gen.hostOps6_1, Cert.KernelIdeal.Gen.hostOps6_2, Cert.KernelIdeal.Gen.hostOps7, Cert.KernelIdeal.Gen.hostOps7_1, Cert.KernelIdeal.Gen.hostOps7_2, Cert.KernelIdeal.Gen.hostOps8, Cert.KernelIdeal.Gen.hostOps9, Cert.KernelIdeal.Gen.hostOps9_1, Cert.KernelIdeal.Gen.hostOps9_2, Cert.KernelIdeal.Gen.hostOps9_3, Cert.KernelIdeal.Gen.hostOps9_4, Cert.KernelIdeal.Gen.hostOps9_5, Cert.KernelIdeal.Gen.hostOps9_6,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne'])

end
-- ==== Proof.Spec.lean ====
import Idealize.ShloMosaic.PureOps.Ideal
import Idealize.ShloMosaic.Lib.ValueIdx

noncomputable section

namespace Cert.Spec

open Idealize.ShloMosaic Idealize.ShloMosaic.ValueIdx

def denseAt {R : Nat} (x : FVec Ideal ⟨2, ![R, 128]⟩ .f32) (w : FVec Ideal ⟨2, ![128, 128]⟩ .f32)
    (b : FVec Ideal ⟨1, ![128]⟩ .f32) (p : Fin R) (q : Fin 128) : EReal :=
  (∑ k : Fin 128, x (ix2 p k) * w (ix2 k q)) + b (ix1 q)

def denseFn {R : Nat} (x : FVec Ideal ⟨2, ![R, 128]⟩ .f32) (w : FVec Ideal ⟨2, ![128, 128]⟩ .f32)
    (b : FVec Ideal ⟨1, ![128]⟩ .f32) : FVec Ideal ⟨2, ![R, 128]⟩ .f32 :=
  fun i => denseAt x w b (i 0) (i 1)

def edgeAt {R : Nat} (a b : FVec Ideal ⟨2, ![R, 128]⟩ .f32) (w0 w1 : FVec Ideal ⟨2, ![128, 128]⟩ .f32)
    (e : FVec Ideal ⟨1, ![128]⟩ .f32) (p : Fin R) (q : Fin 128) : EReal :=
  ((∑ k : Fin 128, a (ix2 p k) * w0 (ix2 k q)) + (∑ k : Fin 128, b (ix2 p k) * w1 (ix2 k q))) + e (ix1 q)

def edgeFn {R : Nat} (a b : FVec Ideal ⟨2, ![R, 128]⟩ .f32) (w0 w1 : FVec Ideal ⟨2, ![128, 128]⟩ .f32)
    (e : FVec Ideal ⟨1, ![128]⟩ .f32) : FVec Ideal ⟨2, ![R, 128]⟩ .f32 :=
  fun i => edgeAt a b w0 w1 e (i 0) (i 1)

def lrelu (t : EReal) : EReal :=
  Scalar.select (Ideal.cmp .oge t (Ideal.ofBits .f32 0x00000000#32)) t (Ideal.ofBits .f32 0x3E4CCCCD#32 * t)

def actFn {R : Nat} (x : FVec Ideal ⟨2, ![R, 128]⟩ .f32) (w : FVec Ideal ⟨2, ![128, 128]⟩ .f32)
    (b : FVec Ideal ⟨1, ![128]⟩ .f32) : FVec Ideal ⟨2, ![R, 128]⟩ .f32 :=
  fun i => lrelu (denseAt x w b (i 0) (i 1))

end Cert.Spec

end
-- ==== Proof.LibPlainDot.lean ====
import Idealize.ShloMosaic.PureOps.Ideal.Laws
import Idealize.ShloMosaic.Lib.ValueIdx

noncomputable section

namespace Cert.LibPlainDot

open Idealize.ShloMosaic Idealize.ShloMosaic.ValueIdx

abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.LibSlice.lean ====
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by

  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]

  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by

  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]

  · exact extractStridedSlice_apply _ B hs _ _ (fun x => match x with
      | ⟨0, _⟩ => by show l.val = l.val + 0; omega
      | ⟨1, _⟩ => by show k.val = 0 + k.val; omega)

theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by

  refine shapeCast_apply v hc (ix2 (0 : Fin 1) k) (ix1 k) ?_
  rw [Shape.rowMajor_val_two, Shape.rowMajor_val_one]
  show k.val = (0 : Nat) * a + k.val
  rw [Nat.zero_mul, Nat.zero_add]

-- A vector laid along every row of a matrix reads, at entry (p, q), its q-th entry.
theorem bias_rows_apply {α : Type} {R n : Nat}
    (hb1 : (⟨1, ![n]⟩ : Shape).BroadcastsInDim ⟨2, ![1, n]⟩ ![1])
    (hb2 : (⟨2, ![1, n]⟩ : Shape).BroadcastsInDim ⟨2, ![R, n]⟩ ![0, 1])
    (b : (⟨1, ![n]⟩ : Shape).Idx → α) (p : Fin R) (q : Fin n) :
    broadcastInDim ⟨2, ![R, n]⟩ ![0, 1] hb2 (broadcastInDim ⟨2, ![1, n]⟩ ![1] hb1 b) (ix2 p q) = b (ix1 q) := by
  have hq := q.isLt

  have e2 := broadcastInDim_apply ![0, 1] hb2 (broadcastInDim ⟨2, ![1, n]⟩ ![1] hb1 b) (ix2 p q) (ix2 (0 : Fin 1) q) (by
    intro a
    match a with
    | ⟨0, _⟩ => rfl
    | ⟨1, _⟩ =>
      show q.val = if n = 1 then 0 else q.val
      split
      · omega
      · rfl)

  have e1 := broadcastInDim_apply ![1] hb1 b (ix2 (0 : Fin 1) q) (ix1 q) (by
    intro a
    match a with
    | ⟨0, _⟩ =>
      show q.val = if n = 1 then 0 else q.val
      split
      · omega
      · rfl)
  exact e2.trans e1

theorem truncf_ideal {s : Shape} {φ ψ : FTy} (x : FVec Ideal s φ) (h : ψ.bits < φ.bits) :
    (truncf ψ x h : s.Idx → EReal) = x := by

  funext i
  rfl

end Cert.LibSlice

end
-- ==== Proof.RegionDense.lean ====
import proofs.«427610_j64510408786513_1_alg».proof.Proof.Gen.KernelIdeal.Frame
import proofs.«427610_j64510408786513_1_alg».proof.Proof.Spec
import proofs.«427610_j64510408786513_1_alg».proof.Proof.LibPlainDot
import proofs.«427610_j64510408786513_1_alg».proof.Proof.LibSlice
import Idealize.ShloMosaic.Lib.Pipeline.Value
import Idealize.ShloMosaic.Lib.ValueIdx

noncomputable section

namespace Cert.KernelIdeal.RegionDense

open Cert.KernelIdeal Cert.KernelIdeal.Gen
open Idealize.ShloMosaic Idealize.ShloMosaic.TcCoe Idealize.SL.Sem Idealize.ShloMosaic.ValueIdx
open Idealize.ShloMosaic.Pipeline (Dat)

theorem product_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.LibPlainDot.matmul_zero_apply dot_S5000x128_S128x128_S5000x128_1_0_0_1_n_n_wf none l r p q

theorem bias_apply (x2 : Vec Ideal S128 .f32) (p : Fin 5000) (q : Fin 128) :
    broadcastTo S5000x128 (shapeCast S1x128 (shapeCast S128 x2 shapeCasts_S128_S128) shapeCasts_S128_S1x128)
        broadcasts_S1x128_S5000x128 (ix2 p q) = x2 (ix1 q) := by

  rw [broadcastTo_apply _ _ (ix2 p q) (ix2 (0 : Fin 1) q) (fun a => by
    match a with
    | ⟨0, _⟩ => rfl
    | ⟨1, _⟩ => rfl)]
  rw [shapeCast_self]
  exact Cert.LibSlice.row_of_vec_apply x2 shapeCasts_S128_S1x128 q

theorem hz2 : (![0, 0] : Fin 2 → Nat) = fun _ => 0 := funext fun a => by fin_cases a <;> rfl
theorem hz1 : (![0] : Fin 1 → Nat) = fun _ => 0 := funext fun a => by fin_cases a; rfl

theorem pay0_apply (x0 : Vec Ideal S5000x128 .f32) (x1 : Vec Ideal S128x128 .f32) (x2 : Vec Ideal S128 .f32)
    (p : Fin 5000) (q : Fin 128) :
    k0_pay1 (F := Ideal) x0 x1 x2 (ix2 p q) = (∑ k : Fin 128, x0 (ix2 p k) * x1 (ix2 k q)) + x2 (ix1 q) := by
  unfold k0_pay1
  rw [addf_apply, bias_apply, product_apply, shapeCast_self]
  rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

theorem xblk0 (c : Dev nD) (t : Fin cfg0.N) (p : Fin 5000) (k : Fin 128) (i : S50000x128.Idx)
    (h0 : (i 0).val = 5000 * t.val + p.val) (h1 : (i 1).val = k.val) :
    (iblk0 (F := Ideal) V c 0 t : Vec Ideal S5000x128 .f32) (ix2 p k) = (V c main_arg0 : S50000x128.Idx → EReal) i := by
  obtain ⟨e0, e1, -⟩ := idx_facts0 t
  unfold iblk0
  rw [View.read_apply]
  show (V c main_arg0 : S50000x128.Idx → EReal) _ = _
  congr 1
  funext a
  apply Fin.ext

  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

theorem wblk0 (c : Dev nD) (t : Fin cfg0.N) (k : Fin 128) (q : Fin 128) :
    (iblk0 (F := Ideal) V c 1 t : Vec Ideal S128x128 .f32) (ix2 k q) = (V c main_v10 : S128x128.Idx → EReal) (ix2 k q) := by
  obtain ⟨-, -, e0, e1, -⟩ := idx_facts0 t
  unfold iblk0
  rw [View.read_apply]
  show (V c main_v10 : S128x128.Idx → EReal) _ = _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

theorem bblk0 (c : Dev nD) (t : Fin cfg0.N) (q : Fin 128) :
    (iblk0 (F := Ideal) V c 2 t : Vec Ideal S128 .f32) (ix1 q) = (V c main_v8 : S128.Idx → EReal) (ix1 q) := by
  obtain ⟨-, -, -, -, e0, -⟩ := idx_facts0 t
  unfold iblk0
  rw [View.read_apply]
  show (V c main_v8 : S128.Idx → EReal) _ = _
  congr 1
  funext a
  apply Fin.ext
  match a with
  | ⟨0, _⟩ => show win0_2.index t (0 : Fin 1) * 128 + 1 * q.val = q.val; rw [e0]; omega

theorem dense_block0 (c : Dev nD) (t : Fin cfg0.N) (p : Fin 5000) (q : Fin 128) (i : S50000x128.Idx)
    (hr : (i 0).val = 5000 * t.val + p.val) (hc : i 1 = q) :
    k0_pay1 (F := Ideal) (iblk0 V c 0 t) (iblk0 V c 1 t) (iblk0 V c 2 t) (ix2 p q)
      = Cert.Spec.denseFn (V c main_arg0 : FVec Ideal S50000x128 .f32) (V c main_v10 : FVec Ideal S128x128 .f32)
          (V c main_v8 : FVec Ideal S128 .f32) i := by
  show _ = Cert.Spec.denseAt (V c main_arg0 : FVec Ideal S50000x128 .f32) (V c main_v10 : FVec Ideal S128x128 .f32)
    (V c main_v8 : FVec Ideal S128 .f32) (i 0) (i 1)
  rw [pay0_apply, hc]
  unfold Cert.Spec.denseAt
  rw [bblk0 V c t q]
  congr 1
  refine Finset.sum_congr rfl fun k _ => ?_
  rw [wblk0 V c t k q, xblk0 V c t p k (ix2 (i 0) k) hr rfl]

theorem flushed0 (c : Dev nD) (t : Fin cfg0.N) :
    (dat0 (F := Ideal) V c).flushed 3 t = ((cfg0.win 3).blk t).view.read (Elt Ideal)
      (Cert.Spec.denseFn (V c main_arg0 : FVec Ideal S50000x128 .f32) (V c main_v10 : FVec Ideal S128x128 .f32)
        (V c main_v8 : FVec Ideal S128 .f32)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  obtain ⟨-, -, -, -, -, e0, e1⟩ := idx_facts0 t
  refine funext fun (j : S5000x128.Idx) => ?_
  obtain ⟨p, q, rfl⟩ : ∃ (p : Fin 5000) (q : Fin 128), j = ix2 p q := ⟨j 0, j 1, eq_ix2 j⟩
  rw [View.read_apply]
  refine dense_block0 V c t p q _ ?_ (Fin.ext ?_)
  · show win0_3.index t (0 : Fin 2) * 5000 + 1 * p.val = 5000 * t.val + p.val; rw [e0]; omega
  · show win0_3.index t (1 : Fin 2) * 128 + 1 * q.val = q.val; rw [e1]; omega

theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11).slice (win0_3.rect t)).set ↔ _
  rw [View.set_slice_whole, Rect.mem_set_unit]
  exact Iff.rfl

theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := by decide
  have ht : (i 0).val / 5000 < cfg0.N := by rw [hN]; omega
  obtain ⟨-, -, -, -, -, e0, e1⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]
    omega

theorem region0_value (c : Dev nD) :
    (dat0 (F := Ideal) V c).arrAt 3 cfg0.N
      = Cert.Spec.denseFn (V c main_arg0 : FVec Ideal S50000x128 .f32) (V c main_v10 : FVec Ideal S128x128 .f32)
          (V c main_v8 : FVec Ideal S128 .f32) :=
  (dat0 (F := Ideal) V c).arrAt_eq_of_cover 3 _ (fun t _ => flushed0 V c t) cover0

end

theorem pay3_apply (x0 : Vec Ideal S5000x128 .f32) (x1 : Vec Ideal S128x128 .f32) (x2 : Vec Ideal S128 .f32)
    (p : Fin 5000) (q : Fin 128) :
    k3_pay1 (F := Ideal) x0 x1 x2 (ix2 p q) = (∑ k : Fin 128, x0 (ix2 p k) * x1 (ix2 k q)) + x2 (ix1 q) := by
  unfold k3_pay1
  rw [addf_apply, bias_apply, product_apply, shapeCast_self, shapeCast_self]
  rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

theorem xblk3 (c : Dev nD) (t : Fin cfg3.N) (p : Fin 5000) (k : Fin 128) (i : S50000x128.Idx)
    (h0 : (i 0).val = 5000 * t.val + p.val) (h1 : (i 1).val = k.val) :
    (iblk3 (F := Ideal) V c 0 t : Vec Ideal S5000x128 .f32) (ix2 p k) = (V c main_v56 : S50000x128.Idx → EReal) i := by
  obtain ⟨e0, e1, -⟩ := idx_facts3 t
  unfold iblk3
  rw [View.read_apply]
  show (V c main_v56 : S50000x128.Idx → EReal) _ = _
  congr 1
  funext a
  apply Fin.ext

  match a with
  | ⟨0, _⟩ => show win3_0.index t (0 : Fin 2) * 5000 + 1 * p.val = (i 0).val; rw [e0, h0]; omega
  | ⟨1, _⟩ => show win3_0.index t (1 : Fin 2) * 128 + 1 * k.val = (i 1).val; rw [e1, h1]; omega

theorem wblk3 (c : Dev nD) (t : Fin cfg3.N) (k : Fin 128) (q : Fin 128) :
    (iblk3 (F := Ideal) V c 1 t : Vec Ideal S128x128 .f32) (ix2 k q) = (V c main_v59 : S128x128.Idx → EReal) (ix2 k q) := by
  obtain ⟨-, -, e0, e1, -⟩ := idx_facts3 t
  unfold iblk3
  rw [View.read_apply]
  show (V c main_v59 : S128x128.Idx → EReal) _ = _
  congr 1
  funext a
  apply Fin.ext
  match a with
  | ⟨0, _⟩ => show win3_1.index t (0 : Fin 2) * 128 + 1 * k.val = k.val; rw [e0]; omega
  | ⟨1, _⟩ => show win3_1.index t (1 : Fin 2) * 128 + 1 * q.val = q.val; rw [e1]; omega

theorem bblk3 (c : Dev nD) (t : Fin cfg3.N) (q : Fin 128) :
    (iblk3 (F := Ideal) V c 2 t : Vec Ideal S128 .f32) (ix1 q) = (V c main_v57 : S128.Idx → EReal) (ix1 q) := by
  obtain ⟨-, -, -, -, e0, -⟩ := idx_facts3 t
  unfold iblk3
  rw [View.read_apply]
  show (V c main_v57 : S128.Idx → EReal) _ = _
  congr 1
  funext a
  apply Fin.ext
  match a with
  | ⟨0, _⟩ => show win3_2.index t (0 : Fin 1) * 128 + 1 * q.val = q.val; rw [e0]; omega

theorem dense_block3 (c : Dev nD) (t : Fin cfg3.N) (p : Fin 5000) (q : Fin 128) (i : S50000x128.Idx)
    (hr : (i 0).val = 5000 * t.val + p.val) (hc : i 1 = q) :
    k3_pay1 (F := Ideal) (iblk3 V c 0 t) (iblk3 V c 1 t) (iblk3 V c 2 t) (ix2 p q)
      = Cert.Spec.denseFn (V c main_v56 : FVec Ideal S50000x128 .f32) (V c main_v59 : FVec Ideal S128x128 .f32)
          (V c main_v57 : FVec Ideal S128 .f32) i := by
  show _ = Cert.Spec.denseAt (V c main_v56 : FVec Ideal S50000x128 .f32) (V c main_v59 : FVec Ideal S128x128 .f32)
    (V c main_v57 : FVec Ideal S128 .f32) (i 0) (i 1)
  rw [pay3_apply, hc]
  unfold Cert.Spec.denseAt
  rw [bblk3 V c t q]
  congr 1
  refine Finset.sum_congr rfl fun k _ => ?_
  rw [wblk3 V c t k q, xblk3 V c t p k (ix2 (i 0) k) hr rfl]

theorem flushed3 (c : Dev nD) (t : Fin cfg3.N) :
    (dat3 (F := Ideal) V c).flushed 3 t = ((cfg3.win 3).blk t).view.read (Elt Ideal)
      (Cert.Spec.denseFn (V c main_v56 : FVec Ideal S50000x128 .f32) (V c main_v59 : FVec Ideal S128x128 .f32)
        (V c main_v57 : FVec Ideal S128 .f32)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2, View.ld_unit_zero (S := S128) hz1]
  obtain ⟨-, -, -, -, -, e0, e1⟩ := idx_facts3 t
  refine funext fun (j : S5000x128.Idx) => ?_
  obtain ⟨p, q, rfl⟩ : ∃ (p : Fin 5000) (q : Fin 128), j = ix2 p q := ⟨j 0, j 1, eq_ix2 j⟩
  rw [View.read_apply]
  refine dense_block3 V c t p q _ ?_ (Fin.ext ?_)
  · show win3_3.index t (0 : Fin 2) * 5000 + 1 * p.val = 5000 * t.val + p.val; rw [e0]; omega
  · show win3_3.index t (1 : Fin 2) * 128 + 1 * q.val = q.val; rw [e1]; omega

theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v60).slice (win3_3.rect t)).set ↔ _
  rw [View.set_slice_whole, Rect.mem_set_unit]
  exact Iff.rfl

theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := by decide
  have ht : (i 0).val / 5000 < cfg3.N := by rw [hN]; omega
  obtain ⟨-, -, -, -, -, e0, e1⟩ := idx_facts3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]
    omega

theorem region3_value (c : Dev nD) :
    (dat3 (F := Ideal) V c).arrAt 3 cfg3.N
      = Cert.Spec.denseFn (V c main_v56 : FVec Ideal S50000x128 .f32) (V c main_v59 : FVec Ideal S128x128 .f32)
          (V c main_v57 : FVec Ideal S128 .f32) :=
  (dat3 (F := Ideal) V c).arrAt_eq_of_cover 3 _ (fun t _ => flushed3 V c t) cover3

end

theorem pay6_apply (x0 : Vec Ideal S5000x128 .f32) (x1 : Vec Ideal S128x128 .f32) (x2 : Vec Ideal S128 .f32)
    (p : Fin 5000) (q : Fin 128) :
    k6_pay1 (F := Ideal) x0 x1 x2 (ix2 p q) = (∑ k : Fin 128, x0 (ix2 p k) * x1 (ix2 k q)) + x2 (ix1 q) := by
  unfold k6_pay1
  rw [addf_apply, bias_apply, product_apply, shapeCast_self, shapeCast_self]
  rfl

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

section
variable (V : (c : Dev nD) → (b : Ref sig .tc) → Buf (Elt Ideal) ((c : Thread nD τ).loc b))

theorem xblk6 (c : Dev nD) (t : Fin cfg6.N) (p : Fin 5000) (k : Fin 128) (i : S50000x128.Idx)
    (h0 : (i 0).val = 5000 * t.val + p.val) (h1 : (i 1).val = k.val) :
    (iblk6 (F := Ideal) V c 0 t : Vec Ideal S5000x128 .f32) (ix2 p k) = (V c main_v105 : S50000x128.Idx → EReal) i := by
  obtain ⟨e0, e1, -⟩ := idx_facts6 t
  unfold iblk6
  rw [View.read_apply]
  show (V c main_v105 : S50000x128.Idx → EReal) _ = _
  congr 1
  funext a
  apply Fin.ext

  match a with
  | ⟨0, _⟩ => show win6_0.index t (0 : Fin 2) * 5000 + 1 * p.val = (i 0).val; rw [e0, h0]; omega
  | ⟨1, _⟩ => show win6_0.index t (1 : Fin 2) * 128 + 1 * k.val = (i 1).val; rw [e1, h1]; omega

theorem wblk6 (c : Dev nD) (t : Fin cfg6.N) (k : Fin 128) (q : Fin 128) :
    (iblk6 (F := Ideal) V c 1 t : Vec Ideal S128x128 .f32) (ix2 k q) = (V c main_v108 : S128x128.Idx → EReal) (ix2 k q) := by
  obtain ⟨-, -, e0, e1, -⟩ := idx_facts6 t
  unfold iblk6
  rw [View.read_apply]
  show (V c main_v108 : S128x128.Idx → EReal) _ = _
  congr 1
  funext a
  apply Fin.ext
  match a with
  | ⟨0, _⟩ => show win6_1.index t (0 : Fin 2) * 128 + 1 * k.val = k.val; rw [e0]; omega
  | ⟨1, _⟩ => show win6_1.index t (1 : Fin 2) * 128 + 1 * q.val = q.val; rw [e1]; omega

theorem bblk6 (c : Dev nD) (t : Fin cfg6.N) (q : Fin 128) :
    (iblk6 (F := Ideal) V c 2 t : Vec Ideal S128 .f32) (ix1 q) = (V c main_v106 : S128.Idx → EReal) (ix1 q) := by
  obtain ⟨-, -, -, -, e0, -⟩ := idx_facts6 t
  unfold iblk6
  rw [View.read_apply]
  show (V c main_v106 : S128.Idx → EReal) _ = _
  congr 1
  funext a
  apply Fin.ext
  match a with
  | ⟨0, _⟩ => show win6_2.index t (0 : Fin 1) * 128 + 1 * q.val = q.val; rw [e0]; omega

theorem dense_block6 (c : Dev nD) (t : Fin cfg6.N) (p : Fin 5000) (q : Fin 128) (i : S50000x128.Idx)
    (hr : (i 0).val = 5000 * t.val + p.val) (hc : i 1 = q) :
    k6_pay1 (F := Ideal) (iblk6 V c 0 t) (iblk6 V c 1 t) (iblk6 V c 2 t) (ix2 p q)
      = Cert.Spec.denseFn (V c main_v105 : FVec Ideal S50000x128 .f32) (V c main_v108 : FVec Ideal S128x128 .f32)
          (V c main_v106 : FVec Ideal S128 .f32) i := by
  show _ = Cert.Spec.denseAt (V c main_v105 : FVec Ideal S50000x128 .f32) (V c main_v108 : FVec Ideal S128x128 .f32)
    (V c main_v106 : FVec Ideal S128 .f32) (i 0) (i 1)
  rw [pay6_apply, hc]
  unfold Cert.Spec.denseAt
  rw [bblk6 V c t q]
  congr 1
  refine Finset.sum_congr rfl fun k _ => ?_
  rw [wblk6 V c t k q, xblk6 V c t p k (ix2 (i 0) k) hr rfl]

theorem flushed6 (c : Dev nD) (t : Fin cfg6.N) :
    (dat6 (F := Ideal) V c).flushed 3 t = ((cfg6.win 3).blk t).view.read (Elt Ideal)
      (Cert.Spec.denseFn (V c main_v105 : FVec Ideal S50000x128 .f32) (V c main_v108 : FVec Ideal S128x128 .f32)
        (V c main_v106 : FVec Ideal S128 .f32)) := by
  show (cfg6.win 3).cut (grid6.coords t) ((dat6 V c).after 3 t) = _
  rw [after6_3]
  unfold out6_3
  rw [View.canon_unit_zero hz2]
  simp only [View.ld_unit_zero (S := S5000x128) hz2, View.ld_unit_zero (S := S128x128) hz2, View.ld_unit_zero (S := S128) hz1]
  obtain ⟨-, -, -, -, -, e0, e1⟩ := idx_facts6 t
  refine funext fun (j : S5000x128.Idx) => ?_
  obtain ⟨p, q, rfl⟩ : ∃ (p : Fin 5000) (q : Fin 128), j = ix2 p q := ⟨j 0, j 1, eq_ix2 j⟩
  rw [View.read_apply]
  refine dense_block6 V c t p q _ ?_ (Fin.ext ?_)
  · show win6_3.index t (0 : Fin 2) * 5000 + 1 * p.val = 5000 * t.val + p.val; rw [e0]; omega
  · show win6_3.index t (1 : Fin 2) * 128 + 1 * q.val = q.val; rw [e1]; omega

theorem mem_blk6 (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v109).slice (win6_3.rect t)).set ↔ _
  rw [View.set_slice_whole, Rect.mem_set_unit]
  exact Iff.rfl

theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := by decide
  have ht : (i 0).val / 5000 < cfg6.N := by rw [hN]; omega
  obtain ⟨-, -, -, -, -, e0, e1⟩ := idx_facts6 ⟨(i 0).val / 5000, ht⟩
  refine ⟨⟨(i 0).val / 5000, ht⟩, flush6_3 _, ?_⟩
  rw [mem_blk6]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win6_3.index ⟨(i 0).val / 5000, ht⟩ (1 : Fin 2) * 128 ≤ (i 1).val
      ∧ (i 1).val < win6_3.index ⟨(i 0).val / 5000, ht⟩ (1 : Fin 2) * 128 + 128
    rw [e1]
    omega

theorem region6_value (c : Dev nD) :
    (dat6 (F := Ideal) V c).arrAt 3 cfg6.N
      = Cert.Spec.denseFn (V c main_v105 : FVec Ideal S50000x128 .f32) (V c main_v108 : FVec Ideal S128x128 .f32)
          (V c main_v106 : FVec Ideal S128 .f32) :=
  (dat6 (F := Ideal) V c).arrAt_eq_of_cover 3 _ (fun t _ => flushed6 V c t) cover6

end

end Cert.KernelIdeal.RegionDense

end
-- ==== Proof.SimH.lean ====
import proofs.«427610_j64510408786513_1_alg».proof.Proof.Ctx
import proofs.«427610_j64510408786513_1_alg».proof.Proof.RefStages
import proofs.«427610_j64510408786513_1_alg».proof.Proof.RefKeep
import proofs.«427610_j64510408786513_1_alg».proof.Proof.Read
import proofs.«427610_j64510408786513_1_alg».proof.Proof.Spec
import proofs.«427610_j64510408786513_1_alg».proof.Proof.LibPlainDot
import proofs.«427610_j64510408786513_1_alg».proof.Proof.RegionDense
import Idealize.ShloMosaic.Lib.IdealHost

set_option maxRecDepth 16384

noncomputable section
namespace Cert.Bridge.SimH
open Idealize.ShloMosaic Idealize.ShloMosaic.TcCoe Idealize.SL.Sem Idealize.ShloMosaic.ValueIdx

theorem dense_zero_eq_dot (z : FVec Ideal ⟨2, ![50000, 128]⟩ .f32) (w : FVec Ideal ⟨2, ![128, 128]⟩ .f32)
    (hb : (⟨0, ![]⟩ : Shape).BroadcastsInDim ⟨1, ![128]⟩ ![]) :
    Cert.Spec.denseFn z w (broadcastInDim ⟨1, ![128]⟩ ![] hb (constant (F := Ideal) ⟨0, ![]⟩ .f32 0x00000000#32))
      = Host.dotGeneral Cert.ReferenceIdeal.dot_S50000x128_S128x128_S50000x128_1_0_0_1_n_n none z w := by
  funext i
  obtain ⟨p, q, rfl⟩ : ∃ p q, i = ix2 p q := ⟨i 0, i 1, eq_ix2 i⟩
  show (∑ k : Fin 128, z (ix2 p k) * w (ix2 k q)) + broadcastInDim ⟨1, ![128]⟩ ![] hb (constant (F := Ideal) ⟨0, ![]⟩ .f32 0x00000000#32) (ix1 q) = _
  rw [broadcastInDim_scalar_apply, constant_apply, Ideal.ofBits_zero_f32, add_zero]
  exact (Cert.LibPlainDot.dotGeneral_apply Cert.ReferenceIdeal.Gen.dot_S50000x128_S128x128_S50000x128_1_0_0_1_n_n_wf none .single z w p q).symm

-- The kernel's x · w + 0 against the host's x · w, once the two sides' operands are known to agree.
theorem dense_vs_dot {outK zK zR outR : FVec Ideal ⟨2, ![50000, 128]⟩ .f32} {wK wR : FVec Ideal ⟨2, ![128, 128]⟩ .f32}
    {bK : FVec Ideal ⟨1, ![128]⟩ .f32} {hb : (⟨0, ![]⟩ : Shape).BroadcastsInDim ⟨1, ![128]⟩ ![]}
    (e_out : outK = Cert.Spec.denseFn zK wK bK)
    (e_b : bK = broadcastInDim ⟨1, ![128]⟩ ![] hb (constant (F := Ideal) ⟨0, ![]⟩ .f32 0x00000000#32))
    (e_ref : outR = Host.dotGeneral Cert.ReferenceIdeal.dot_S50000x128_S128x128_S50000x128_1_0_0_1_n_n none zR wR)
    (hz : zK = zR) (hw : wK = wR) : outK = outR := by
  subst hz hw
  rw [e_out, e_ref, e_b, dense_zero_eq_dot]

section
variable (m : Cert.Bridge.KMem) (ρ : Dev Cert.KernelIdeal.nD → PrngReg) (m' : Cert.Bridge.RMem) (c : Dev Cert.KernelIdeal.nD)

theorem k_open0 : (Cert.KernelIdeal.Gen.W2 (F := Ideal) m ρ c (Proc.devRef .tc Cert.KernelIdeal.main_v11) : FVec Ideal Cert.KernelIdeal.S50000x128 .f32)
    = (Cert.Spec.denseFn (Cert.KernelIdeal.Gen.W1 (F := Ideal) m ρ c (Proc.devRef .tc Cert.KernelIdeal.main_arg0) : FVec Ideal Cert.KernelIdeal.S50000x128 .f32) (Cert.KernelIdeal.Gen.W1 (F := Ideal) m ρ c (Proc.devRef .tc Cert.KernelIdeal.main_v10) : FVec Ideal Cert.KernelIdeal.S128x128 .f32) (Cert.KernelIdeal.Gen.W1 (F := Ideal) m ρ c (Proc.devRef .tc Cert.KernelIdeal.main_v8) : FVec Ideal Cert.KernelIdeal.S128 .f32) : FVec Ideal Cert.KernelIdeal.S50000x128 .f32) :=
  (Cert.KernelIdeal.Gen.W2_arr (F := Ideal) m ρ c 3).trans (Cert.KernelIdeal.RegionDense.region0_value (Cert.KernelIdeal.Gen.V1 m ρ) c)

theorem k_w0 : (Cert.KernelIdeal.Gen.W1 (F := Ideal) m ρ c (Proc.devRef .tc Cert.KernelIdeal.main_v10) : FVec Ideal Cert.KernelIdeal.S128x128 .f32) = (shapeCast Cert.KernelIdeal.S128x128 (extractStridedSlice Cert.KernelIdeal.S1x128x128 ![0, 0, 0] (m ((c.tc : Thread Cert.KernelIdeal.nD Cert.KernelIdeal.τ).loc Cert.KernelIdeal.main_arg4) : FVec Ideal Cert.KernelIdeal.S3x128x128 .f32) Cert.KernelIdeal.Gen.slices_S3x128x128_S1x128x128_0_0_0) Cert.KernelIdeal.Gen.shapeCasts_S1x128x128_S128x128 : FVec Ideal Cert.KernelIdeal.S128x128 .f32) := by
  kread
  rfl

theorem k_b0 : (Cert.KernelIdeal.Gen.W1 (F := Ideal) m ρ c (Proc.devRef .tc Cert.KernelIdeal.main_v8) : FVec Ideal Cert.KernelIdeal.S128 .f32) = (broadcastInDim Cert.KernelIdeal.S128 ![] Cert.KernelIdeal.Gen.bcast_S_S128 (constant (F := Ideal) Cert.KernelIdeal.S_ .f32 0x00000000#32) : FVec Ideal Cert.KernelIdeal.S128 .f32) := by
  kread

theorem r_open0 (W : Valuation Cert.ReferenceIdeal.τ Cert.ReferenceIdeal.sig (Elt Ideal)) :
    (StableHlo.after (Cert.ReferenceIdeal.Stages.sH0 (F := Ideal)) W (Proc.devRef .tc Cert.ReferenceIdeal.main_v10) : FVec Ideal Cert.KernelIdeal.S50000x128 .f32)
      = (Host.dotGeneral (φ₁ := .f32) (φ₂ := .f32) Cert.ReferenceIdeal.dot_S50000x128_S128x128_S50000x128_1_0_0_1_n_n none (W (Proc.devRef .tc Cert.ReferenceIdeal.main_arg0) : FVec Ideal Cert.KernelIdeal.S50000x128 .f32) (W (Proc.devRef .tc Cert.ReferenceIdeal.main_v9) : FVec Ideal Cert.KernelIdeal.S128x128 .f32) : FVec Ideal Cert.KernelIdeal.S50000x128 .f32) := by
  walk [Cert.ReferenceIdeal.Stages.sH0]

theorem r_wopen0 (W : Valuation Cert.ReferenceIdeal.τ Cert.ReferenceIdeal.sig (Elt Ideal)) :
    (StableHlo.after (Cert.ReferenceIdeal.Stages.sP (F := Ideal)) W (Proc.devRef .tc Cert.ReferenceIdeal.main_v9) : FVec Ideal Cert.KernelIdeal.S128x128 .f32)
      = (shapeCast Cert.ReferenceIdeal.S128x128 (extractStridedSlice Cert.ReferenceIdeal.S1x128x128 ![0, 0, 0] (W (Proc.devRef .tc Cert.ReferenceIdeal.main_arg4) : FVec Ideal Cert.ReferenceIdeal.S3x128x128 .f32) Cert.ReferenceIdeal.Gen.slices_S3x128x128_S1x128x128_0_0_0) Cert.ReferenceIdeal.Gen.shapeCasts_S1x128x128_S128x128 : FVec Ideal Cert.KernelIdeal.S128x128 .f32) := by
  walk [Cert.ReferenceIdeal.Stages.sP]
  rfl

theorem r_w0 (hag : Cert.Bridge.Agree m m' c) : (Cert.ReferenceIdeal.Stages.vP (F := Ideal) (StableHlo.launchContents m' c) (Proc.devRef .tc Cert.ReferenceIdeal.main_v9) : FVec Ideal Cert.KernelIdeal.S128x128 .f32) = (shapeCast Cert.KernelIdeal.S128x128 (extractStridedSlice Cert.KernelIdeal.S1x128x128 ![0, 0, 0] (m ((c.tc : Thread Cert.KernelIdeal.nD Cert.KernelIdeal.τ).loc Cert.KernelIdeal.main_arg4) : FVec Ideal Cert.KernelIdeal.S3x128x128 .f32) Cert.KernelIdeal.Gen.slices_S3x128x128_S1x128x128_0_0_0) Cert.KernelIdeal.Gen.shapeCasts_S1x128x128_S128x128 : FVec Ideal Cert.KernelIdeal.S128x128 .f32) := by
  have e4 : (StableHlo.launchContents m' c (Proc.devRef .tc Cert.ReferenceIdeal.main_arg4) : FVec Ideal Cert.ReferenceIdeal.S3x128x128 .f32) = (m ((c.tc : Thread Cert.KernelIdeal.nD Cert.KernelIdeal.τ).loc Cert.KernelIdeal.main_arg4) : FVec Ideal Cert.KernelIdeal.S3x128x128 .f32) := hag.2.2.2.2.1
  refine (r_wopen0 (StableHlo.launchContents m' c)).trans ?_
  rw [e4]

theorem k_z0 : (Cert.KernelIdeal.Gen.W1 (F := Ideal) m ρ c (Proc.devRef .tc Cert.KernelIdeal.main_arg0) : FVec Ideal Cert.KernelIdeal.S50000x128 .f32) = (m ((c.tc : Thread Cert.KernelIdeal.nD Cert.KernelIdeal.τ).loc Cert.KernelIdeal.main_arg0) : FVec Ideal Cert.KernelIdeal.S50000x128 .f32) := by
  kread

theorem r_z0 : (Cert.ReferenceIdeal.Stages.vP (F := Ideal) (StableHlo.launchContents m' c) (Proc.devRef .tc Cert.ReferenceIdeal.main_arg0) : FVec Ideal Cert.KernelIdeal.S50000x128 .f32) = (StableHlo.launchContents m' c (Proc.devRef .tc Cert.ReferenceIdeal.main_arg0) : FVec Ideal Cert.KernelIdeal.S50000x128 .f32) :=
  (Cert.ReferenceIdeal.Keep.vP_of (F := Ideal) _ (by decide))

theorem sim_H0 (hag : Cert.Bridge.Agree m m' c) : (Cert.KernelIdeal.Gen.W2 (F := Ideal) m ρ c (Proc.devRef .tc Cert.KernelIdeal.main_v11) : FVec Ideal Cert.KernelIdeal.S50000x128 .f32) = (Cert.ReferenceIdeal.Stages.vH0 (F := Ideal) (StableHlo.launchContents m' c) (Proc.devRef .tc Cert.ReferenceIdeal.main_v10) : FVec Ideal Cert.KernelIdeal.S50000x128 .f32) :=
  dense_vs_dot (k_open0 m ρ c) (k_b0 m ρ c) (r_open0 (Cert.ReferenceIdeal.Stages.vP (F := Ideal) (StableHlo.launchContents m' c)))
    ((k_z0 m ρ c).trans ((r_z0 m' c).trans hag.1).symm) ((k_w0 m ρ c).trans (r_w0 m m' c hag).symm)

theorem k_open1 : (Cert.KernelIdeal.Gen.W12 (F := Ideal) m ρ c (Proc.devRef .tc Cert.KernelIdeal.main_v60) : FVec Ideal Cert.KernelIdeal.S50000x128 .f32)
    = (Cert.Spec.denseFn (Cert.KernelIdeal.Gen.W11 (F := Ideal) m ρ c (Proc.devRef .tc Cert.KernelIdeal.main_v56) : FVec Ideal Cert.KernelIdeal.S50000x128 .f32) (Cert.KernelIdeal.Gen.W11 (F := Ideal) m ρ c (Proc.devRef .tc Cert.KernelIdeal.main_v59) : FVec Ideal Cert.KernelIdeal.S128x128 .f32) (Cert.KernelIdeal.Gen.W11 (F := Ideal) m ρ c (Proc.devRef .tc Cert.KernelIdeal.main_v57) : FVec Ideal Cert.KernelIdeal.S128 .f32) : FVec Ideal Cert.KernelIdeal.S50000x128 .f32) :=
  (Cert.KernelIdeal.Gen.W12_arr (F := Ideal) m ρ c 3).trans (Cert.KernelIdeal.RegionDense.region3_value (Cert.KernelIdeal.Gen.V11 m ρ) c)

theorem k_w1 : (Cert.KernelIdeal.Gen.W11 (F := Ideal) m ρ c (Proc.devRef .tc Cert.KernelIdeal.main_v59) : FVec Ideal Cert.KernelIdeal.S128x128 .f32) = (shapeCast Cert.KernelIdeal.S128x128 (extractStridedSlice Cert.KernelIdeal.S1x128x128 ![1, 0, 0] (m ((c.tc : Thread Cert.KernelIdeal.nD Cert.KernelIdeal.τ).loc Cert.KernelIdeal.main_arg4) : FVec Ideal Cert.KernelIdeal.S3x128x128 .f32) Cert.KernelIdeal.Gen.slices_S3x128x128_S1x128x128_1_0_0) Cert.KernelIdeal.Gen.shapeCasts_S1x128x128_S128x128 : FVec Ideal Cert.KernelIdeal.S128x128 .f32) := by
  kread
  rfl

theorem k_b1 : (Cert.KernelIdeal.Gen.W11 (F := Ideal) m ρ c (Proc.devRef .tc Cert.KernelIdeal.main_v57) : FVec Ideal Cert.KernelIdeal.S128 .f32) = (broadcastInDim Cert.KernelIdeal.S128 ![] Cert.KernelIdeal.Gen.bcast_S_S128 (constant (F := Ideal) Cert.KernelIdeal.S_ .f32 0x00000000#32) : FVec Ideal Cert.KernelIdeal.S128 .f32) := by
  kread

theorem r_open1 (W : Valuation Cert.ReferenceIdeal.τ Cert.ReferenceIdeal.sig (Elt Ideal)) :
    (StableHlo.after (Cert.ReferenceIdeal.Stages.sH1 (F := Ideal)) W (Proc.devRef .tc Cert.ReferenceIdeal.main_v80) : FVec Ideal Cert.KernelIdeal.S50000x128 .f32)
      = (Host.dotGeneral (φ₁ := .f32) (φ₂ := .f32) Cert.ReferenceIdeal.dot_S50000x128_S128x128_S50000x128_1_0_0_1_n_n none (W (Proc.devRef .tc Cert.ReferenceIdeal.main_v77) : FVec Ideal Cert.KernelIdeal.S50000x128 .f32) (W (Proc.devRef .tc Cert.ReferenceIdeal.main_v79) : FVec Ideal Cert.KernelIdeal.S128x128 .f32) : FVec Ideal Cert.KernelIdeal.S50000x128 .f32) := by
  walk [Cert.ReferenceIdeal.Stages.sH1]

theorem r_wopen1 (W : Valuation Cert.ReferenceIdeal.τ Cert.ReferenceIdeal.sig (Elt Ideal)) :
    (StableHlo.after (Cert.ReferenceIdeal.Stages.sB0 (F := Ideal)) W (Proc.devRef .tc Cert.ReferenceIdeal.main_v79) : FVec Ideal Cert.KernelIdeal.S128x128 .f32)
      = (shapeCast Cert.ReferenceIdeal.S128x128 (extractStridedSlice Cert.ReferenceIdeal.S1x128x128 ![1, 0, 0] (W (Proc.devRef .tc Cert.ReferenceIdeal.main_arg4) : FVec Ideal Cert.ReferenceIdeal.S3x128x128 .f32) Cert.ReferenceIdeal.Gen.slices_S3x128x128_S1x128x128_1_0_0) Cert.ReferenceIdeal.Gen.shapeCasts_S1x128x128_S128x128 : FVec Ideal Cert.KernelIdeal.S128x128 .f32) := by
  walk [Cert.ReferenceIdeal.Stages.sB0, Cert.ReferenceIdeal.Stages.sB0a, Cert.ReferenceIdeal.Stages.sB0b, Cert.ReferenceIdeal.Stages.sB0c]
  rfl

theorem r_arg4_D0 : (Cert.ReferenceIdeal.Stages.vD0 (F := Ideal) (StableHlo.launchContents m' c) (Proc.devRef .tc Cert.ReferenceIdeal.main_arg4) : FVec Ideal Cert.ReferenceIdeal.S3x128x128 .f32)
      = (StableHlo.launchContents m' c (Proc.devRef .tc Cert.ReferenceIdeal.main_arg4) : FVec Ideal Cert.ReferenceIdeal.S3x128x128 .f32) :=
  Cert.ReferenceIdeal.Keep.vD0_arg (F := Ideal) _ (by decide)

theorem r_w1 (hag : Cert.Bridge.Agree m m' c) : (Cert.ReferenceIdeal.Stages.vB0 (F := Ideal) (StableHlo.launchContents m' c) (Proc.devRef .tc Cert.ReferenceIdeal.main_v79) : FVec Ideal Cert.KernelIdeal.S128x128 .f32) = (shapeCast Cert.KernelIdeal.S128x128 (extractStridedSlice Cert.KernelIdeal.S1x128x128 ![1, 0, 0] (m ((c.tc : Thread Cert.KernelIdeal.nD Cert.KernelIdeal.τ).loc Cert.KernelIdeal.main_arg4) : FVec Ideal Cert.KernelIdeal.S3x128x128 .f32) Cert.KernelIdeal.Gen.slices_S3x128x128_S1x128x128_1_0_0) Cert.KernelIdeal.Gen.shapeCasts_S1x128x128_S128x128 : FVec Ideal Cert.KernelIdeal.S128x128 .f32) := by
  have e4 : (StableHlo.launchContents m' c (Proc.devRef .tc Cert.ReferenceIdeal.main_arg4) : FVec Ideal Cert.ReferenceIdeal.S3x128x128 .f32) = (m ((c.tc : Thread Cert.KernelIdeal.nD Cert.KernelIdeal.τ).loc Cert.KernelIdeal.main_arg4) : FVec Ideal Cert.KernelIdeal.S3x128x128 .f32) := hag.2.2.2.2.1
  refine (r_wopen1 (Cert.ReferenceIdeal.Stages.vD0 (F := Ideal) (StableHlo.launchContents m' c))).trans ?_
  rw [r_arg4_D0 m' c, e4]

theorem sim_H1 (hag : Cert.Bridge.Agree m m' c) (hz : (Cert.KernelIdeal.Gen.W11 (F := Ideal) m ρ c (Proc.devRef .tc Cert.KernelIdeal.main_v56) : FVec Ideal Cert.KernelIdeal.S50000x128 .f32) = (Cert.ReferenceIdeal.Stages.vB0 (F := Ideal) (StableHlo.launchContents m' c) (Proc.devRef .tc Cert.ReferenceIdeal.main_v77) : FVec Ideal Cert.KernelIdeal.S50000x128 .f32)) : (Cert.KernelIdeal.Gen.W12 (F := Ideal) m ρ c (Proc.devRef .tc Cert.KernelIdeal.main_v60) : FVec Ideal Cert.KernelIdeal.S50000x128 .f32) = (Cert.ReferenceIdeal.Stages.vH1 (F := Ideal) (StableHlo.launchContents m' c) (Proc.devRef .tc Cert.ReferenceIdeal.main_v80) : FVec Ideal Cert.KernelIdeal.S50000x128 .f32) :=
  dense_vs_dot (k_open1 m ρ c) (k_b1 m ρ c) (r_open1 (Cert.ReferenceIdeal.Stages.vB0 (F := Ideal) (StableHlo.launchContents m' c)))
    hz ((k_w1 m ρ c).trans (r_w1 m m' c hag).symm)

theorem k_open2 : (Cert.KernelIdeal.Gen.W22 (F := Ideal) m ρ c (Proc.devRef .tc Cert.KernelIdeal.main_v109) : FVec Ideal Cert.KernelIdeal.S50000x128 .f32)
    = (Cert.Spec.denseFn (Cert.KernelIdeal.Gen.W21 (F := Ideal) m ρ c (Proc.devRef .tc Cert.KernelIdeal.main_v105) : FVec Ideal Cert.KernelIdeal.S50000x128 .f32) (Cert.KernelIdeal.Gen.W21 (F := Ideal) m ρ c (Proc.devRef .tc Cert.KernelIdeal.main_v108) : FVec Ideal Cert.KernelIdeal.S128x128 .f32) (Cert.KernelIdeal.Gen.W21 (F := Ideal) m ρ c (Proc.devRef .tc Cert.KernelIdeal.main_v106) : FVec Ideal Cert.KernelIdeal.S128 .f32) : FVec Ideal Cert.KernelIdeal.S50000x128 .f32) :=
  (Cert.KernelIdeal.Gen.W22_arr (F := Ideal) m ρ c 3).trans (Cert.KernelIdeal.RegionDense.region6_value (Cert.KernelIdeal.Gen.V21 m ρ) c)

theorem k_w2 : (Cert.KernelIdeal.Gen.W21 (F := Ideal) m ρ c (Proc.devRef .tc Cert.KernelIdeal.main_v108) : FVec Ideal Cert.KernelIdeal.S128x128 .f32) = (shapeCast Cert.KernelIdeal.S128x128 (extractStridedSlice Cert.KernelIdeal.S1x128x128 ![2, 0, 0] (m ((c.tc : Thread Cert.KernelIdeal.nD Cert.KernelIdeal.τ).loc Cert.KernelIdeal.main_arg4) : FVec Ideal Cert.KernelIdeal.S3x128x128 .f32) Cert.KernelIdeal.Gen.slices_S3x128x128_S1x128x128_2_0_0) Cert.KernelIdeal.Gen.shapeCasts_S1x128x128_S128x128 : FVec Ideal Cert.KernelIdeal.S128x128 .f32) := by
  kread
  rfl

theorem k_b2 : (Cert.KernelIdeal.Gen.W21 (F := Ideal) m ρ c (Proc.devRef .tc Cert.KernelIdeal.main_v106) : FVec Ideal Cert.KernelIdeal.S128 .f32) = (broadcastInDim Cert.KernelIdeal.S128 ![] Cert.KernelIdeal.Gen.bcast_S_S128 (constant (F := Ideal) Cert.KernelIdeal.S_ .f32 0x00000000#32) : FVec Ideal Cert.KernelIdeal.S128 .f32) := by
  kread

theorem r_open2 (W : Valuation Cert.ReferenceIdeal.τ Cert.ReferenceIdeal.sig (Elt Ideal)) :
    (StableHlo.after (Cert.ReferenceIdeal.Stages.sH2 (F := Ideal)) W (Proc.devRef .tc Cert.ReferenceIdeal.main_v150) : FVec Ideal Cert.KernelIdeal.S50000x128 .f32)
      = (Host.dotGeneral (φ₁ := .f32) (φ₂ := .f32) Cert.ReferenceIdeal.dot_S50000x128_S128x128_S50000x128_1_0_0_1_n_n none (W (Proc.devRef .tc Cert.ReferenceIdeal.main_v147) : FVec Ideal Cert.KernelIdeal.S50000x128 .f32) (W (Proc.devRef .tc Cert.ReferenceIdeal.main_v149) : FVec Ideal Cert.KernelIdeal.S128x128 .f32) : FVec Ideal Cert.KernelIdeal.S50000x128 .f32) := by
  walk [Cert.ReferenceIdeal.Stages.sH2]

theorem r_wopen2 (W : Valuation Cert.ReferenceIdeal.τ Cert.ReferenceIdeal.sig (Elt Ideal)) :
    (StableHlo.after (Cert.ReferenceIdeal.Stages.sB1 (F := Ideal)) W (Proc.devRef .tc Cert.ReferenceIdeal.main_v149) : FVec Ideal Cert.KernelIdeal.S128x128 .f32)
      = (shapeCast Cert.ReferenceIdeal.S128x128 (extractStridedSlice Cert.ReferenceIdeal.S1x128x128 ![2, 0, 0] (W (Proc.devRef .tc Cert.ReferenceIdeal.main_arg4) : FVec Ideal Cert.ReferenceIdeal.S3x128x128 .f32) Cert.ReferenceIdeal.Gen.slices_S3x128x128_S1x128x128_2_0_0) Cert.ReferenceIdeal.Gen.shapeCasts_S1x128x128_S128x128 : FVec Ideal Cert.KernelIdeal.S128x128 .f32) := by
  walk [Cert.ReferenceIdeal.Stages.sB1, Cert.ReferenceIdeal.Stages.sB1a, Cert.ReferenceIdeal.Stages.sB1b, Cert.ReferenceIdeal.Stages.sB1c]
  rfl

theorem r_arg4_D1 : (Cert.ReferenceIdeal.Stages.vD1 (F := Ideal) (StableHlo.launchContents m' c) (Proc.devRef .tc Cert.ReferenceIdeal.main_arg4) : FVec Ideal Cert.ReferenceIdeal.S3x128x128 .f32)
      = (StableHlo.launchContents m' c (Proc.devRef .tc Cert.ReferenceIdeal.main_arg4) : FVec Ideal Cert.ReferenceIdeal.S3x128x128 .f32) :=
  Cert.ReferenceIdeal.Keep.vD1_arg (F := Ideal) _ (by decide)

theorem r_w2 (hag : Cert.Bridge.Agree m m' c) : (Cert.ReferenceIdeal.Stages.vB1 (F := Ideal) (StableHlo.launchContents m' c) (Proc.devRef .tc Cert.ReferenceIdeal.main_v149) : FVec Ideal Cert.KernelIdeal.S128x128 .f32) = (shapeCast Cert.KernelIdeal.S128x128 (extractStridedSlice Cert.KernelIdeal.S1x128x128 ![2, 0, 0] (m ((c.tc : Thread Cert.KernelIdeal.nD Cert.KernelIdeal.τ).loc Cert.KernelIdeal.main_arg4) : FVec Ideal Cert.KernelIdeal.S3x128x128 .f32) Cert.KernelIdeal.Gen.slices_S3x128x128_S1x128x128_2_0_0) Cert.KernelIdeal.Gen.shapeCasts_S1x128x128_S128x128 : FVec Ideal Cert.KernelIdeal.S128x128 .f32) := by
  have e4 : (StableHlo.launchContents m' c (Proc.devRef .tc Cert.ReferenceIdeal.main_arg4) : FVec Ideal Cert.ReferenceIdeal.S3x128x128 .f32) = (m ((c.tc : Thread Cert.KernelIdeal.nD Cert.KernelIdeal.τ).loc Cert.KernelIdeal.main_arg4) : FVec Ideal Cert.KernelIdeal.S3x128x128 .f32) := hag.2.2.2.2.1
  refine (r_wopen2 (Cert.ReferenceIdeal.Stages.vD1 (F := Ideal) (StableHlo.launchContents m' c))).trans ?_
  rw [r_arg4_D1 m' c, e4]

theorem sim_H2 (hag : Cert.Bridge.Agree m m' c) (hz : (Cert.KernelIdeal.Gen.W21 (F := Ideal) m ρ c (Proc.devRef .tc Cert.KernelIdeal.main_v105) : FVec Ideal Cert.KernelIdeal.S50000x128 .f32) = (Cert.ReferenceIdeal.Stages.vB1 (F := Ideal) (StableHlo.launchContents m' c) (Proc.devRef .tc Cert.ReferenceIdeal.main_v147) : FVec Ideal Cert.KernelIdeal.S50000x128 .f32)) : (Cert.KernelIdeal.Gen.W22 (F := Ideal) m ρ c (Proc.devRef .tc Cert.KernelIdeal.main_v109) : FVec Ideal Cert.KernelIdeal.S50000x128 .f32) = (Cert.ReferenceIdeal.Stages.vH2 (F := Ideal) (StableHlo.launchContents m' c) (Proc.devRef .tc Cert.ReferenceIdeal.main_v150) : FVec Ideal Cert.KernelIdeal.S50000x128 .f32) :=
  dense_vs_dot (k_open2 m ρ c) (k_b2 m ρ c) (r_open2 (Cert.ReferenceIdeal.Stages.vB1 (F := Ideal) (StableHlo.launchContents m' c)))
    hz ((k_w2 m ρ c).trans (r_w2 m m' c hag).symm)

end
end Cert.Bridge.SimH
end
-- ==== Proof.IdxFacts.lean ====
import proofs.«427610_j64510408786513_1_alg».proof.Proof.Ctx
import proofs.«427610_j64510408786513_1_alg».proof.Proof.Read
import proofs.«427610_j64510408786513_1_alg».proof.Proof.RefStages
import proofs.«427610_j64510408786513_1_alg».proof.Proof.LibSlice
import Idealize.ShloMosaic.Lib.Pipeline.Value
import Idealize.ShloMosaic.Lib.ValueIdx
import Idealize.ShloMosaic.Lib.IdealHost
import Idealize.ShloMosaic.Lib.StableHlo.Predicate

set_option maxRecDepth 16384

noncomputable section

namespace Cert.Bridge.IdxFacts

open Idealize.ShloMosaic Idealize.ShloMosaic.TcCoe Idealize.SL.Sem
open Idealize.ShloMosaic.ValueIdx

def withLoops (E : IVec ⟨2, ![2, 800000]⟩ 32) (off : Fin 2 → Nat)
    (hs : (⟨2, ![2, 800000]⟩ : Shape).Slices off ⟨2, ![1, 800000]⟩)
    (hc : (⟨2, ![1, 800000]⟩ : Shape).ShapeCasts ⟨1, ![800000]⟩)
    (hcat : Shape.Concatenates [(⟨1, ![800000]⟩ : Shape), ⟨1, ![50000]⟩] ⟨1, ![850000]⟩ 0) : IVec ⟨1, ![850000]⟩ 32 :=
  concatenate ⟨1, ![850000]⟩ 0
    [⟨⟨1, ![800000]⟩, shapeCast ⟨1, ![800000]⟩ (extractStridedSlice ⟨2, ![1, 800000]⟩ off E hs) hc⟩,
      ⟨⟨1, ![50000]⟩, iotaInDim ⟨1, ![50000]⟩ 32 0⟩] hcat

theorem withLoops_edge (E : IVec ⟨2, ![2, 800000]⟩ 32) (r : Fin 2)
    (hs : (⟨2, ![2, 800000]⟩ : Shape).Slices ![r.val, 0] ⟨2, ![1, 800000]⟩)
    (hc : (⟨2, ![1, 800000]⟩ : Shape).ShapeCasts ⟨1, ![800000]⟩)
    (hcat : Shape.Concatenates [(⟨1, ![800000]⟩ : Shape), ⟨1, ![50000]⟩] ⟨1, ![850000]⟩ 0)
    (e : (⟨1, ![850000]⟩ : Shape).Idx) (he : (e 0).val < 800000) :
    withLoops E ![r.val, 0] hs hc hcat e = E (ix2 r ⟨(e 0).val, he⟩) := by
  unfold withLoops
  rw [concatenate_pair_apply_left 0 _ _ hcat e rfl (ix1 ⟨(e 0).val, he⟩) (fun b => match b with | ⟨0, _⟩ => rfl)]
  exact Cert.LibSlice.vec_slice_apply E r hs hc ⟨(e 0).val, he⟩

theorem withLoops_loop (E : IVec ⟨2, ![2, 800000]⟩ 32) (off : Fin 2 → Nat)
    (hs : (⟨2, ![2, 800000]⟩ : Shape).Slices off ⟨2, ![1, 800000]⟩)
    (hc : (⟨2, ![1, 800000]⟩ : Shape).ShapeCasts ⟨1, ![800000]⟩)
    (hcat : Shape.Concatenates [(⟨1, ![800000]⟩ : Shape), ⟨1, ![50000]⟩] ⟨1, ![850000]⟩ 0)
    (e : (⟨1, ![850000]⟩ : Shape).Idx) (he : 800000 ≤ (e 0).val) :
    withLoops E off hs hc hcat e = BitVec.ofNat 32 ((e 0).val - 800000) := by
  have hlt : (e 0).val < 850000 := (e 0).isLt
  unfold withLoops
  rw [concatenate_pair_apply_right 0 _ _ hcat e rfl rfl (ix1 ⟨(e 0).val - 800000, by omega⟩)
    (fun b hb => match b with | ⟨0, _⟩ => absurd rfl hb)
    (by show (e 0).val - 800000 + 800000 = (e 0).val; omega)]
  rfl

theorem withLoops_range (E : IVec ⟨2, ![2, 800000]⟩ 32) (r : Fin 2)
    (hs : (⟨2, ![2, 800000]⟩ : Shape).Slices ![r.val, 0] ⟨2, ![1, 800000]⟩)
    (hc : (⟨2, ![1, 800000]⟩ : Shape).ShapeCasts ⟨1, ![800000]⟩)
    (hcat : Shape.Concatenates [(⟨1, ![800000]⟩ : Shape), ⟨1, ![50000]⟩] ⟨1, ![850000]⟩ 0)
    (hE : ∀ i, 0 ≤ (E i).toInt ∧ (E i).toInt < 50000) (e : (⟨1, ![850000]⟩ : Shape).Idx) :
    0 ≤ (withLoops E ![r.val, 0] hs hc hcat e).toInt ∧ (withLoops E ![r.val, 0] hs hc hcat e).toInt < 50000 := by
  by_cases he : (e 0).val < 800000
  · rw [withLoops_edge E r hs hc hcat e he]
    exact hE _
  · have hlt : (e 0).val < 850000 := (e 0).isLt
    rw [withLoops_loop E _ hs hc hcat e (by omega),
      StableHlo.Predicate.toInt_ofNat_small _ (by omega)]
    omega

section
variable (m : Cert.Bridge.KMem) (ρ : Dev Cert.KernelIdeal.nD → PrngReg) (m' : Cert.Bridge.RMem) (c : Dev Cert.KernelIdeal.nD)

theorem kernel_row :
    (Cert.KernelIdeal.Gen.W1 (F := Ideal) m ρ c (Proc.devRef .tc Cert.KernelIdeal.main_v4) : IVec Cert.KernelIdeal.S850000 32)
      = withLoops (m ((c.tc : Thread Cert.KernelIdeal.nD Cert.KernelIdeal.τ).loc Cert.KernelIdeal.main_arg1)) ![0, 0]
          Cert.KernelIdeal.Gen.slices_S2x800000_S1x800000_0_0 Cert.KernelIdeal.Gen.shapeCasts_S1x800000_S800000
          Cert.KernelIdeal.Gen.concatenates_S800000_S50000_S850000_d0 := by
  walk [Cert.KernelIdeal.Gen.W1, Cert.KernelIdeal.Gen.W0, Cert.KernelIdeal.Gen.hostOps0]
  rfl

theorem kernel_col :
    (Cert.KernelIdeal.Gen.W1 (F := Ideal) m ρ c (Proc.devRef .tc Cert.KernelIdeal.main_v7) : IVec Cert.KernelIdeal.S850000 32)
      = withLoops (m ((c.tc : Thread Cert.KernelIdeal.nD Cert.KernelIdeal.τ).loc Cert.KernelIdeal.main_arg1)) ![1, 0]
          Cert.KernelIdeal.Gen.slices_S2x800000_S1x800000_1_0 Cert.KernelIdeal.Gen.shapeCasts_S1x800000_S800000
          Cert.KernelIdeal.Gen.concatenates_S800000_S50000_S850000_d0 := by
  walk [Cert.KernelIdeal.Gen.W1, Cert.KernelIdeal.Gen.W0, Cert.KernelIdeal.Gen.hostOps0]
  rfl

theorem reference_row :
    (Cert.ReferenceIdeal.Stages.vP (F := Ideal) (StableHlo.launchContents m' c) (Proc.devRef .tc Cert.ReferenceIdeal.main_v4) : IVec Cert.KernelIdeal.S850000 32)
      = withLoops (m' ((c.tc : Thread Cert.ReferenceIdeal.nD Cert.ReferenceIdeal.τ).loc Cert.ReferenceIdeal.main_arg1)) ![0, 0]
          Cert.ReferenceIdeal.Gen.slices_S2x800000_S1x800000_0_0 Cert.ReferenceIdeal.Gen.shapeCasts_S1x800000_S800000
          Cert.ReferenceIdeal.Gen.concatenates_S800000_S50000_S850000_d0 := by
  walk [Cert.ReferenceIdeal.Stages.vP, Cert.ReferenceIdeal.Stages.sP]
  rfl

theorem reference_col :
    (Cert.ReferenceIdeal.Stages.vP (F := Ideal) (StableHlo.launchContents m' c) (Proc.devRef .tc Cert.ReferenceIdeal.main_v7) : IVec Cert.KernelIdeal.S850000 32)
      = withLoops (m' ((c.tc : Thread Cert.ReferenceIdeal.nD Cert.ReferenceIdeal.τ).loc Cert.ReferenceIdeal.main_arg1)) ![1, 0]
          Cert.ReferenceIdeal.Gen.slices_S2x800000_S1x800000_1_0 Cert.ReferenceIdeal.Gen.shapeCasts_S1x800000_S800000
          Cert.ReferenceIdeal.Gen.concatenates_S800000_S50000_S850000_d0 := by
  walk [Cert.ReferenceIdeal.Stages.vP, Cert.ReferenceIdeal.Stages.sP]
  rfl

variable (hag : Cert.Bridge.Agree m m' c) (hrg : Cert.Bridge.InRange m c)

include hag in

theorem col_agree :
    (Cert.KernelIdeal.Gen.W1 (F := Ideal) m ρ c (Proc.devRef .tc Cert.KernelIdeal.main_v7) : IVec Cert.KernelIdeal.S850000 32)
      = (Cert.ReferenceIdeal.Stages.vP (F := Ideal) (StableHlo.launchContents m' c) (Proc.devRef .tc Cert.ReferenceIdeal.main_v7) : IVec Cert.KernelIdeal.S850000 32) := by
  rw [kernel_col, reference_col, hag.2.1]

include hag in

theorem row_agree :
    (Cert.KernelIdeal.Gen.W1 (F := Ideal) m ρ c (Proc.devRef .tc Cert.KernelIdeal.main_v4) : IVec Cert.KernelIdeal.S850000 32)
      = (Cert.ReferenceIdeal.Stages.vP (F := Ideal) (StableHlo.launchContents m' c) (Proc.devRef .tc Cert.ReferenceIdeal.main_v4) : IVec Cert.KernelIdeal.S850000 32) := by
  rw [kernel_row, reference_row, hag.2.1]

include hrg in

theorem col_range : ∀ e : Cert.KernelIdeal.S850000.Idx,
    0 ≤ ((Cert.KernelIdeal.Gen.W1 (F := Ideal) m ρ c (Proc.devRef .tc Cert.KernelIdeal.main_v7) : IVec Cert.KernelIdeal.S850000 32) e).toInt
    ∧ ((Cert.KernelIdeal.Gen.W1 (F := Ideal) m ρ c (Proc.devRef .tc Cert.KernelIdeal.main_v7) : IVec Cert.KernelIdeal.S850000 32) e).toInt < 50000 := by
  intro e
  rw [kernel_col]
  exact withLoops_range _ (1 : Fin 2) _ _ _ hrg e

include hrg in

theorem row_range : ∀ e : Cert.KernelIdeal.S850000.Idx,
    0 ≤ ((Cert.KernelIdeal.Gen.W1 (F := Ideal) m ρ c (Proc.devRef .tc Cert.KernelIdeal.main_v4) : IVec Cert.KernelIdeal.S850000 32) e).toInt
    ∧ ((Cert.KernelIdeal.Gen.W1 (F := Ideal) m ρ c (Proc.devRef .tc Cert.KernelIdeal.main_v4) : IVec Cert.KernelIdeal.S850000 32) e).toInt < 50000 := by
  intro e
  rw [kernel_row]
  exact withLoops_range _ (0 : Fin 2) _ _ _ hrg e

end

section
variable (m : Cert.Bridge.KMem) (ρ : Dev Cert.KernelIdeal.nD → PrngReg) (c : Dev Cert.KernelIdeal.nD)

theorem kept_col_W2 :
    (Cert.KernelIdeal.Gen.W2 (F := Ideal) m ρ c (Proc.devRef .tc Cert.KernelIdeal.main_v7) : IVec Cert.KernelIdeal.S850000 32)
      = (Cert.KernelIdeal.Gen.W1 (F := Ideal) m ρ c (Proc.devRef .tc Cert.KernelIdeal.main_v7) : IVec Cert.KernelIdeal.S850000 32) := by
  kread

theorem kept_col_W12 :
    (Cert.KernelIdeal.Gen.W12 (F := Ideal) m ρ c (Proc.devRef .tc Cert.KernelIdeal.main_v7) : IVec Cert.KernelIdeal.S850000 32)
      = (Cert.KernelIdeal.Gen.W1 (F := Ideal) m ρ c (Proc.devRef .tc Cert.KernelIdeal.main_v7) : IVec Cert.KernelIdeal.S850000 32) := by
  kread

theorem kept_col_W22 :
    (Cert.KernelIdeal.Gen.W22 (F := Ideal) m ρ c (Proc.devRef .tc Cert.KernelIdeal.main_v7) : IVec Cert.KernelIdeal.S850000 32)
      = (Cert.KernelIdeal.Gen.W1 (F := Ideal) m ρ c (Proc.devRef .tc Cert.KernelIdeal.main_v7) : IVec Cert.KernelIdeal.S850000 32) := by
  kread

theorem kept_row_W3 :
    (Cert.KernelIdeal.Gen.W3 (F := Ideal) m ρ c (Proc.devRef .tc Cert.KernelIdeal.main_v4) : IVec Cert.KernelIdeal.S850000 32)
      = (Cert.KernelIdeal.Gen.W1 (F := Ideal) m ρ c (Proc.devRef .tc Cert.KernelIdeal.main_v4) : IVec Cert.KernelIdeal.S850000 32) := by
  kread

theorem kept_row_W13 :
    (Cert.KernelIdeal.Gen.W13 (F := Ideal) m ρ c (Proc.devRef .tc Cert.KernelIdeal.main_v4) : IVec Cert.KernelIdeal.S850000 32)
      = (Cert.KernelIdeal.Gen.W1 (F := Ideal) m ρ c (Proc.devRef .tc Cert.KernelIdeal.main_v4) : IVec Cert.KernelIdeal.S850000 32) := by
  kread

theorem kept_row_W23 :
    (Cert.KernelIdeal.Gen.W23 (F := Ideal) m ρ c (Proc.devRef .tc Cert.KernelIdeal.main_v4) : IVec Cert.KernelIdeal.S850000 32)
      = (Cert.KernelIdeal.Gen.W1 (F := Ideal) m ρ c (Proc.devRef .tc Cert.KernelIdeal.main_v4) : IVec Cert.KernelIdeal.S850000 32) := by
  kread

end

section
variable (V : Valuation Cert.ReferenceIdeal.τ Cert.ReferenceIdeal.sig (Elt Ideal))

theorem kept_col_vH0 :
    (Cert.ReferenceIdeal.Stages.vH0 (F := Ideal) V (Proc.devRef .tc Cert.ReferenceIdeal.main_v7) : IVec Cert.KernelIdeal.S850000 32)
      = (Cert.ReferenceIdeal.Stages.vP (F := Ideal) V (Proc.devRef .tc Cert.ReferenceIdeal.main_v7) : IVec Cert.KernelIdeal.S850000 32) := by
  walk [Cert.ReferenceIdeal.Stages.vH0, Cert.ReferenceIdeal.Stages.sH0]

theorem kept_row_vH0 :
    (Cert.ReferenceIdeal.Stages.vH0 (F := Ideal) V (Proc.devRef .tc Cert.ReferenceIdeal.main_v4) : IVec Cert.KernelIdeal.S850000 32)
      = (Cert.ReferenceIdeal.Stages.vP (F := Ideal) V (Proc.devRef .tc Cert.ReferenceIdeal.main_v4) : IVec Cert.KernelIdeal.S850000 32) := by
  walk [Cert.ReferenceIdeal.Stages.vH0, Cert.ReferenceIdeal.Stages.sH0]

theorem kept_col_vH1 :
    (Cert.ReferenceIdeal.Stages.vH1 (F := Ideal) V (Proc.devRef .tc Cert.ReferenceIdeal.main_v7) : IVec Cert.KernelIdeal.S850000 32)
      = (Cert.ReferenceIdeal.Stages.vP (F := Ideal) V (Proc.devRef .tc Cert.ReferenceIdeal.main_v7) : IVec Cert.KernelIdeal.S850000 32) := by
  walk [Cert.ReferenceIdeal.Stages.vH1, Cert.ReferenceIdeal.Stages.sH1, Cert.ReferenceIdeal.Stages.vB0, Cert.ReferenceIdeal.Stages.sB0, Cert.ReferenceIdeal.Stages.sB0a, Cert.ReferenceIdeal.Stages.sB0b, Cert.ReferenceIdeal.Stages.sB0c, Cert.ReferenceIdeal.Stages.vD0, Cert.ReferenceIdeal.Stages.sD0, Cert.ReferenceIdeal.Stages.sD0a, Cert.ReferenceIdeal.Stages.sD0b, Cert.ReferenceIdeal.Stages.sD0c, Cert.ReferenceIdeal.Stages.vA0, Cert.ReferenceIdeal.Stages.sA0, Cert.ReferenceIdeal.Stages.vM0, Cert.ReferenceIdeal.Stages.sM0, Cert.ReferenceIdeal.Stages.vG0, Cert.ReferenceIdeal.Stages.sG0, Cert.ReferenceIdeal.Stages.vH0, Cert.ReferenceIdeal.Stages.sH0]

theorem kept_row_vH1 :
    (Cert.ReferenceIdeal.Stages.vH1 (F := Ideal) V (Proc.devRef .tc Cert.ReferenceIdeal.main_v4) : IVec Cert.KernelIdeal.S850000 32)
      = (Cert.ReferenceIdeal.Stages.vP (F := Ideal) V (Proc.devRef .tc Cert.ReferenceIdeal.main_v4) : IVec Cert.KernelIdeal.S850000 32) := by
  walk [Cert.ReferenceIdeal.Stages.vH1, Cert.ReferenceIdeal.Stages.sH1, Cert.ReferenceIdeal.Stages.vB0, Cert.ReferenceIdeal.Stages.sB0, Cert.ReferenceIdeal.Stages.sB0a, Cert.ReferenceIdeal.Stages.sB0b, Cert.ReferenceIdeal.Stages.sB0c, Cert.ReferenceIdeal.Stages.vD0, Cert.ReferenceIdeal.Stages.sD0, Cert.ReferenceIdeal.Stages.sD0a, Cert.ReferenceIdeal.Stages.sD0b, Cert.ReferenceIdeal.Stages.sD0c, Cert.ReferenceIdeal.Stages.vA0, Cert.ReferenceIdeal.Stages.sA0, Cert.ReferenceIdeal.Stages.vM0, Cert.ReferenceIdeal.Stages.sM0, Cert.ReferenceIdeal.Stages.vG0, Cert.ReferenceIdeal.Stages.sG0, Cert.ReferenceIdeal.Stages.vH0, Cert.ReferenceIdeal.Stages.sH0]

theorem kept_col_vH2 :
    (Cert.ReferenceIdeal.Stages.vH2 (F := Ideal) V (Proc.devRef .tc Cert.ReferenceIdeal.main_v7) : IVec Cert.KernelIdeal.S850000 32)
      = (Cert.ReferenceIdeal.Stages.vP (F := Ideal) V (Proc.devRef .tc Cert.ReferenceIdeal.main_v7) : IVec Cert.KernelIdeal.S850000 32) := by
  walk [Cert.ReferenceIdeal.Stages.vH2, Cert.ReferenceIdeal.Stages.sH2, Cert.ReferenceIdeal.Stages.vB1, Cert.ReferenceIdeal.Stages.sB1, Cert.ReferenceIdeal.Stages.sB1a, Cert.ReferenceIdeal.Stages.sB1b, Cert.ReferenceIdeal.Stages.sB1c, Cert.ReferenceIdeal.Stages.vD1, Cert.ReferenceIdeal.Stages.sD1, Cert.ReferenceIdeal.Stages.sD1a, Cert.ReferenceIdeal.Stages.sD1b, Cert.ReferenceIdeal.Stages.vA1, Cert.ReferenceIdeal.Stages.sA1, Cert.ReferenceIdeal.Stages.sA1a, Cert.ReferenceIdeal.Stages.sA1b, Cert.ReferenceIdeal.Stages.vM1, Cert.ReferenceIdeal.Stages.sM1, Cert.ReferenceIdeal.Stages.vG1, Cert.ReferenceIdeal.Stages.sG1, Cert.ReferenceIdeal.Stages.vH1, Cert.ReferenceIdeal.Stages.sH1, Cert.ReferenceIdeal.Stages.vB0, Cert.ReferenceIdeal.Stages.sB0, Cert.ReferenceIdeal.Stages.sB0a, Cert.ReferenceIdeal.Stages.sB0b, Cert.ReferenceIdeal.Stages.sB0c, Cert.ReferenceIdeal.Stages.vD0, Cert.ReferenceIdeal.Stages.sD0, Cert.ReferenceIdeal.Stages.sD0a, Cert.ReferenceIdeal.Stages.sD0b, Cert.ReferenceIdeal.Stages.sD0c, Cert.ReferenceIdeal.Stages.vA0, Cert.ReferenceIdeal.Stages.sA0, Cert.ReferenceIdeal.Stages.vM0, Cert.ReferenceIdeal.Stages.sM0, Cert.ReferenceIdeal.Stages.vG0, Cert.ReferenceIdeal.Stages.sG0, Cert.ReferenceIdeal.Stages.vH0, Cert.ReferenceIdeal.Stages.sH0]

theorem kept_row_vH2 :
    (Cert.ReferenceIdeal.Stages.vH2 (F := Ideal) V (Proc.devRef .tc Cert.ReferenceIdeal.main_v4) : IVec Cert.KernelIdeal.S850000 32)
      = (Cert.ReferenceIdeal.Stages.vP (F := Ideal) V (Proc.devRef .tc Cert.ReferenceIdeal.main_v4) : IVec Cert.KernelIdeal.S850000 32) := by
  walk [Cert.ReferenceIdeal.Stages.vH2, Cert.ReferenceIdeal.Stages.sH2, Cert.ReferenceIdeal.Stages.vB1, Cert.ReferenceIdeal.Stages.sB1, Cert.ReferenceIdeal.Stages.sB1a, Cert.ReferenceIdeal.Stages.sB1b, Cert.ReferenceIdeal.Stages.sB1c, Cert.ReferenceIdeal.Stages.vD1, Cert.ReferenceIdeal.Stages.sD1, Cert.ReferenceIdeal.Stages.sD1a, Cert.ReferenceIdeal.Stages.sD1b, Cert.ReferenceIdeal.Stages.vA1, Cert.ReferenceIdeal.Stages.sA1, Cert.ReferenceIdeal.Stages.sA1a, Cert.ReferenceIdeal.Stages.sA1b, Cert.ReferenceIdeal.Stages.vM1, Cert.ReferenceIdeal.Stages.sM1, Cert.ReferenceIdeal.Stages.vG1, Cert.ReferenceIdeal.Stages.sG1, Cert.ReferenceIdeal.Stages.vH1, Cert.ReferenceIdeal.Stages.sH1, Cert.ReferenceIdeal.Stages.vB0, Cert.ReferenceIdeal.Stages.sB0, Cert.ReferenceIdeal.Stages.sB0a, Cert.ReferenceIdeal.Stages.sB0b, Cert.ReferenceIdeal.Stages.sB0c, Cert.ReferenceIdeal.Stages.vD0, Cert.ReferenceIdeal.Stages.sD0, Cert.ReferenceIdeal.Stages.sD0a, Cert.ReferenceIdeal.Stages.sD0b, Cert.ReferenceIdeal.Stages.sD0c, Cert.ReferenceIdeal.Stages.vA0, Cert.ReferenceIdeal.Stages.sA0, Cert.ReferenceIdeal.Stages.vM0, Cert.ReferenceIdeal.Stages.sM0, Cert.ReferenceIdeal.Stages.vG0, Cert.ReferenceIdeal.Stages.sG0, Cert.ReferenceIdeal.Stages.vH0, Cert.ReferenceIdeal.Stages.sH0]

end

end Cert.Bridge.IdxFacts

end
-- ==== Proof.SimG.lean ====
import proofs.«427610_j64510408786513_1_alg».proof.Proof.Ctx
import proofs.«427610_j64510408786513_1_alg».proof.Proof.Read
import proofs.«427610_j64510408786513_1_alg».proof.Proof.RefStages
import proofs.«427610_j64510408786513_1_alg».proof.Proof.IdxFacts
import Idealize.ShloMosaic.Lib.ValueIdx
import Idealize.ShloMosaic.Lib.ReduceAll

set_option maxRecDepth 16384
noncomputable section
namespace Cert.Bridge.SimG
open Idealize.ShloMosaic Idealize.ShloMosaic.TcCoe Idealize.SL.Sem
open Cert.KernelIdeal Cert.KernelIdeal.Gen

theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a (List.mem_cons_self ..), h11]
    exact foldl_andi_one f l fun n hn => h n (List.mem_cons_of_mem _ hn)

theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

def normIdx (idx : IVec S850000 32) : IVec S850000x1 32 :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

def maskOf (n : IVec S850000x1 32) : IVec S850000 1 :=
  Host.reduce IntOp.andi
    (andi (cmpi .sge n (broadcastInDim S850000x1 ![] bcast_S_S850000x1 (constantI S_ 32 0#32)))
          (cmpi .sle n (broadcastInDim S850000x1 ![0, 1] bcast_S1x1_S850000x1_0_1
            (broadcastInDim S1x1 ![1] bcast_S1_S1x1_1 (constantI S1 32 49999#32)))))
    (constantI S_ 1 1#1) reducesTo_S850000x1_S850000_d1 h_S_

def fillOf (mask : IVec S850000 1) (h : FVec Ideal S50000x128 .f32) (n : IVec S850000x1 32) : FVec Ideal S850000x128 .f32 :=
  select (broadcastInDim S850000x128 ![0] bcast_S850000_S850000x128_0 mask)
    (Host.gather gather_S50000x128_S850000x1_S850000x128_1_0_n_n_0_1_1128 h n)
    (broadcastInDim S850000x128 ![] bcast_S_S850000x128 (constant S_ .f32 0x7FC00000#32))

def takeFn (h : FVec Ideal S50000x128 .f32) (idx : IVec S850000 32) : FVec Ideal S850000x128 .f32 :=
  fillOf (maskOf (normIdx idx)) h (normIdx idx)

theorem norm_word (w : BitVec 32) (h0 : 0 ≤ w.toInt) :
    Scalar.select (IntOp.cmpi .slt w 0#32) (IntOp.addi w 50000#32) w = w := by
  have hz : (0#32 : BitVec 32).toInt = 0 := by decide
  have hne : ¬ IntOp.cmpi .slt w 0#32 = 1#1 := by rw [IntOp.cmpi_slt, hz]; omega
  rw [ValueIdx.eq_zero_of_ne_one hne, ValueIdx.select_zero]

theorem normIdx_range (idx : IVec S850000 32) (hidx : ∀ e, 0 ≤ (idx e).toInt ∧ (idx e).toInt < 50000) (i : S850000x1.Idx) :
    0 ≤ (normIdx idx i).toInt ∧ (normIdx idx i).toInt < 50000 := by
  obtain ⟨e, he⟩ : ∃ e, normIdx idx i
      = Scalar.select (IntOp.cmpi .slt (idx e) 0#32) (IntOp.addi (idx e) 50000#32) (idx e) := ⟨_, rfl⟩
  rw [he, norm_word _ (hidx e).1]
  exact hidx e

theorem maskOf_one (n : IVec S850000x1 32) (hn : ∀ i, 0 ≤ (n i).toInt ∧ (n i).toInt < 50000) (k : S850000.Idx) :
    maskOf n k = 1#1 := by
  unfold maskOf
  refine reduce_andi_of_all _ _ _ _ rfl (fun i => ?_) k
  obtain ⟨h0, h1⟩ := hn i
  have hz : (0#32 : BitVec 32).toInt = 0 := by decide
  have hm : (49999#32 : BitVec 32).toInt = 49999 := by decide
  refine IntOp.andi_eq_one.2 ⟨IntOp.cmpi_sge.2 ?_, IntOp.cmpi_sle.2 ?_⟩
  · show (0#32 : BitVec 32).toInt ≤ (n i).toInt
    omega
  · show (n i).toInt ≤ (49999#32 : BitVec 32).toInt
    omega

theorem take_eq_gather (h : FVec Ideal S50000x128 .f32) (idx : IVec S850000 32)
    (hidx : ∀ e, 0 ≤ (idx e).toInt ∧ (idx e).toInt < 50000) :
    takeFn h idx = Host.gather gather_S50000x128_S850000x1_S850000x128_1_0_n_n_0_1_1128 h (normIdx idx) := by
  funext j
  have hm : broadcastInDim S850000x128 ![0] bcast_S850000_S850000x128_0 (maskOf (normIdx idx)) j = 1#1 :=
    maskOf_one _ (normIdx_range idx hidx) _
  unfold takeFn fillOf
  rw [ValueIdx.select_apply, hm, ValueIdx.select_one]

theorem after_split {τ' : Topo} {sig' : RefSig} {Val : EltTy → Type} (l : List (HloOp τ' sig' Val)) (n : Nat)
    (V : Valuation τ' sig' Val) :
    StableHlo.after l V = StableHlo.after (l.drop n) (StableHlo.after (l.take n) V) := by
  rw [← StableHlo.after_append, List.take_append_drop]

theorem after_split3 {τ' : Topo} {sig' : RefSig} {Val : EltTy → Type} (l : List (HloOp τ' sig' Val)) (n k : Nat)
    (V : Valuation τ' sig' Val) :
    StableHlo.after l V
      = StableHlo.after (l.drop n) (StableHlo.after ((l.take n).drop k) (StableHlo.after ((l.take n).take k) V)) := by
  rw [← after_split, ← after_split]

local macro "piece" "[" ops:ident "]" : tactic =>
  `(tactic| (walk [$ops:ident, List.drop_succ_cons, List.drop_zero, List.take_succ_cons, List.take_zero]
              <;> simp only [cast_cast, cast_eq] <;> rfl))

-- With every index in [0, 50000) the kernel's masked take and the host's gather read the same rows.
theorem take_vs_gather {hK hR : FVec Ideal S50000x128 .f32} {iK iK1 iR iR1 : IVec S850000 32}
    {outK outR : FVec Ideal S850000x128 .f32}
    (e_out : outK = takeFn hK iK) (e_ik : iK = iK1) (rng : ∀ e, 0 ≤ (iK1 e).toInt ∧ (iK1 e).toInt < 50000)
    (e_ref : outR = Host.gather gather_S50000x128_S850000x1_S850000x128_1_0_n_n_0_1_1128 hR (normIdx iR))
    (e_ir : iR = iR1) (agree : iK1 = iR1) (hh : hK = hR) : outK = outR := by
  subst e_ik e_ir hh
  rw [e_out, e_ref, take_eq_gather _ _ rng, agree]

attribute [local irreducible] Host.gather Host.reduce in

theorem take_c0 (V : Valuation τ sig (Elt Ideal)) :
    (StableHlo.after hostOps1 V (Proc.devRef .tc main_v12) : FVec Ideal S850000x128 .f32)
      = takeFn (V (Proc.devRef .tc main_v11)) (V (Proc.devRef .tc main_v7)) := by
  have e1 : ∀ VB : Valuation τ sig (Elt Ideal),
      (StableHlo.after (List.drop 18 hostOps1) VB (Proc.devRef .tc main_v12) : FVec Ideal S850000x128 .f32)
        = fillOf (VB (Proc.devRef .tc main_call0_v12)) (VB (Proc.devRef .tc main_v11)) (VB (Proc.devRef .tc main_call0_v5)) := by
    intro VB; piece [hostOps1]
  have e2 : ∀ VA : Valuation τ sig (Elt Ideal),
      (StableHlo.after (List.drop 8 (List.take 18 hostOps1)) VA (Proc.devRef .tc main_call0_v12) : IVec S850000 1)
        = maskOf (VA (Proc.devRef .tc main_call0_v5)) := by
    intro VA; piece [hostOps1]
  have e3 : ∀ VA : Valuation τ sig (Elt Ideal),
      (StableHlo.after (List.drop 8 (List.take 18 hostOps1)) VA (Proc.devRef .tc main_v11) : FVec Ideal S50000x128 .f32)
        = VA (Proc.devRef .tc main_v11) := by
    intro VA; piece [hostOps1]
  have e4 : ∀ VA : Valuation τ sig (Elt Ideal),
      (StableHlo.after (List.drop 8 (List.take 18 hostOps1)) VA (Proc.devRef .tc main_call0_v5) : IVec S850000x1 32)
        = VA (Proc.devRef .tc main_call0_v5) := by
    intro VA; piece [hostOps1]
  have e5 : (StableHlo.after (List.take 8 (List.take 18 hostOps1)) V (Proc.devRef .tc main_call0_v5) : IVec S850000x1 32)
        = normIdx (V (Proc.devRef .tc main_v7)) := by
    piece [hostOps1]
  have e6 : (StableHlo.after (List.take 8 (List.take 18 hostOps1)) V (Proc.devRef .tc main_v11) : FVec Ideal S50000x128 .f32)
        = V (Proc.devRef .tc main_v11) := by
    piece [hostOps1]
  exact ((congrFun (after_split3 hostOps1 18 8 V) _).trans (e1 _)).trans
    (congr (congr (congrArg fillOf ((e2 _).trans (congrArg maskOf e5))) ((e3 _).trans e6)) ((e4 _).trans e5))

attribute [local irreducible] Host.gather Host.reduce in

theorem take_r0 (V : Valuation τ sig (Elt Ideal)) :
    (StableHlo.after hostOps1_1 V (Proc.devRef .tc main_v13) : FVec Ideal S850000x128 .f32)
      = takeFn (V (Proc.devRef .tc main_v11)) (V (Proc.devRef .tc main_v4)) := by
  have e1 : ∀ VB : Valuation τ sig (Elt Ideal),
      (StableHlo.after (List.drop 18 hostOps1_1) VB (Proc.devRef .tc main_v13) : FVec Ideal S850000x128 .f32)
        = fillOf (VB (Proc.devRef .tc main_call1_v12)) (VB (Proc.devRef .tc main_v11)) (VB (Proc.devRef .tc main_call1_v5)) := by
    intro VB; piece [hostOps1_1]
  have e2 : ∀ VA : Valuation τ sig (Elt Ideal),
      (StableHlo.after (List.drop 8 (List.take 18 hostOps1_1)) VA (Proc.devRef .tc main_call1_v12) : IVec S850000 1)
        = maskOf (VA (Proc.devRef .tc main_call1_v5)) := by
    intro VA; piece [hostOps1_1]
  have e3 : ∀ VA : Valuation τ sig (Elt Ideal),
      (StableHlo.after (List.drop 8 (List.take 18 hostOps1_1)) VA (Proc.devRef .tc main_v11) : FVec Ideal S50000x128 .f32)
        = VA (Proc.devRef .tc main_v11) := by
    intro VA; piece [hostOps1_1]
  have e4 : ∀ VA : Valuation τ sig (Elt Ideal),
      (StableHlo.after (List.drop 8 (List.take 18 hostOps1_1)) VA (Proc.devRef .tc main_call1_v5) : IVec S850000x1 32)
        = VA (Proc.devRef .tc main_call1_v5) := by
    intro VA; piece [hostOps1_1]
  have e5 : (StableHlo.after (List.take 8 (List.take 18 hostOps1_1)) V (Proc.devRef .tc main_call1_v5) : IVec S850000x1 32)
        = normIdx (V (Proc.devRef .tc main_v4)) := by
    piece [hostOps1_1]
  have e6 : (StableHlo.after (List.take 8 (List.take 18 hostOps1_1)) V (Proc.devRef .tc main_v11) : FVec Ideal S50000x128 .f32)
        = V (Proc.devRef .tc main_v11) := by
    piece [hostOps1_1]
  exact ((congrFun (after_split3 hostOps1_1 18 8 V) _).trans (e1 _)).trans
    (congr (congr (congrArg fillOf ((e2 _).trans (congrArg maskOf e5))) ((e3 _).trans e6)) ((e4 _).trans e5))

attribute [local irreducible] Host.gather Host.reduce in

theorem take_c1 (V : Valuation τ sig (Elt Ideal)) :
    (StableHlo.after hostOps4 V (Proc.devRef .tc main_v61) : FVec Ideal S850000x128 .f32)
      = takeFn (V (Proc.devRef .tc main_v60)) (V (Proc.devRef .tc main_v7)) := by
  have e1 : ∀ VB : Valuation τ sig (Elt Ideal),
      (StableHlo.after (List.drop 18 hostOps4) VB (Proc.devRef .tc main_v61) : FVec Ideal S850000x128 .f32)
        = fillOf (VB (Proc.devRef .tc main_call3_v12)) (VB (Proc.devRef .tc main_v60)) (VB (Proc.devRef .tc main_call3_v5)) := by
    intro VB; piece [hostOps4]
  have e2 : ∀ VA : Valuation τ sig (Elt Ideal),
      (StableHlo.after (List.drop 8 (List.take 18 hostOps4)) VA (Proc.devRef .tc main_call3_v12) : IVec S850000 1)
        = maskOf (VA (Proc.devRef .tc main_call3_v5)) := by
    intro VA; piece [hostOps4]
  have e3 : ∀ VA : Valuation τ sig (Elt Ideal),
      (StableHlo.after (List.drop 8 (List.take 18 hostOps4)) VA (Proc.devRef .tc main_v60) : FVec Ideal S50000x128 .f32)
        = VA (Proc.devRef .tc main_v60) := by
    intro VA; piece [hostOps4]
  have e4 : ∀ VA : Valuation τ sig (Elt Ideal),
      (StableHlo.after (List.drop 8 (List.take 18 hostOps4)) VA (Proc.devRef .tc main_call3_v5) : IVec S850000x1 32)
        = VA (Proc.devRef .tc main_call3_v5) := by
    intro VA; piece [hostOps4]
  have e5 : (StableHlo.after (List.take 8 (List.take 18 hostOps4)) V (Proc.devRef .tc main_call3_v5) : IVec S850000x1 32)
        = normIdx (V (Proc.devRef .tc main_v7)) := by
    piece [hostOps4]
  have e6 : (StableHlo.after (List.take 8 (List.take 18 hostOps4)) V (Proc.devRef .tc main_v60) : FVec Ideal S50000x128 .f32)
        = V (Proc.devRef .tc main_v60) := by
    piece [hostOps4]
  exact ((congrFun (after_split3 hostOps4 18 8 V) _).trans (e1 _)).trans
    (congr (congr (congrArg fillOf ((e2 _).trans (congrArg maskOf e5))) ((e3 _).trans e6)) ((e4 _).trans e5))

attribute [local irreducible] Host.gather Host.reduce in

theorem take_r1 (V : Valuation τ sig (Elt Ideal)) :
    (StableHlo.after hostOps4_1 V (Proc.devRef .tc main_v62) : FVec Ideal S850000x128 .f32)
      = takeFn (V (Proc.devRef .tc main_v60)) (V (Proc.devRef .tc main_v4)) := by
  have e1 : ∀ VB : Valuation τ sig (Elt Ideal),
      (StableHlo.after (List.drop 18 hostOps4_1) VB (Proc.devRef .tc main_v62) : FVec Ideal S850000x128 .f32)
        = fillOf (VB (Proc.devRef .tc main_call4_v12)) (VB (Proc.devRef .tc main_v60)) (VB (Proc.devRef .tc main_call4_v5)) := by
    intro VB; piece [hostOps4_1]
  have e2 : ∀ VA : Valuation τ sig (Elt Ideal),
      (StableHlo.after (List.drop 8 (List.take 18 hostOps4_1)) VA (Proc.devRef .tc main_call4_v12) : IVec S850000 1)
        = maskOf (VA (Proc.devRef .tc main_call4_v5)) := by
    intro VA; piece [hostOps4_1]
  have e3 : ∀ VA : Valuation τ sig (Elt Ideal),
      (StableHlo.after (List.drop 8 (List.take 18 hostOps4_1)) VA (Proc.devRef .tc main_v60) : FVec Ideal S50000x128 .f32)
        = VA (Proc.devRef .tc main_v60) := by
    intro VA; piece [hostOps4_1]
  have e4 : ∀ VA : Valuation τ sig (Elt Ideal),
      (StableHlo.after (List.drop 8 (List.take 18 hostOps4_1)) VA (Proc.devRef .tc main_call4_v5) : IVec S850000x1 32)
        = VA (Proc.devRef .tc main_call4_v5) := by
    intro VA; piece [hostOps4_1]
  have e5 : (StableHlo.after (List.take 8 (List.take 18 hostOps4_1)) V (Proc.devRef .tc main_call4_v5) : IVec S850000x1 32)
        = normIdx (V (Proc.devRef .tc main_v4)) := by
    piece [hostOps4_1]
  have e6 : (StableHlo.after (List.take 8 (List.take 18 hostOps4_1)) V (Proc.devRef .tc main_v60) : FVec Ideal S50000x128 .f32)
        = V (Proc.devRef .tc main_v60) := by
    piece [hostOps4_1]
  exact ((congrFun (after_split3 hostOps4_1 18 8 V) _).trans (e1 _)).trans
    (congr (congr (congrArg fillOf ((e2 _).trans (congrArg maskOf e5))) ((e3 _).trans e6)) ((e4 _).trans e5))

attribute [local irreducible] Host.gather Host.reduce in

theorem take_c2 (V : Valuation τ sig (Elt Ideal)) :
    (StableHlo.after hostOps7 V (Proc.devRef .tc main_v110) : FVec Ideal S850000x128 .f32)
      = takeFn (V (Proc.devRef .tc main_v109)) (V (Proc.devRef .tc main_v7)) := by
  have e1 : ∀ VB : Valuation τ sig (Elt Ideal),
      (StableHlo.after (List.drop 18 hostOps7) VB (Proc.devRef .tc main_v110) : FVec Ideal S850000x128 .f32)
        = fillOf (VB (Proc.devRef .tc main_call6_v12)) (VB (Proc.devRef .tc main_v109)) (VB (Proc.devRef .tc main_call6_v5)) := by
    intro VB; piece [hostOps7]
  have e2 : ∀ VA : Valuation τ sig (Elt Ideal),
      (StableHlo.after (List.drop 8 (List.take 18 hostOps7)) VA (Proc.devRef .tc main_call6_v12) : IVec S850000 1)
        = maskOf (VA (Proc.devRef .tc main_call6_v5)) := by
    intro VA; piece [hostOps7]
  have e3 : ∀ VA : Valuation τ sig (Elt Ideal),
      (StableHlo.after (List.drop 8 (List.take 18 hostOps7)) VA (Proc.devRef .tc main_v109) : FVec Ideal S50000x128 .f32)
        = VA (Proc.devRef .tc main_v109) := by
    intro VA; piece [hostOps7]
  have e4 : ∀ VA : Valuation τ sig (Elt Ideal),
      (StableHlo.after (List.drop 8 (List.take 18 hostOps7)) VA (Proc.devRef .tc main_call6_v5) : IVec S850000x1 32)
        = VA (Proc.devRef .tc main_call6_v5) := by
    intro VA; piece [hostOps7]
  have e5 : (StableHlo.after (List.take 8 (List.take 18 hostOps7)) V (Proc.devRef .tc main_call6_v5) : IVec S850000x1 32)
        = normIdx (V (Proc.devRef .tc main_v7)) := by
    piece [hostOps7]
  have e6 : (StableHlo.after (List.take 8 (List.take 18 hostOps7)) V (Proc.devRef .tc main_v109) : FVec Ideal S50000x128 .f32)
        = V (Proc.devRef .tc main_v109) := by
    piece [hostOps7]
  exact ((congrFun (after_split3 hostOps7 18 8 V) _).trans (e1 _)).trans
    (congr (congr (congrArg fillOf ((e2 _).trans (congrArg maskOf e5))) ((e3 _).trans e6)) ((e4 _).trans e5))

attribute [local irreducible] Host.gather Host.reduce in

theorem take_r2 (V : Valuation τ sig (Elt Ideal)) :
    (StableHlo.after hostOps7_1 V (Proc.devRef .tc main_v111) : FVec Ideal S850000x128 .f32)
      = takeFn (V (Proc.devRef .tc main_v109)) (V (Proc.devRef .tc main_v4)) := by
  have e1 : ∀ VB : Valuation τ sig (Elt Ideal),
      (StableHlo.after (List.drop 18 hostOps7_1) VB (Proc.devRef .tc main_v111) : FVec Ideal S850000x128 .f32)
        = fillOf (VB (Proc.devRef .tc main_call7_v12)) (VB (Proc.devRef .tc main_v109)) (VB (Proc.devRef .tc main_call7_v5)) := by
    intro VB; piece [hostOps7_1]
  have e2 : ∀ VA : Valuation τ sig (Elt Ideal),
      (StableHlo.after (List.drop 8 (List.take 18 hostOps7_1)) VA (Proc.devRef .tc main_call7_v12) : IVec S850000 1)
        = maskOf (VA (Proc.devRef .tc main_call7_v5)) := by
    intro VA; piece [hostOps7_1]
  have e3 : ∀ VA : Valuation τ sig (Elt Ideal),
      (StableHlo.after (List.drop 8 (List.take 18 hostOps7_1)) VA (Proc.devRef .tc main_v109) : FVec Ideal S50000x128 .f32)
        = VA (Proc.devRef .tc main_v109) := by
    intro VA; piece [hostOps7_1]
  have e4 : ∀ VA : Valuation τ sig (Elt Ideal),
      (StableHlo.after (List.drop 8 (List.take 18 hostOps7_1)) VA (Proc.devRef .tc main_call7_v5) : IVec S850000x1 32)
        = VA (Proc.devRef .tc main_call7_v5) := by
    intro VA; piece [hostOps7_1]
  have e5 : (StableHlo.after (List.take 8 (List.take 18 hostOps7_1)) V (Proc.devRef .tc main_call7_v5) : IVec S850000x1 32)
        = normIdx (V (Proc.devRef .tc main_v4)) := by
    piece [hostOps7_1]
  have e6 : (StableHlo.after (List.take 8 (List.take 18 hostOps7_1)) V (Proc.devRef .tc main_v109) : FVec Ideal S50000x128 .f32)
        = V (Proc.devRef .tc main_v109) := by
    piece [hostOps7_1]
  exact ((congrFun (after_split3 hostOps7_1 18 8 V) _).trans (e1 _)).trans
    (congr (congr (congrArg fillOf ((e2 _).trans (congrArg maskOf e5))) ((e3 _).trans e6)) ((e4 _).trans e5))

theorem kept_c0 (V : Valuation τ sig (Elt Ideal)) :
    (StableHlo.after hostOps1_2 (StableHlo.after hostOps1_1 V) (Proc.devRef .tc main_v12) : FVec Ideal S850000x128 .f32)
      = V (Proc.devRef .tc main_v12) := by
  walk [Cert.KernelIdeal.Gen.hostOps1_2, Cert.KernelIdeal.Gen.hostOps1_1]

theorem kept_r0 (V : Valuation τ sig (Elt Ideal)) :
    (StableHlo.after hostOps1_2 V (Proc.devRef .tc main_v13) : FVec Ideal S850000x128 .f32) = V (Proc.devRef .tc main_v13) := by
  walk [Cert.KernelIdeal.Gen.hostOps1_2]

theorem kept_h0 (V : Valuation τ sig (Elt Ideal)) :
    (StableHlo.after hostOps1 V (Proc.devRef .tc main_v11) : FVec Ideal S50000x128 .f32) = V (Proc.devRef .tc main_v11) := by
  walk [Cert.KernelIdeal.Gen.hostOps1]

theorem kept_c1 (V : Valuation τ sig (Elt Ideal)) :
    (StableHlo.after hostOps4_2 (StableHlo.after hostOps4_1 V) (Proc.devRef .tc main_v61) : FVec Ideal S850000x128 .f32)
      = V (Proc.devRef .tc main_v61) := by
  walk [Cert.KernelIdeal.Gen.hostOps4_2, Cert.KernelIdeal.Gen.hostOps4_1]

theorem kept_r1 (V : Valuation τ sig (Elt Ideal)) :
    (StableHlo.after hostOps4_2 V (Proc.devRef .tc main_v62) : FVec Ideal S850000x128 .f32) = V (Proc.devRef .tc main_v62) := by
  walk [Cert.KernelIdeal.Gen.hostOps4_2]

theorem kept_h1 (V : Valuation τ sig (Elt Ideal)) :
    (StableHlo.after hostOps4 V (Proc.devRef .tc main_v60) : FVec Ideal S50000x128 .f32) = V (Proc.devRef .tc main_v60) := by
  walk [Cert.KernelIdeal.Gen.hostOps4]

theorem kept_c2 (V : Valuation τ sig (Elt Ideal)) :
    (StableHlo.after hostOps7_2 (StableHlo.after hostOps7_1 V) (Proc.devRef .tc main_v110) : FVec Ideal S850000x128 .f32)
      = V (Proc.devRef .tc main_v110) := by
  walk [Cert.KernelIdeal.Gen.hostOps7_2, Cert.KernelIdeal.Gen.hostOps7_1]

theorem kept_r2 (V : Valuation τ sig (Elt Ideal)) :
    (StableHlo.after hostOps7_2 V (Proc.devRef .tc main_v111) : FVec Ideal S850000x128 .f32) = V (Proc.devRef .tc main_v111) := by
  walk [Cert.KernelIdeal.Gen.hostOps7_2]

theorem kept_h2 (V : Valuation τ sig (Elt Ideal)) :
    (StableHlo.after hostOps7 V (Proc.devRef .tc main_v109) : FVec Ideal S50000x128 .f32) = V (Proc.devRef .tc main_v109) := by
  walk [Cert.KernelIdeal.Gen.hostOps7]

attribute [local irreducible] Host.gather in

theorem ref_c0 (V : Valuation Cert.ReferenceIdeal.τ Cert.ReferenceIdeal.sig (Elt Ideal)) :
    (StableHlo.after Cert.ReferenceIdeal.Stages.sG0 V (Proc.devRef .tc Cert.ReferenceIdeal.main_v17) : FVec Ideal S850000x128 .f32)
      = Host.gather gather_S50000x128_S850000x1_S850000x128_1_0_n_n_0_1_1128
          (V (Proc.devRef .tc Cert.ReferenceIdeal.main_v10) : FVec Ideal S50000x128 .f32)
          (normIdx (V (Proc.devRef .tc Cert.ReferenceIdeal.main_v7) : IVec S850000 32)) := by
  walk [Cert.ReferenceIdeal.Stages.sG0] <;> rfl

attribute [local irreducible] Host.gather in

theorem ref_r0 (V : Valuation Cert.ReferenceIdeal.τ Cert.ReferenceIdeal.sig (Elt Ideal)) :
    (StableHlo.after Cert.ReferenceIdeal.Stages.sG0 V (Proc.devRef .tc Cert.ReferenceIdeal.main_v24) : FVec Ideal S850000x128 .f32)
      = Host.gather gather_S50000x128_S850000x1_S850000x128_1_0_n_n_0_1_1128
          (V (Proc.devRef .tc Cert.ReferenceIdeal.main_v10) : FVec Ideal S50000x128 .f32)
          (normIdx (V (Proc.devRef .tc Cert.ReferenceIdeal.main_v4) : IVec S850000 32)) := by
  walk [Cert.ReferenceIdeal.Stages.sG0] <;> rfl

attribute [local irreducible] Host.gather in

theorem ref_c1 (V : Valuation Cert.ReferenceIdeal.τ Cert.ReferenceIdeal.sig (Elt Ideal)) :
    (StableHlo.after Cert.ReferenceIdeal.Stages.sG1 V (Proc.devRef .tc Cert.ReferenceIdeal.main_v87) : FVec Ideal S850000x128 .f32)
      = Host.gather gather_S50000x128_S850000x1_S850000x128_1_0_n_n_0_1_1128
          (V (Proc.devRef .tc Cert.ReferenceIdeal.main_v80) : FVec Ideal S50000x128 .f32)
          (normIdx (V (Proc.devRef .tc Cert.ReferenceIdeal.main_v7) : IVec S850000 32)) := by
  walk [Cert.ReferenceIdeal.Stages.sG1] <;> rfl

attribute [local irreducible] Host.gather in

theorem ref_r1 (V : Valuation Cert.ReferenceIdeal.τ Cert.ReferenceIdeal.sig (Elt Ideal)) :
    (StableHlo.after Cert.ReferenceIdeal.Stages.sG1 V (Proc.devRef .tc Cert.ReferenceIdeal.main_v94) : FVec Ideal S850000x128 .f32)
      = Host.gather gather_S50000x128_S850000x1_S850000x128_1_0_n_n_0_1_1128
          (V (Proc.devRef .tc Cert.ReferenceIdeal.main_v80) : FVec Ideal S50000x128 .f32)
          (normIdx (V (Proc.devRef .tc Cert.ReferenceIdeal.main_v4) : IVec S850000 32)) := by
  walk [Cert.ReferenceIdeal.Stages.sG1] <;> rfl

attribute [local irreducible] Host.gather in

theorem ref_c2 (V : Valuation Cert.ReferenceIdeal.τ Cert.ReferenceIdeal.sig (Elt Ideal)) :
    (StableHlo.after Cert.ReferenceIdeal.Stages.sG2 V (Proc.devRef .tc Cert.ReferenceIdeal.main_v157) : FVec Ideal S850000x128 .f32)
      = Host.gather gather_S50000x128_S850000x1_S850000x128_1_0_n_n_0_1_1128
          (V (Proc.devRef .tc Cert.ReferenceIdeal.main_v150) : FVec Ideal S50000x128 .f32)
          (normIdx (V (Proc.devRef .tc Cert.ReferenceIdeal.main_v7) : IVec S850000 32)) := by
  walk [Cert.ReferenceIdeal.Stages.sG2, Cert.ReferenceIdeal.Stages.sG2a, Cert.ReferenceIdeal.Stages.sG2b] <;> rfl

attribute [local irreducible] Host.gather in

theorem ref_r2 (V : Valuation Cert.ReferenceIdeal.τ Cert.ReferenceIdeal.sig (Elt Ideal)) :
    (StableHlo.after Cert.ReferenceIdeal.Stages.sG2 V (Proc.devRef .tc Cert.ReferenceIdeal.main_v164) : FVec Ideal S850000x128 .f32)
      = Host.gather gather_S50000x128_S850000x1_S850000x128_1_0_n_n_0_1_1128
          (V (Proc.devRef .tc Cert.ReferenceIdeal.main_v150) : FVec Ideal S50000x128 .f32)
          (normIdx (V (Proc.devRef .tc Cert.ReferenceIdeal.main_v4) : IVec S850000 32)) := by
  walk [Cert.ReferenceIdeal.Stages.sG2, Cert.ReferenceIdeal.Stages.sG2a, Cert.ReferenceIdeal.Stages.sG2b] <;> rfl

section Sim
variable (m : Cert.Bridge.KMem) (ρ : Dev Cert.KernelIdeal.nD → PrngReg) (m' : Cert.Bridge.RMem) (c : Dev Cert.KernelIdeal.nD)
  (hag : Cert.Bridge.Agree m m' c) (hrg : Cert.Bridge.InRange m c)

include hag hrg in

theorem sim_G0
    (hh : (Cert.KernelIdeal.Gen.W2 (F := Ideal) m ρ c (Proc.devRef .tc Cert.KernelIdeal.main_v11) : FVec Ideal Cert.KernelIdeal.S50000x128 .f32)
        = (Cert.ReferenceIdeal.Stages.vH0 (F := Ideal) (StableHlo.launchContents m' c) (Proc.devRef .tc Cert.ReferenceIdeal.main_v10) : FVec Ideal Cert.KernelIdeal.S50000x128 .f32)) :
    (Cert.KernelIdeal.Gen.W5 (F := Ideal) m ρ c (Proc.devRef .tc Cert.KernelIdeal.main_v12) : FVec Ideal Cert.KernelIdeal.S850000x128 .f32)
        = (Cert.ReferenceIdeal.Stages.vG0 (F := Ideal) (StableHlo.launchContents m' c) (Proc.devRef .tc Cert.ReferenceIdeal.main_v17) : FVec Ideal Cert.KernelIdeal.S850000x128 .f32)
    ∧ (Cert.KernelIdeal.Gen.W5 (F := Ideal) m ρ c (Proc.devRef .tc Cert.KernelIdeal.main_v13) : FVec Ideal Cert.KernelIdeal.S850000x128 .f32)
        = (Cert.ReferenceIdeal.Stages.vG0 (F := Ideal) (StableHlo.launchContents m' c) (Proc.devRef .tc Cert.ReferenceIdeal.main_v24) : FVec Ideal Cert.KernelIdeal.S850000x128 .f32) :=
  ⟨take_vs_gather ((kept_c0 (Cert.KernelIdeal.Gen.W3 (F := Ideal) m ρ c)).trans (take_c0 (Cert.KernelIdeal.Gen.W2 (F := Ideal) m ρ c))) (Cert.Bridge.IdxFacts.kept_col_W2 m ρ c) (Cert.Bridge.IdxFacts.col_range m ρ c hrg) (ref_c0 (Cert.ReferenceIdeal.Stages.vH0 (F := Ideal) (StableHlo.launchContents m' c)))
      (Cert.Bridge.IdxFacts.kept_col_vH0 (StableHlo.launchContents m' c)) (Cert.Bridge.IdxFacts.col_agree m ρ m' c hag) hh,
    take_vs_gather ((kept_r0 (Cert.KernelIdeal.Gen.W4 (F := Ideal) m ρ c)).trans (take_r0 (Cert.KernelIdeal.Gen.W3 (F := Ideal) m ρ c))) (Cert.Bridge.IdxFacts.kept_row_W3 m ρ c) (Cert.Bridge.IdxFacts.row_range m ρ c hrg) (ref_r0 (Cert.ReferenceIdeal.Stages.vH0 (F := Ideal) (StableHlo.launchContents m' c)))
      (Cert.Bridge.IdxFacts.kept_row_vH0 (StableHlo.launchContents m' c)) (Cert.Bridge.IdxFacts.row_agree m ρ m' c hag) ((kept_h0 (Cert.KernelIdeal.Gen.W2 (F := Ideal) m ρ c)).trans hh)⟩

include hag hrg in

theorem sim_G1
    (hh : (Cert.KernelIdeal.Gen.W12 (F := Ideal) m ρ c (Proc.devRef .tc Cert.KernelIdeal.main_v60) : FVec Ideal Cert.KernelIdeal.S50000x128 .f32)
        = (Cert.ReferenceIdeal.Stages.vH1 (F := Ideal) (StableHlo.launchContents m' c) (Proc.devRef .tc Cert.ReferenceIdeal.main_v80) : FVec Ideal Cert.KernelIdeal.S50000x128 .f32)) :
    (Cert.KernelIdeal.Gen.W15 (F := Ideal) m ρ c (Proc.devRef .tc Cert.KernelIdeal.main_v61) : FVec Ideal Cert.KernelIdeal.S850000x128 .f32)
        = (Cert.ReferenceIdeal.Stages.vG1 (F := Ideal) (StableHlo.launchContents m' c) (Proc.devRef .tc Cert.ReferenceIdeal.main_v87) : FVec Ideal Cert.KernelIdeal.S850000x128 .f32)
    ∧ (Cert.KernelIdeal.Gen.W15 (F := Ideal) m ρ c (Proc.devRef .tc Cert.KernelIdeal.main_v62) : FVec Ideal Cert.KernelIdeal.S850000x128 .f32)
        = (Cert.ReferenceIdeal.Stages.vG1 (F := Ideal) (StableHlo.launchContents m' c) (Proc.devRef .tc Cert.ReferenceIdeal.main_v94) : FVec Ideal Cert.KernelIdeal.S850000x128 .f32) :=
  ⟨take_vs_gather ((kept_c1 (Cert.KernelIdeal.Gen.W13 (F := Ideal) m ρ c)).trans (take_c1 (Cert.KernelIdeal.Gen.W12 (F := Ideal) m ρ c))) (Cert.Bridge.IdxFacts.kept_col_W12 m ρ c) (Cert.Bridge.IdxFacts.col_range m ρ c hrg) (ref_c1 (Cert.ReferenceIdeal.Stages.vH1 (F := Ideal) (StableHlo.launchContents m' c)))
      (Cert.Bridge.IdxFacts.kept_col_vH1 (StableHlo.launchContents m' c)) (Cert.Bridge.IdxFacts.col_agree m ρ m' c hag) hh,
    take_vs_gather ((kept_r1 (Cert.KernelIdeal.Gen.W14 (F := Ideal) m ρ c)).trans (take_r1 (Cert.KernelIdeal.Gen.W13 (F := Ideal) m ρ c))) (Cert.Bridge.IdxFacts.kept_row_W13 m ρ c) (Cert.Bridge.IdxFacts.row_range m ρ c hrg) (ref_r1 (Cert.ReferenceIdeal.Stages.vH1 (F := Ideal) (StableHlo.launchContents m' c)))
      (Cert.Bridge.IdxFacts.kept_row_vH1 (StableHlo.launchContents m' c)) (Cert.Bridge.IdxFacts.row_agree m ρ m' c hag) ((kept_h1 (Cert.KernelIdeal.Gen.W12 (F := Ideal) m ρ c)).trans hh)⟩

include hag hrg in

theorem sim_G2
    (hh : (Cert.KernelIdeal.Gen.W22 (F := Ideal) m ρ c (Proc.devRef .tc Cert.KernelIdeal.main_v109) : FVec Ideal Cert.KernelIdeal.S50000x128 .f32)
        = (Cert.ReferenceIdeal.Stages.vH2 (F := Ideal) (StableHlo.launchContents m' c) (Proc.devRef .tc Cert.ReferenceIdeal.main_v150) : FVec Ideal Cert.KernelIdeal.S50000x128 .f32)) :
    (Cert.KernelIdeal.Gen.W25 (F := Ideal) m ρ c (Proc.devRef .tc Cert.KernelIdeal.main_v110) : FVec Ideal Cert.KernelIdeal.S850000x128 .f32)
        = (Cert.ReferenceIdeal.Stages.vG2 (F := Ideal) (StableHlo.launchContents m' c) (Proc.devRef .tc Cert.ReferenceIdeal.main_v157) : FVec Ideal Cert.KernelIdeal.S850000x128 .f32)
    ∧ (Cert.KernelIdeal.Gen.W25 (F := Ideal) m ρ c (Proc.devRef .tc Cert.KernelIdeal.main_v111) : FVec Ideal Cert.KernelIdeal.S850000x128 .f32)
        = (Cert.ReferenceIdeal.Stages.vG2 (F := Ideal) (StableHlo.launchContents m' c) (Proc.devRef .tc Cert.ReferenceIdeal.main_v164) : FVec Ideal Cert.KernelIdeal.S850000x128 .f32) :=
  ⟨take_vs_gather ((kept_c2 (Cert.KernelIdeal.Gen.W23 (F := Ideal) m ρ c)).trans (take_c2 (Cert.KernelIdeal.Gen.W22 (F := Ideal) m ρ c))) (Cert.Bridge.IdxFacts.kept_col_W22 m ρ c) (Cert.Bridge.IdxFacts.col_range m ρ c hrg) (ref_c2 (Cert.ReferenceIdeal.Stages.vH2 (F := Ideal) (StableHlo.launchContents m' c)))
      (Cert.Bridge.IdxFacts.kept_col_vH2 (StableHlo.launchContents m' c)) (Cert.Bridge.IdxFacts.col_agree m ρ m' c hag) hh,
    take_vs_gather ((kept_r2 (Cert.KernelIdeal.Gen.W24 (F := Ideal) m ρ c)).trans (take_r2 (Cert.KernelIdeal.Gen.W23 (F := Ideal) m ρ c))) (Cert.Bridge.IdxFacts.kept_row_W23 m ρ c) (Cert.Bridge.IdxFacts.row_range m ρ c hrg) (ref_r2 (Cert.ReferenceIdeal.Stages.vH2 (F := Ideal) (StableHlo.launchContents m' c)))
      (Cert.Bridge.IdxFacts.kept_row_vH2 (StableHlo.launchContents m' c)) (Cert.Bridge.IdxFacts.row_agree m ρ m' c hag) ((kept_h2 (Cert.KernelIdeal.Gen.W22 (F := Ideal) m ρ c)).trans hh)⟩

end Sim

end Cert.Bridge.SimG

end
-- ==== Proof.RegionEdge.lean ====
import proofs.«427610_j64510408786513_1_alg».proof.Proof.Gen.KernelIdeal.Frame
import proofs.«427610_j64510408786513_1_alg».proof.Proof.Spec
import proofs.«427610_j64510408786513_1_alg».proof.Proof.LibPlainDot
import proofs.«427610_j64510408786513_1_alg».proof.Proof.LibSlice
import Idealize.ShloMosaic.Lib.Pipeline.Value
import Idealize.ShloMosaic.Lib.ValueIdx

set_option maxRecDepth 16384

noncomputable section

namespace Cert.KernelIdeal.RegionEdge

open Cert.KernelIdeal Cert.KernelIdeal.Gen
open Idealize.ShloMosaic Idealize.ShloMosaic.TcCoe Idealize.ShloMosaic.ValueIdx Idealize.SL.Sem
open Idealize.ShloMosaic.Pipeline (Dat)

theorem zero_off2 : (![0, 0] : Fin 2 → Nat) = fun _ => 0 := funext fun a => match a with | ⟨0, _⟩ => rfl | ⟨1, _⟩ => rfl

theorem zero_off1 : (![0] : Fin 1 → Nat) = fun _ => 0 := funext fun a => match a with | ⟨0, _⟩ => rfl

theorem bias_row_apply (e : Vec Ideal S128 .f32) (p : Fin 5000) (q : Fin 128) :
    broadcastTo S5000x128 (shapeCast S1x128 (shapeCast S128 e shapeCasts_S128_S128) shapeCasts_S128_S1x128)
      broadcasts_S1x128_S5000x128 (ix2 p q) = e (ix1 q) := by
  rw [shapeCast_self]

  refine (broadcastTo_apply _ _ (ix2 p q) (ix2 (0 : Fin 1) q) ?_).trans ?_
  · intro a
    match a with
    | ⟨0, _⟩ => rfl
    | ⟨1, _⟩ => rfl

  · exact Cert.LibSlice.row_of_vec_apply e _ q

theorem prod_apply (x : Vec Ideal S5000x128 .f32) (w : Vec Ideal S128x128 .f32) (p : Fin 5000) (q : Fin 128) :
    matmul (F := Ideal) dot_S5000x128_S128x128_S5000x128_1_0_0_1_n_n none
      (truncf .bf16 (shapeCast S5000x128 x shapeCasts_S5000x128_S5000x128) bitsLt_bf16_f32)
      (truncf .bf16 (shapeCast S128x128 w shapeCasts_S128x128_S128x128) bitsLt_bf16_f32)
      (constant (F := Ideal) S5000x128 .f32 0x00000000#32) (ix2 p q)
      = ∑ k : Fin 128, x (ix2 p k) * w (ix2 k q) := by
  rw [shapeCast_self, shapeCast_self, Cert.LibSlice.truncf_ideal, Cert.LibSlice.truncf_ideal]
  exact Cert.LibPlainDot.matmul_zero_apply dot_S5000x128_S128x128_S5000x128_1_0_0_1_n_n_wf none x w p q

theorem pay1_apply (x0 x1 : Vec Ideal S5000x128 .f32) (w0 w1 : Vec Ideal S128x128 .f32) (e : Vec Ideal S128 .f32)
    (p : Fin 5000) (q : Fin 128) :
    k1_pay1 (F := Ideal) x0 x1 w0 w1 e (ix2 p q)
      = ((∑ k : Fin 128, x0 (ix2 p k) * w0 (ix2 k q)) + (∑ k : Fin 128, x1 (ix2 p k) * w1 (ix2 k q))) + e (ix1 q) := by
  unfold k1_pay1
  rw [addf_apply, addf_apply, prod_apply, prod_apply, bias_row_apply]

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem blk1_0_apply (c : Dev nD) (t : Fin cfg1.N) (p : Fin 5000) (k : Fin 128) (i : S850000x128.Idx)
    (h0 : (i 0).val = t.val * 5000 + p.val) (h1 : (i 1).val = k.val) :
    (iblk1 (F := Ideal) V c 0 t : Vec Ideal S5000x128 .f32) (ix2 p k) = (V c main_v12 : Vec Ideal S850000x128 .f32) i := by
  obtain ⟨e0, e1, -⟩ := idx_facts1 t
  unfold iblk1
  rw [View.read_apply]
  show V c main_v12 _ = V c main_v12 _
  congr 1
  funext a
  apply Fin.ext
  match a with
  | ⟨0, _⟩ => show win1_0.index t (0 : Fin 2) * 5000 + 1 * p.val = (i 0).val; omega
  | ⟨1, _⟩ => show win1_0.index t (1 : Fin 2) * 128 + 1 * k.val = (i 1).val; omega

theorem blk1_1_apply (c : Dev nD) (t : Fin cfg1.N) (p : Fin 5000) (k : Fin 128) (i : S850000x128.Idx)
    (h0 : (i 0).val = t.val * 5000 + p.val) (h1 : (i 1).val = k.val) :
    (iblk1 (F := Ideal) V c 1 t : Vec Ideal S5000x128 .f32) (ix2 p k) = (V c main_v13 : Vec Ideal S850000x128 .f32) i := by
  obtain ⟨-, -, e0, e1, -⟩ := idx_facts1 t
  unfold iblk1
  rw [View.read_apply]
  show V c main_v13 _ = V c main_v13 _
  congr 1
  funext a
  apply Fin.ext
  match a with
  | ⟨0, _⟩ => show win1_1.index t (0 : Fin 2) * 5000 + 1 * p.val = (i 0).val; omega
  | ⟨1, _⟩ => show win1_1.index t (1 : Fin 2) * 128 + 1 * k.val = (i 1).val; omega

theorem blk1_2_apply (c : Dev nD) (t : Fin cfg1.N) (k q : Fin 128) :
    (iblk1 (F := Ideal) V c 2 t : Vec Ideal S128x128 .f32) (ix2 k q) = (V c main_v15 : Vec Ideal S128x128 .f32) (ix2 k q) := by
  obtain ⟨-, -, -, -, e0, e1, -⟩ := idx_facts1 t
  unfold iblk1
  rw [View.read_apply]
  show V c main_v15 _ = V c main_v15 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

theorem blk1_3_apply (c : Dev nD) (t : Fin cfg1.N) (k q : Fin 128) :
    (iblk1 (F := Ideal) V c 3 t : Vec Ideal S128x128 .f32) (ix2 k q) = (V c main_v17 : Vec Ideal S128x128 .f32) (ix2 k q) := by
  obtain ⟨-, -, -, -, -, -, e0, e1, -⟩ := idx_facts1 t
  unfold iblk1
  rw [View.read_apply]
  show V c main_v17 _ = V c main_v17 _
  congr 1
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

theorem blk1_4_apply (c : Dev nD) (t : Fin cfg1.N) (q : Fin 128) :
    (iblk1 (F := Ideal) V c 4 t : Vec Ideal S128 .f32) (ix1 q) = (V c main_v19 : Vec Ideal S128 .f32) (ix1 q) := by
  obtain ⟨-, -, -, -, -, -, -, -, e0, -⟩ := idx_facts1 t
  unfold iblk1
  rw [View.read_apply]
  show V c main_v19 _ = V c main_v19 _
  congr 1
  funext a
  apply Fin.ext
  match a with
  | ⟨0, _⟩ => show win1_4.index t (0 : Fin 1) * 128 + 1 * q.val = q.val; omega

theorem flushed1_eq (c : Dev nD) (t : Fin cfg1.N) :
    (dat1 (F := Ideal) V c).flushed 5 t = ((cfg1.win 5).blk t).view.read (Elt Ideal)
      (Cert.Spec.edgeFn (V c main_v12) (V c main_v13) (V c main_v15) (V c main_v17) (V c main_v19)) := by
  show (cfg1.win 5).cut (grid1.coords t) ((dat1 V c).after 5 t) = _
  rw [after1_5]
  unfold out1_5
  rw [View.canon_unit_zero zero_off2]
  simp only [View.ld_unit_zero (S := S5000x128) zero_off2, View.ld_unit_zero (S := S128x128) zero_off2,
    View.ld_unit_zero (S := S128) zero_off1]
  obtain ⟨-, -, -, -, -, -, -, -, -, e0, e1⟩ := idx_facts1 t
  funext j
  obtain ⟨p, q, rfl⟩ : ∃ (p : Fin 5000) (q : Fin 128), j = ix2 p q := ⟨j 0, j 1, eq_ix2 j⟩
  rw [View.read_apply]
  show k1_pay1 (F := Ideal) (iblk1 V c 0 t) (iblk1 V c 1 t) (iblk1 V c 2 t) (iblk1 V c 3 t) (iblk1 V c 4 t) (ix2 p q)
      = Cert.Spec.edgeAt (V c main_v12) (V c main_v13) (V c main_v15) (V c main_v17) (V c main_v19)
          ((((cfg1.win 5).blk t).view.emb (ix2 p q)) 0) ((((cfg1.win 5).blk t).view.emb (ix2 p q)) 1)
  rw [pay1_apply]

  have hq : (((cfg1.win 5).blk t).view.emb (ix2 p q)) 1 = q :=
    Fin.ext (by show win1_5.index t (1 : Fin 2) * 128 + 1 * q.val = q.val; omega)
  have hr : ((((cfg1.win 5).blk t).view.emb (ix2 p q)) 0).val = t.val * 5000 + p.val := by
    show win1_5.index t (0 : Fin 2) * 5000 + 1 * p.val = _; omega
  rw [hq]
  generalize (((cfg1.win 5).blk t).view.emb (ix2 p q)) 0 = r at hr
  unfold Cert.Spec.edgeAt
  rw [blk1_4_apply]
  refine congrArg₂ (· + ·) (congrArg₂ (· + ·) ?_ ?_) rfl
  · exact Finset.sum_congr rfl fun k _ => by rw [blk1_0_apply V c t p k (ix2 r k) hr rfl, blk1_2_apply]
  · exact Finset.sum_congr rfl fun k _ => by rw [blk1_1_apply V c t p k (ix2 r k) hr rfl, blk1_3_apply]

theorem mem_blk1_5 (t : Fin cfg1.N) (i : S850000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v20).slice (win1_5.rect t)).set ↔ _
  rw [View.set_slice_whole, Rect.mem_set_unit]
  exact Iff.rfl

theorem cover1 (i : S850000x128.Idx) :
    ∃ t : Fin cfg1.N, (cfg1.win 5).flush t = true ∧ i ∈ ((cfg1.win 5).blk t).view.set := by
  have hi0 : (i 0).val < 850000 := (i 0).isLt
  have hi1 : (i 1).val < 128 := (i 1).isLt
  have hN : cfg1.N = 170 := N_1
  have ht : (i 0).val / 5000 < cfg1.N := by rw [hN]; omega
  refine ⟨⟨(i 0).val / 5000, ht⟩, flush1_5 _, ?_⟩
  rw [mem_blk1_5]
  obtain ⟨-, -, -, -, -, -, -, -, -, e0, e1⟩ := idx_facts1 ⟨(i 0).val / 5000, ht⟩
  have e0' : win1_5.index ⟨(i 0).val / 5000, ht⟩ (0 : Fin 2) = (i 0).val / 5000 := e0
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

theorem region1_value (c : Dev nD) :
    (dat1 (F := Ideal) V c).arrAt 5 cfg1.N
      = Cert.Spec.edgeFn (V c main_v12) (V c main_v13) (V c main_v15) (V c main_v17) (V c main_v19) :=
  (dat1 V c).arrAt_eq_of_cover 5 _ (fun t _ => flushed1_eq V c t) cover1

theorem pay4_apply (x0 x1 : Vec Ideal S5000x128 .f32) (w0 w1 : Vec Ideal S128x128 .f32) (e : Vec Ideal S128 .f32)
    (p : Fin 5000) (q : Fin 128) :
    k4_pay1 (F := Ideal) x0 x1 w0 w1 e (ix2 p q)
      = ((∑ k : Fin 128, x0 (ix2 p k) * w0 (ix2 k q)) + (∑ k : Fin 128, x1 (ix2 p k) * w1 (ix2 k q))) + e (ix1 q) := by
  unfold k4_pay1
  rw [addf_apply, addf_apply, prod_apply, prod_apply, bias_row_apply]

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

theorem blk4_0_apply (c : Dev nD) (t : Fin cfg4.N) (p : Fin 5000) (k : Fin 128) (i : S850000x128.Idx)
    (h0 : (i 0).val = t.val * 5000 + p.val) (h1 : (i 1).val = k.val) :
    (iblk4 (F := Ideal) V c 0 t : Vec Ideal S5000x128 .f32) (ix2 p k) = (V c main_v61 : Vec Ideal S850000x128 .f32) i := by
  obtain ⟨e0, e1, -⟩ := idx_facts4 t
  unfold iblk4
  rw [View.read_apply]
  show V c main_v61 _ = V c main_v61 _
  congr 1
  funext a
  apply Fin.ext
  match a with
  | ⟨0, _⟩ => show win4_0.index t (0 : Fin 2) * 5000 + 1 * p.val = (i 0).val; omega
  | ⟨1, _⟩ => show win4_0.index t (1 : Fin 2) * 128 + 1 * k.val = (i 1).val; omega

theorem blk4_1_apply (c : Dev nD) (t : Fin cfg4.N) (p : Fin 5000) (k : Fin 128) (i : S850000x128.Idx)
    (h0 : (i 0).val = t.val * 5000 + p.val) (h1 : (i 1).val = k.val) :
    (iblk4 (F := Ideal) V c 1 t : Vec Ideal S5000x128 .f32) (ix2 p k) = (V c main_v62 : Vec Ideal S850000x128 .f32) i := by
  obtain ⟨-, -, e0, e1, -⟩ := idx_facts4 t
  unfold iblk4
  rw [View.read_apply]
  show V c main_v62 _ = V c main_v62 _
  congr 1
  funext a
  apply Fin.ext
  match a with
  | ⟨0, _⟩ => show win4_1.index t (0 : Fin 2) * 5000 + 1 * p.val = (i 0).val; omega
  | ⟨1, _⟩ => show win4_1.index t (1 : Fin 2) * 128 + 1 * k.val = (i 1).val; omega

theorem blk4_2_apply (c : Dev nD) (t : Fin cfg4.N) (k q : Fin 128) :
    (iblk4 (F := Ideal) V c 2 t : Vec Ideal S128x128 .f32) (ix2 k q) = (V c main_v64 : Vec Ideal S128x128 .f32) (ix2 k q) := by
  obtain ⟨-, -, -, -, e0, e1, -⟩ := idx_facts4 t
  unfold iblk4
  rw [View.read_apply]
  show V c main_v64 _ = V c main_v64 _
  congr 1
  funext a
  apply Fin.ext
  match a with
  | ⟨0, _⟩ => show win4_2.index t (0 : Fin 2) * 128 + 1 * k.val = k.val; omega
  | ⟨1, _⟩ => show win4_2.index t (1 : Fin 2) * 128 + 1 * q.val = q.val; omega

theorem blk4_3_apply (c : Dev nD) (t : Fin cfg4.N) (k q : Fin 128) :
    (iblk4 (F := Ideal) V c 3 t : Vec Ideal S128x128 .f32) (ix2 k q) = (V c main_v66 : Vec Ideal S128x128 .f32) (ix2 k q) := by
  obtain ⟨-, -, -, -, -, -, e0, e1, -⟩ := idx_facts4 t
  unfold iblk4
  rw [View.read_apply]
  show V c main_v66 _ = V c main_v66 _
  congr 1
  funext a
  apply Fin.ext
  match a with
  | ⟨0, _⟩ => show win4_3.index t (0 : Fin 2) * 128 + 1 * k.val = k.val; omega
  | ⟨1, _⟩ => show win4_3.index t (1 : Fin 2) * 128 + 1 * q.val = q.val; omega

theorem blk4_4_apply (c : Dev nD) (t : Fin cfg4.N) (q : Fin 128) :
    (iblk4 (F := Ideal) V c 4 t : Vec Ideal S128 .f32) (ix1 q) = (V c main_v68 : Vec Ideal S128 .f32) (ix1 q) := by
  obtain ⟨-, -, -, -, -, -, -, -, e0, -⟩ := idx_facts4 t
  unfold iblk4
  rw [View.read_apply]
  show V c main_v68 _ = V c main_v68 _
  congr 1
  funext a
  apply Fin.ext
  match a with
  | ⟨0, _⟩ => show win4_4.index t (0 : Fin 1) * 128 + 1 * q.val = q.val; omega

theorem flushed4_eq (c : Dev nD) (t : Fin cfg4.N) :
    (dat4 (F := Ideal) V c).flushed 5 t = ((cfg4.win 5).blk t).view.read (Elt Ideal)
      (Cert.Spec.edgeFn (V c main_v61) (V c main_v62) (V c main_v64) (V c main_v66) (V c main_v68)) := by
  show (cfg4.win 5).cut (grid4.coords t) ((dat4 V c).after 5 t) = _
  rw [after4_5]
  unfold out4_5
  rw [View.canon_unit_zero zero_off2]
  simp only [View.ld_unit_zero (S := S5000x128) zero_off2, View.ld_unit_zero (S := S128x128) zero_off2,
    View.ld_unit_zero (S := S128) zero_off1]
  obtain ⟨-, -, -, -, -, -, -, -, -, e0, e1⟩ := idx_facts4 t
  funext j
  obtain ⟨p, q, rfl⟩ : ∃ (p : Fin 5000) (q : Fin 128), j = ix2 p q := ⟨j 0, j 1, eq_ix2 j⟩
  rw [View.read_apply]
  show k4_pay1 (F := Ideal) (iblk4 V c 0 t) (iblk4 V c 1 t) (iblk4 V c 2 t) (iblk4 V c 3 t) (iblk4 V c 4 t) (ix2 p q)
      = Cert.Spec.edgeAt (V c main_v61) (V c main_v62) (V c main_v64) (V c main_v66) (V c main_v68)
          ((((cfg4.win 5).blk t).view.emb (ix2 p q)) 0) ((((cfg4.win 5).blk t).view.emb (ix2 p q)) 1)
  rw [pay4_apply]

  have hq : (((cfg4.win 5).blk t).view.emb (ix2 p q)) 1 = q :=
    Fin.ext (by show win4_5.index t (1 : Fin 2) * 128 + 1 * q.val = q.val; omega)
  have hr : ((((cfg4.win 5).blk t).view.emb (ix2 p q)) 0).val = t.val * 5000 + p.val := by
    show win4_5.index t (0 : Fin 2) * 5000 + 1 * p.val = _; omega
  rw [hq]
  generalize (((cfg4.win 5).blk t).view.emb (ix2 p q)) 0 = r at hr
  unfold Cert.Spec.edgeAt
  rw [blk4_4_apply]
  refine congrArg₂ (· + ·) (congrArg₂ (· + ·) ?_ ?_) rfl
  · exact Finset.sum_congr rfl fun k _ => by rw [blk4_0_apply V c t p k (ix2 r k) hr rfl, blk4_2_apply]
  · exact Finset.sum_congr rfl fun k _ => by rw [blk4_1_apply V c t p k (ix2 r k) hr rfl, blk4_3_apply]

theorem mem_blk4_5 (t : Fin cfg4.N) (i : S850000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v69).slice (win4_5.rect t)).set ↔ _
  rw [View.set_slice_whole, Rect.mem_set_unit]
  exact Iff.rfl

theorem cover4 (i : S850000x128.Idx) :
    ∃ t : Fin cfg4.N, (cfg4.win 5).flush t = true ∧ i ∈ ((cfg4.win 5).blk t).view.set := by
  have hi0 : (i 0).val < 850000 := (i 0).isLt
  have hi1 : (i 1).val < 128 := (i 1).isLt
  have hN : cfg4.N = 170 := N_4
  have ht : (i 0).val / 5000 < cfg4.N := by rw [hN]; omega
  refine ⟨⟨(i 0).val / 5000, ht⟩, flush4_5 _, ?_⟩
  rw [mem_blk4_5]
  obtain ⟨-, -, -, -, -, -, -, -, -, e0, e1⟩ := idx_facts4 ⟨(i 0).val / 5000, ht⟩
  have e0' : win4_5.index ⟨(i 0).val / 5000, ht⟩ (0 : Fin 2) = (i 0).val / 5000 := e0
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    omega

theorem region4_value (c : Dev nD) :
    (dat4 (F := Ideal) V c).arrAt 5 cfg4.N
      = Cert.Spec.edgeFn (V c main_v61) (V c main_v62) (V c main_v64) (V c main_v66) (V c main_v68) :=
  (dat4 V c).arrAt_eq_of_cover 5 _ (fun t _ => flushed4_eq V c t) cover4

theorem pay7_apply (x0 x1 : Vec Ideal S5000x128 .f32) (w0 w1 : Vec Ideal S128x128 .f32) (e : Vec Ideal S128 .f32)
    (p : Fin 5000) (q : Fin 128) :
    k7_pay1 (F := Ideal) x0 x1 w0 w1 e (ix2 p q)
      = ((∑ k : Fin 128, x0 (ix2 p k) * w0 (ix2 k q)) + (∑ k : Fin 128, x1 (ix2 p k) * w1 (ix2 k q))) + e (ix1 q) := by
  unfold k7_pay1
  rw [addf_apply, addf_apply, prod_apply, prod_apply, bias_row_apply]

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 :=
  (by decide +kernel : ∀ t : Fin grid7.N, _)

theorem blk7_0_apply (c : Dev nD) (t : Fin cfg7.N) (p : Fin 5000) (k : Fin 128) (i : S850000x128.Idx)
    (h0 : (i 0).val = t.val * 5000 + p.val) (h1 : (i 1).val = k.val) :
    (iblk7 (F := Ideal) V c 0 t : Vec Ideal S5000x128 .f32) (ix2 p k) = (V c main_v110 : Vec Ideal S850000x128 .f32) i := by
  obtain ⟨e0, e1, -⟩ := idx_facts7 t
  unfold iblk7
  rw [View.read_apply]
  show V c main_v110 _ = V c main_v110 _
  congr 1
  funext a
  apply Fin.ext
  match a with
  | ⟨0, _⟩ => show win7_0.index t (0 : Fin 2) * 5000 + 1 * p.val = (i 0).val; omega
  | ⟨1, _⟩ => show win7_0.index t (1 : Fin 2) * 128 + 1 * k.val = (i 1).val; omega

theorem blk7_1_apply (c : Dev nD) (t : Fin cfg7.N) (p : Fin 5000) (k : Fin 128) (i : S850000x128.Idx)
    (h0 : (i 0).val = t.val * 5000 + p.val) (h1 : (i 1).val = k.val) :
    (iblk7 (F := Ideal) V c 1 t : Vec Ideal S5000x128 .f32) (ix2 p k) = (V c main_v111 : Vec Ideal S850000x128 .f32) i := by
  obtain ⟨-, -, e0, e1, -⟩ := idx_facts7 t
  unfold iblk7
  rw [View.read_apply]
  show V c main_v111 _ = V c main_v111 _
  congr 1
  funext a
  apply Fin.ext
  match a with
  | ⟨0, _⟩ => show win7_1.index t (0 : Fin 2) * 5000 + 1 * p.val = (i 0).val; omega
  | ⟨1, _⟩ => show win7_1.index t (1 : Fin 2) * 128 + 1 * k.val = (i 1).val; omega

theorem blk7_2_apply (c : Dev nD) (t : Fin cfg7.N) (k q : Fin 128) :
    (iblk7 (F := Ideal) V c 2 t : Vec Ideal S128x128 .f32) (ix2 k q) = (V c main_v113 : Vec Ideal S128x128 .f32) (ix2 k q) := by
  obtain ⟨-, -, -, -, e0, e1, -⟩ := idx_facts7 t
  unfold iblk7
  rw [View.read_apply]
  show V c main_v113 _ = V c main_v113 _
  congr 1
  funext a
  apply Fin.ext
  match a with
  | ⟨0, _⟩ => show win7_2.index t (0 : Fin 2) * 128 + 1 * k.val = k.val; omega
  | ⟨1, _⟩ => show win7_2.index t (1 : Fin 2) * 128 + 1 * q.val = q.val; omega

theorem blk7_3_apply (c : Dev nD) (t : Fin cfg7.N) (k q : Fin 128) :
    (iblk7 (F := Ideal) V c 3 t : Vec Ideal S128x128 .f32) (ix2 k q) = (V c main_v115 : Vec Ideal S128x128 .f32) (ix2 k q) := by
  obtain ⟨-, -, -, -, -, -, e0, e1, -⟩ := idx_facts7 t
  unfold iblk7
  rw [View.read_apply]
  show V c main_v115 _ = V c main_v115 _
  congr 1
  funext a
  apply Fin.ext
  match a with
  | ⟨0, _⟩ => show win7_3.index t (0 : Fin 2) * 128 + 1 * k.val = k.val; omega
  | ⟨1, _⟩ => show win7_3.index t (1 : Fin 2) * 128 + 1 * q.val = q.val; omega

theorem blk7_4_apply (c : Dev nD) (t : Fin cfg7.N) (q : Fin 128) :
    (iblk7 (F := Ideal) V c 4 t : Vec Ideal S128 .f32) (ix1 q) = (V c main_v117 : Vec Ideal S128 .f32) (ix1 q) := by
  obtain ⟨-, -, -, -, -, -, -, -, e0, -⟩ := idx_facts7 t
  unfold iblk7
  rw [View.read_apply]
  show V c main_v117 _ = V c main_v117 _
  congr 1
  funext a
  apply Fin.ext
  match a with
  | ⟨0, _⟩ => show win7_4.index t (0 : Fin 1) * 128 + 1 * q.val = q.val; omega

theorem flushed7_eq (c : Dev nD) (t : Fin cfg7.N) :
    (dat7 (F := Ideal) V c).flushed 5 t = ((cfg7.win 5).blk t).view.read (Elt Ideal)
      (Cert.Spec.edgeFn (V c main_v110) (V c main_v111) (V c main_v113) (V c main_v115) (V c main_v117)) := by
  show (cfg7.win 5).cut (grid7.coords t) ((dat7 V c).after 5 t) = _
  rw [after7_5]
  unfold out7_5
  rw [View.canon_unit_zero zero_off2]
  simp only [View.ld_unit_zero (S := S5000x128) zero_off2, View.ld_unit_zero (S := S128x128) zero_off2,
    View.ld_unit_zero (S := S128) zero_off1]
  obtain ⟨-, -, -, -, -, -, -, -, -, e0, e1⟩ := idx_facts7 t
  funext j
  obtain ⟨p, q, rfl⟩ : ∃ (p : Fin 5000) (q : Fin 128), j = ix2 p q := ⟨j 0, j 1, eq_ix2 j⟩
  rw [View.read_apply]
  show k7_pay1 (F := Ideal) (iblk7 V c 0 t) (iblk7 V c 1 t) (iblk7 V c 2 t) (iblk7 V c 3 t) (iblk7 V c 4 t) (ix2 p q)
      = Cert.Spec.edgeAt (V c main_v110) (V c main_v111) (V c main_v113) (V c main_v115) (V c main_v117)
          ((((cfg7.win 5).blk t).view.emb (ix2 p q)) 0) ((((cfg7.win 5).blk t).view.emb (ix2 p q)) 1)
  rw [pay7_apply]

  have hq : (((cfg7.win 5).blk t).view.emb (ix2 p q)) 1 = q :=
    Fin.ext (by show win7_5.index t (1 : Fin 2) * 128 + 1 * q.val = q.val; omega)
  have hr : ((((cfg7.win 5).blk t).view.emb (ix2 p q)) 0).val = t.val * 5000 + p.val := by
    show win7_5.index t (0 : Fin 2) * 5000 + 1 * p.val = _; omega
  rw [hq]
  generalize (((cfg7.win 5).blk t).view.emb (ix2 p q)) 0 = r at hr
  unfold Cert.Spec.edgeAt
  rw [blk7_4_apply]
  refine congrArg₂ (· + ·) (congrArg₂ (· + ·) ?_ ?_) rfl
  · exact Finset.sum_congr rfl fun k _ => by rw [blk7_0_apply V c t p k (ix2 r k) hr rfl, blk7_2_apply]
  · exact Finset.sum_congr rfl fun k _ => by rw [blk7_1_apply V c t p k (ix2 r k) hr rfl, blk7_3_apply]

theorem mem_blk7_5 (t : Fin cfg7.N) (i : S850000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v118).slice (win7_5.rect t)).set ↔ _
  rw [View.set_slice_whole, Rect.mem_set_unit]
  exact Iff.rfl

theorem cover7 (i : S850000x128.Idx) :
    ∃ t : Fin cfg7.N, (cfg7.win 5).flush t = true ∧ i ∈ ((cfg7.win 5).blk t).view.set := by
  have hi0 : (i 0).val < 850000 := (i 0).isLt
  have hi1 : (i 1).val < 128 := (i 1).isLt
  have hN : cfg7.N = 170 := N_7
  have ht : (i 0).val / 5000 < cfg7.N := by rw [hN]; omega
  refine ⟨⟨(i 0).val / 5000, ht⟩, flush7_5 _, ?_⟩
  rw [mem_blk7_5]
  obtain ⟨-, -, -, -, -, -, -, -, -, e0, e1⟩ := idx_facts7 ⟨(i 0).val / 5000, ht⟩
  have e0' : win7_5.index ⟨(i 0).val / 5000, ht⟩ (0 : Fin 2) = (i 0).val / 5000 := e0
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    omega
  | ⟨1, _⟩ =>
    show win7_5.index ⟨(i 0).val / 5000, ht⟩ (1 : Fin 2) * 128 ≤ (i 1).val
      ∧ (i 1).val < win7_5.index ⟨(i 0).val / 5000, ht⟩ (1 : Fin 2) * 128 + 128
    omega

theorem region7_value (c : Dev nD) :
    (dat7 (F := Ideal) V c).arrAt 5 cfg7.N
      = Cert.Spec.edgeFn (V c main_v110) (V c main_v111) (V c main_v113) (V c main_v115) (V c main_v117) :=
  (dat7 V c).arrAt_eq_of_cover 5 _ (fun t _ => flushed7_eq V c t) cover7

end Cert.KernelIdeal.RegionEdge

end
-- ==== Proof.SimM.lean ====
import Mathlib.Algebra.BigOperators.Fin
import Idealize.ShloMosaic.PureOps.Ideal
import Idealize.ShloMosaic.Lib.ValueIdx
import Idealize.ShloMosaic.Lib.Pipeline.Value
import proofs.«427610_j64510408786513_1_alg».proof.Proof.Ctx
import proofs.«427610_j64510408786513_1_alg».proof.Proof.Read
import proofs.«427610_j64510408786513_1_alg».proof.Proof.Spec
import proofs.«427610_j64510408786513_1_alg».proof.Proof.LibPlainDot
import proofs.«427610_j64510408786513_1_alg».proof.Proof.LibSlice
import proofs.«427610_j64510408786513_1_alg».proof.Proof.RefStages
import proofs.«427610_j64510408786513_1_alg».proof.Proof.RegionEdge
import proofs.«427610_j64510408786513_1_alg».proof.Proof.RefKeep

noncomputable section

namespace Cert.Bridge.SimM

open Idealize.ShloMosaic Idealize.ShloMosaic.ValueIdx Idealize.ShloMosaic.TcCoe Idealize.SL.Sem

theorem sum_split {M : Type} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

section
variable {R : Nat} (a b : FVec Ideal ⟨2, ![R, 128]⟩ .f32)
  (hcat : Shape.Concatenates [(⟨2, ![R, 128]⟩ : Shape), ⟨2, ![R, 128]⟩] ⟨2, ![R, 256]⟩ 1)

theorem cat_left (p : Fin R) (k : Fin 128) :
    concatenate ⟨2, ![R, 256]⟩ 1 [⟨⟨2, ![R, 128]⟩, a⟩, ⟨⟨2, ![R, 128]⟩, b⟩] hcat (ix2 p (⟨k.val, by omega⟩ : Fin 256))
      = a (ix2 p k) := by
  refine concatenate_pair_apply_left 1 a b hcat _ rfl (ix2 p k) ?_
  intro x
  match x with
  | ⟨0, _⟩ => rfl
  | ⟨1, _⟩ => rfl

theorem cat_right (p : Fin R) (k : Fin 128) :
    concatenate ⟨2, ![R, 256]⟩ 1 [⟨⟨2, ![R, 128]⟩, a⟩, ⟨⟨2, ![R, 128]⟩, b⟩] hcat (ix2 p (⟨128 + k.val, by omega⟩ : Fin 256))
      = b (ix2 p k) := by
  refine concatenate_pair_apply_right 1 a b hcat _ rfl rfl (ix2 p k) ?_ ?_
  · intro x hx
    match x with
    | ⟨0, _⟩ => rfl
    | ⟨1, _⟩ => exact absurd rfl hx
  · show k.val + 128 = 128 + k.val
    omega
end

-- a · W₀ + b · W₁ + e, with W₀ over W₁ one 256-row matrix, is the product of the rows [a | b] with that matrix, plus e.
theorem msg_pure {R : Nat} (l : Nat) (hl : l < 3) (a b : FVec Ideal ⟨2, ![R, 128]⟩ .f32)
    (We : FVec Ideal ⟨3, ![3, 256, 128]⟩ .f32) (be : FVec Ideal ⟨2, ![3, 128]⟩ .f32)
    (hs0 : (⟨3, ![3, 256, 128]⟩ : Shape).Slices ![l, 0, 0] ⟨3, ![1, 128, 128]⟩)
    (hs1 : (⟨3, ![3, 256, 128]⟩ : Shape).Slices ![l, 128, 0] ⟨3, ![1, 128, 128]⟩)
    (hcm : (⟨3, ![1, 128, 128]⟩ : Shape).ShapeCasts ⟨2, ![128, 128]⟩)
    (hsb : (⟨2, ![3, 128]⟩ : Shape).Slices ![l, 0] ⟨2, ![1, 128]⟩)
    (hcb : (⟨2, ![1, 128]⟩ : Shape).ShapeCasts ⟨1, ![128]⟩)
    (hsW : (⟨3, ![3, 256, 128]⟩ : Shape).Slices ![l, 0, 0] ⟨3, ![1, 256, 128]⟩)
    (hcW : (⟨3, ![1, 256, 128]⟩ : Shape).ShapeCasts ⟨2, ![256, 128]⟩)
    (hcat : Shape.Concatenates [(⟨2, ![R, 128]⟩ : Shape), ⟨2, ![R, 128]⟩] ⟨2, ![R, 256]⟩ 1)
    (wf : DotDims.WF ⟨2, ![R, 256]⟩ ⟨2, ![256, 128]⟩ ⟨2, ![R, 128]⟩ [1] [0] [0] [1] [] [])
    (h1 : (⟨1, ![128]⟩ : Shape).BroadcastsInDim ⟨2, ![1, 128]⟩ ![1])
    (h2 : (⟨2, ![1, 128]⟩ : Shape).BroadcastsInDim ⟨2, ![R, 128]⟩ ![0, 1])
    (prec : Option ContractPrecision) (sched : HostSchedule) :
    Cert.Spec.edgeFn a b
        (shapeCast ⟨2, ![128, 128]⟩ (extractStridedSlice ⟨3, ![1, 128, 128]⟩ ![l, 0, 0] We hs0) hcm)
        (shapeCast ⟨2, ![128, 128]⟩ (extractStridedSlice ⟨3, ![1, 128, 128]⟩ ![l, 128, 0] We hs1) hcm)
        (shapeCast ⟨1, ![128]⟩ (extractStridedSlice ⟨2, ![1, 128]⟩ ![l, 0] be hsb) hcb)
      = addf
          (FloatOps.dotGeneral (Cert.LibPlainDot.plainDims R 256 128 wf) prec sched
            (concatenate ⟨2, ![R, 256]⟩ 1 [⟨⟨2, ![R, 128]⟩, a⟩, ⟨⟨2, ![R, 128]⟩, b⟩] hcat)
            (shapeCast ⟨2, ![256, 128]⟩ (extractStridedSlice ⟨3, ![1, 256, 128]⟩ ![l, 0, 0] We hsW) hcW))
          (broadcastInDim ⟨2, ![R, 128]⟩ ![0, 1] h2 (broadcastInDim ⟨2, ![1, 128]⟩ ![1] h1
            (shapeCast ⟨1, ![128]⟩ (extractStridedSlice ⟨2, ![1, 128]⟩ ![l, 0] be hsb) hcb))) := by
  funext i
  obtain ⟨p, q, rfl⟩ : ∃ p q, i = ix2 p q := ⟨i 0, i 1, eq_ix2 i⟩
  rw [addf_apply, Cert.LibPlainDot.dotGeneral_apply, sum_split, Cert.LibSlice.bias_rows_apply]
  show Cert.Spec.edgeAt a b _ _ _ p q = _
  unfold Cert.Spec.edgeAt
  rw [Cert.LibSlice.vec_slice_apply be (⟨l, hl⟩ : Fin 3) hsb hcb q]
  congr 1
  congr 1
  · refine Finset.sum_congr rfl fun k _ => ?_
    rw [cat_left, Cert.LibSlice.mat_slice_apply We (⟨l, hl⟩ : Fin 3) 0 (by omega) hs0 hcm k q,
      Cert.LibSlice.mat_slice_apply We (⟨l, hl⟩ : Fin 3) 0 (by omega) hsW hcW (⟨k.val, by omega⟩ : Fin 256) q]
  · refine Finset.sum_congr rfl fun k _ => ?_
    rw [cat_right, Cert.LibSlice.mat_slice_apply We (⟨l, hl⟩ : Fin 3) 128 (by omega) hs1 hcm k q,
      Cert.LibSlice.mat_slice_apply We (⟨l, hl⟩ : Fin 3) 0 (by omega) hsW hcW (⟨128 + k.val, by omega⟩ : Fin 256) q]
    refine congrArg (fun t : Fin 256 => b (ix2 p k) * We (ix3 (⟨l, hl⟩ : Fin 3) t q)) (Fin.ext ?_)
    show 128 + k.val = 0 + (128 + k.val)
    omega

section
variable (m : Cert.Bridge.KMem) (ρ : Dev Cert.KernelIdeal.nD → PrngReg) (m' : Cert.Bridge.RMem) (c : Dev Cert.KernelIdeal.nD)
  (hag : Cert.Bridge.Agree m m' c)

include hag

set_option maxRecDepth 16384

theorem sim_M0
    (hc : (Cert.KernelIdeal.Gen.W5 (F := Ideal) m ρ c (Proc.devRef .tc Cert.KernelIdeal.main_v12) : FVec Ideal Cert.KernelIdeal.S850000x128 .f32)
      = (Cert.ReferenceIdeal.Stages.vG0 (F := Ideal) (StableHlo.launchContents m' c) (Proc.devRef .tc Cert.ReferenceIdeal.main_v17) : FVec Ideal Cert.KernelIdeal.S850000x128 .f32))
    (hr : (Cert.KernelIdeal.Gen.W5 (F := Ideal) m ρ c (Proc.devRef .tc Cert.KernelIdeal.main_v13) : FVec Ideal Cert.KernelIdeal.S850000x128 .f32)
      = (Cert.ReferenceIdeal.Stages.vG0 (F := Ideal) (StableHlo.launchContents m' c) (Proc.devRef .tc Cert.ReferenceIdeal.main_v24) : FVec Ideal Cert.KernelIdeal.S850000x128 .f32)) :
    (Cert.KernelIdeal.Gen.W6 (F := Ideal) m ρ c (Proc.devRef .tc Cert.KernelIdeal.main_v20) : FVec Ideal Cert.KernelIdeal.S850000x128 .f32)
      = (Cert.ReferenceIdeal.Stages.vM0 (F := Ideal) (StableHlo.launchContents m' c) (Proc.devRef .tc Cert.ReferenceIdeal.main_v33) : FVec Ideal Cert.KernelIdeal.S850000x128 .f32) := by

  have h6 : Cert.ReferenceIdeal.Stages.vG0 (F := Ideal) (StableHlo.launchContents m' c) (Proc.devRef .tc Cert.ReferenceIdeal.main_arg6)
      = m ((c.tc : Thread Cert.KernelIdeal.nD Cert.KernelIdeal.τ).loc Cert.KernelIdeal.main_arg6) := by
    rw [Cert.ReferenceIdeal.Keep.vG0_arg (r := Cert.ReferenceIdeal.main_arg6) _ (by decide)]
    exact hag.2.2.2.2.2.2.1
  have h7 : Cert.ReferenceIdeal.Stages.vG0 (F := Ideal) (StableHlo.launchContents m' c) (Proc.devRef .tc Cert.ReferenceIdeal.main_arg7)
      = m ((c.tc : Thread Cert.KernelIdeal.nD Cert.KernelIdeal.τ).loc Cert.KernelIdeal.main_arg7) := by
    rw [Cert.ReferenceIdeal.Keep.vG0_arg (r := Cert.ReferenceIdeal.main_arg7) _ (by decide)]
    exact hag.2.2.2.2.2.2.2.1

  have hk : (Cert.KernelIdeal.Gen.W6 (F := Ideal) m ρ c (Proc.devRef .tc Cert.KernelIdeal.main_v20) : FVec Ideal Cert.KernelIdeal.S850000x128 .f32)
      = Cert.Spec.edgeFn (Cert.KernelIdeal.Gen.W5 (F := Ideal) m ρ c (Proc.devRef .tc Cert.KernelIdeal.main_v12) : FVec Ideal Cert.KernelIdeal.S850000x128 .f32)
          (Cert.KernelIdeal.Gen.W5 (F := Ideal) m ρ c (Proc.devRef .tc Cert.KernelIdeal.main_v13) : FVec Ideal Cert.KernelIdeal.S850000x128 .f32)
          (Cert.KernelIdeal.Gen.W5 (F := Ideal) m ρ c (Proc.devRef .tc Cert.KernelIdeal.main_v15))
          (Cert.KernelIdeal.Gen.W5 (F := Ideal) m ρ c (Proc.devRef .tc Cert.KernelIdeal.main_v17))
          (Cert.KernelIdeal.Gen.W5 (F := Ideal) m ρ c (Proc.devRef .tc Cert.KernelIdeal.main_v19)) :=
    (Cert.KernelIdeal.Gen.W6_arr m ρ c 5).trans (Cert.KernelIdeal.RegionEdge.region1_value (Cert.KernelIdeal.Gen.V5 m ρ) c)
  rw [hk, hc, hr]

  show _ = StableHlo.after Cert.ReferenceIdeal.Stages.sM0 (Cert.ReferenceIdeal.Stages.vG0 (F := Ideal) (StableHlo.launchContents m' c)) (Proc.devRef .tc Cert.ReferenceIdeal.main_v33)
  generalize Cert.ReferenceIdeal.Stages.vG0 (F := Ideal) (StableHlo.launchContents m' c) = VG at h6 h7 ⊢

  kread
  rw [h6, h7]
  generalize VG (Proc.devRef .tc Cert.ReferenceIdeal.main_v17) = A
  generalize VG (Proc.devRef .tc Cert.ReferenceIdeal.main_v24) = B
  generalize m ((c.tc : Thread Cert.KernelIdeal.nD Cert.KernelIdeal.τ).loc Cert.KernelIdeal.main_arg6) = We
  generalize m ((c.tc : Thread Cert.KernelIdeal.nD Cert.KernelIdeal.τ).loc Cert.KernelIdeal.main_arg7) = be
  exact msg_pure 0 (by decide) A B We be _ _ _ _ _ _ _ _ _ _ _ none .single

set_option maxHeartbeats 2000000 in

theorem sim_M1
    (hc : (Cert.KernelIdeal.Gen.W15 (F := Ideal) m ρ c (Proc.devRef .tc Cert.KernelIdeal.main_v61) : FVec Ideal Cert.KernelIdeal.S850000x128 .f32)
      = (Cert.ReferenceIdeal.Stages.vG1 (F := Ideal) (StableHlo.launchContents m' c) (Proc.devRef .tc Cert.ReferenceIdeal.main_v87) : FVec Ideal Cert.KernelIdeal.S850000x128 .f32))
    (hr : (Cert.KernelIdeal.Gen.W15 (F := Ideal) m ρ c (Proc.devRef .tc Cert.KernelIdeal.main_v62) : FVec Ideal Cert.KernelIdeal.S850000x128 .f32)
      = (Cert.ReferenceIdeal.Stages.vG1 (F := Ideal) (StableHlo.launchContents m' c) (Proc.devRef .tc Cert.ReferenceIdeal.main_v94) : FVec Ideal Cert.KernelIdeal.S850000x128 .f32)) :
    (Cert.KernelIdeal.Gen.W16 (F := Ideal) m ρ c (Proc.devRef .tc Cert.KernelIdeal.main_v69) : FVec Ideal Cert.KernelIdeal.S850000x128 .f32)
      = (Cert.ReferenceIdeal.Stages.vM1 (F := Ideal) (StableHlo.launchContents m' c) (Proc.devRef .tc Cert.ReferenceIdeal.main_v103) : FVec Ideal Cert.KernelIdeal.S850000x128 .f32) := by

  have h6 : Cert.ReferenceIdeal.Stages.vG1 (F := Ideal) (StableHlo.launchContents m' c) (Proc.devRef .tc Cert.ReferenceIdeal.main_arg6)
      = m ((c.tc : Thread Cert.KernelIdeal.nD Cert.KernelIdeal.τ).loc Cert.KernelIdeal.main_arg6) := by
    rw [Cert.ReferenceIdeal.Keep.vG1_arg (r := Cert.ReferenceIdeal.main_arg6) _ (by decide)]
    exact hag.2.2.2.2.2.2.1
  have h7 : Cert.ReferenceIdeal.Stages.vG1 (F := Ideal) (StableHlo.launchContents m' c) (Proc.devRef .tc Cert.ReferenceIdeal.main_arg7)
      = m ((c.tc : Thread Cert.KernelIdeal.nD Cert.KernelIdeal.τ).loc Cert.KernelIdeal.main_arg7) := by
    rw [Cert.ReferenceIdeal.Keep.vG1_arg (r := Cert.ReferenceIdeal.main_arg7) _ (by decide)]
    exact hag.2.2.2.2.2.2.2.1

  have hk : (Cert.KernelIdeal.Gen.W16 (F := Ideal) m ρ c (Proc.devRef .tc Cert.KernelIdeal.main_v69) : FVec Ideal Cert.KernelIdeal.S850000x128 .f32)
      = Cert.Spec.edgeFn (Cert.KernelIdeal.Gen.W15 (F := Ideal) m ρ c (Proc.devRef .tc Cert.KernelIdeal.main_v61) : FVec Ideal Cert.KernelIdeal.S850000x128 .f32)
          (Cert.KernelIdeal.Gen.W15 (F := Ideal) m ρ c (Proc.devRef .tc Cert.KernelIdeal.main_v62) : FVec Ideal Cert.KernelIdeal.S850000x128 .f32)
          (Cert.KernelIdeal.Gen.W15 (F := Ideal) m ρ c (Proc.devRef .tc Cert.KernelIdeal.main_v64))
          (Cert.KernelIdeal.Gen.W15 (F := Ideal) m ρ c (Proc.devRef .tc Cert.KernelIdeal.main_v66))
          (Cert.KernelIdeal.Gen.W15 (F := Ideal) m ρ c (Proc.devRef .tc Cert.KernelIdeal.main_v68)) :=
    (Cert.KernelIdeal.Gen.W16_arr m ρ c 5).trans (Cert.KernelIdeal.RegionEdge.region4_value (Cert.KernelIdeal.Gen.V15 m ρ) c)
  rw [hk, hc, hr]

  show _ = StableHlo.after Cert.ReferenceIdeal.Stages.sM1 (Cert.ReferenceIdeal.Stages.vG1 (F := Ideal) (StableHlo.launchContents m' c)) (Proc.devRef .tc Cert.ReferenceIdeal.main_v103)
  generalize Cert.ReferenceIdeal.Stages.vG1 (F := Ideal) (StableHlo.launchContents m' c) = VG at h6 h7 ⊢

  kread
  rw [h6, h7]
  generalize VG (Proc.devRef .tc Cert.ReferenceIdeal.main_v87) = A
  generalize VG (Proc.devRef .tc Cert.ReferenceIdeal.main_v94) = B
  generalize m ((c.tc : Thread Cert.KernelIdeal.nD Cert.KernelIdeal.τ).loc Cert.KernelIdeal.main_arg6) = We
  generalize m ((c.tc : Thread Cert.KernelIdeal.nD Cert.KernelIdeal.τ).loc Cert.KernelIdeal.main_arg7) = be
  exact msg_pure 1 (by decide) A B We be _ _ _ _ _ _ _ _ _ _ _ none .single

set_option maxHeartbeats 2000000 in

theorem sim_M2
    (hc : (Cert.KernelIdeal.Gen.W25 (F := Ideal) m ρ c (Proc.devRef .tc Cert.KernelIdeal.main_v110) : FVec Ideal Cert.KernelIdeal.S850000x128 .f32)
      = (Cert.ReferenceIdeal.Stages.vG2 (F := Ideal) (StableHlo.launchContents m' c) (Proc.devRef .tc Cert.ReferenceIdeal.main_v157) : FVec Ideal Cert.KernelIdeal.S850000x128 .f32))
    (hr : (Cert.KernelIdeal.Gen.W25 (F := Ideal) m ρ c (Proc.devRef .tc Cert.KernelIdeal.main_v111) : FVec Ideal Cert.KernelIdeal.S850000x128 .f32)
      = (Cert.ReferenceIdeal.Stages.vG2 (F := Ideal) (StableHlo.launchContents m' c) (Proc.devRef .tc Cert.ReferenceIdeal.main_v164) : FVec Ideal Cert.KernelIdeal.S850000x128 .f32)) :
    (Cert.KernelIdeal.Gen.W26 (F := Ideal) m ρ c (Proc.devRef .tc Cert.KernelIdeal.main_v118) : FVec Ideal Cert.KernelIdeal.S850000x128 .f32)
      = (Cert.ReferenceIdeal.Stages.vM2 (F := Ideal) (StableHlo.launchContents m' c) (Proc.devRef .tc Cert.ReferenceIdeal.main_v173) : FVec Ideal Cert.KernelIdeal.S850000x128 .f32) := by

  have h6 : Cert.ReferenceIdeal.Stages.vG2 (F := Ideal) (StableHlo.launchContents m' c) (Proc.devRef .tc Cert.ReferenceIdeal.main_arg6)
      = m ((c.tc : Thread Cert.KernelIdeal.nD Cert.KernelIdeal.τ).loc Cert.KernelIdeal.main_arg6) := by
    rw [Cert.ReferenceIdeal.Keep.vG2_arg (r := Cert.ReferenceIdeal.main_arg6) _ (by decide)]
    exact hag.2.2.2.2.2.2.1
  have h7 : Cert.ReferenceIdeal.Stages.vG2 (F := Ideal) (StableHlo.launchContents m' c) (Proc.devRef .tc Cert.ReferenceIdeal.main_arg7)
      = m ((c.tc : Thread Cert.KernelIdeal.nD Cert.KernelIdeal.τ).loc Cert.KernelIdeal.main_arg7) := by
    rw [Cert.ReferenceIdeal.Keep.vG2_arg (r := Cert.ReferenceIdeal.main_arg7) _ (by decide)]
    exact hag.2.2.2.2.2.2.2.1

  have hk : (Cert.KernelIdeal.Gen.W26 (F := Ideal) m ρ c (Proc.devRef .tc Cert.KernelIdeal.main_v118) : FVec Ideal Cert.KernelIdeal.S850000x128 .f32)
      = Cert.Spec.edgeFn (Cert.KernelIdeal.Gen.W25 (F := Ideal) m ρ c (Proc.devRef .tc Cert.KernelIdeal.main_v110) : FVec Ideal Cert.KernelIdeal.S850000x128 .f32)
          (Cert.KernelIdeal.Gen.W25 (F := Ideal) m ρ c (Proc.devRef .tc Cert.KernelIdeal.main_v111) : FVec Ideal Cert.KernelIdeal.S850000x128 .f32)
          (Cert.KernelIdeal.Gen.W25 (F := Ideal) m ρ c (Proc.devRef .tc Cert.KernelIdeal.main_v113))
          (Cert.KernelIdeal.Gen.W25 (F := Ideal) m ρ c (Proc.devRef .tc Cert.KernelIdeal.main_v115))
          (Cert.KernelIdeal.Gen.W25 (F := Ideal) m ρ c (Proc.devRef .tc Cert.KernelIdeal.main_v117)) :=
    (Cert.KernelIdeal.Gen.W26_arr m ρ c 5).trans (Cert.KernelIdeal.RegionEdge.region7_value (Cert.KernelIdeal.Gen.V25 m ρ) c)
  rw [hk, hc, hr]

  show _ = StableHlo.after Cert.ReferenceIdeal.Stages.sM2 (Cert.ReferenceIdeal.Stages.vG2 (F := Ideal) (StableHlo.launchContents m' c)) (Proc.devRef .tc Cert.ReferenceIdeal.main_v173)
  generalize Cert.ReferenceIdeal.Stages.vG2 (F := Ideal) (StableHlo.launchContents m' c) = VG at h6 h7 ⊢

  kread
  rw [h6, h7]
  generalize VG (Proc.devRef .tc Cert.ReferenceIdeal.main_v157) = A
  generalize VG (Proc.devRef .tc Cert.ReferenceIdeal.main_v164) = B
  generalize m ((c.tc : Thread Cert.KernelIdeal.nD Cert.KernelIdeal.τ).loc Cert.KernelIdeal.main_arg6) = We
  generalize m ((c.tc : Thread Cert.KernelIdeal.nD Cert.KernelIdeal.τ).loc Cert.KernelIdeal.main_arg7) = be
  exact msg_pure 2 (by decide) A B We be _ _ _ _ _ _ _ _ _ _ _ none .single

end

end Cert.Bridge.SimM

end
-- ==== Proof.RegionAct.lean ====
import proofs.«427610_j64510408786513_1_alg».proof.Proof.Gen.KernelIdeal.Frame
import proofs.«427610_j64510408786513_1_alg».proof.Proof.Spec
import proofs.«427610_j64510408786513_1_alg».proof.Proof.LibPlainDot
import proofs.«427610_j64510408786513_1_alg».proof.Proof.LibSlice
import Idealize.ShloMosaic.Lib.Pipeline.Value
import Idealize.ShloMosaic.Lib.ValueIdx

noncomputable section

namespace Cert.KernelIdeal.RegionAct

open Cert.KernelIdeal Cert.KernelIdeal.Gen Idealize.ShloMosaic Idealize.ShloMosaic.TcCoe Idealize.SL.Sem
open Idealize.ShloMosaic.ValueIdx
open Idealize.ShloMosaic.Pipeline (Dat)

theorem prod_apply (x0 : Vec Ideal S5000x128 .f32) (x1 : Vec Ideal S128x128 .f32) (p : Fin 5000) (q : Fin 128) :
    matmul dot_S5000x128_S128x128_S5000x128_1_0_0_1_n_n none (truncf .bf16 x0 bitsLt_bf16_f32)
        (truncf .bf16 x1 bitsLt_bf16_f32) (constant (F := Ideal) S5000x128 .f32 0x00000000#32) (ix2 p q)
      = ∑ k : Fin 128, x0 (ix2 p k) * x1 (ix2 k q) := by
  have h := Cert.LibPlainDot.matmul_zero_apply dot_S5000x128_S128x128_S5000x128_1_0_0_1_n_n_wf none
    (truncf .bf16 x0 bitsLt_bf16_f32) (truncf .bf16 x1 bitsLt_bf16_f32) p q
  rw [Cert.LibSlice.truncf_ideal, Cert.LibSlice.truncf_ideal] at h
  exact h

theorem bias_apply (x2 : Vec Ideal S128 .f32) (p : Fin 5000) (q : Fin 128) :
    broadcastTo S5000x128 (shapeCast S1x128 x2 shapeCasts_S128_S1x128) broadcasts_S1x128_S5000x128 (ix2 p q)
      = x2 (ix1 q) := by
  rw [broadcastTo_apply _ broadcasts_S1x128_S5000x128 (ix2 p q) (ix2 (0 : Fin 1) q)
    (fun a => match a with | ⟨0, _⟩ => rfl | ⟨1, _⟩ => rfl)]
  exact Cert.LibSlice.row_of_vec_apply x2 shapeCasts_S128_S1x128 q

theorem pay2_apply (x0 : Vec Ideal S5000x128 .f32) (x1 : Vec Ideal S128x128 .f32) (x2 : Vec Ideal S128 .f32)
    (p : Fin 5000) (q : Fin 128) :
    k2_pay1 (F := Ideal) x0 x1 x2 (ix2 p q)
      = Cert.Spec.lrelu ((∑ k : Fin 128, x0 (ix2 p k) * x1 (ix2 k q)) + x2 (ix1 q)) := by
  unfold k2_pay1
  simp only [shapeCast_self, select_apply, cmpf_apply, mulf_apply, addf_apply, broadcast_apply]
  rw [prod_apply, bias_apply]
  rfl

theorem pay5_apply (x0 : Vec Ideal S5000x128 .f32) (x1 : Vec Ideal S128x128 .f32) (x2 : Vec Ideal S128 .f32)
    (p : Fin 5000) (q : Fin 128) :
    k5_pay1 (F := Ideal) x0 x1 x2 (ix2 p q)
      = Cert.Spec.lrelu ((∑ k : Fin 128, x0 (ix2 p k) * x1 (ix2 k q)) + x2 (ix1 q)) :=
  pay2_apply x0 x1 x2 p q

theorem pay8_apply (x0 : Vec Ideal S5000x128 .f32) (x1 : Vec Ideal S128x128 .f32) (x2 : Vec Ideal S128 .f32)
    (p : Fin 5000) (q : Fin 128) :
    k8_pay1 (F := Ideal) x0 x1 x2 (ix2 p q)
      = Cert.Spec.lrelu ((∑ k : Fin 128, x0 (ix2 p k) * x1 (ix2 k q)) + x2 (ix1 q)) :=
  pay2_apply x0 x1 x2 p q

theorem zeros2 : (![0, 0] : Fin 2 → Nat) = fun _ => 0 := funext fun a => by fin_cases a <;> rfl
theorem zeros1 : (![0] : Fin 1 → Nat) = fun _ => 0 := funext fun a => by fin_cases a <;> rfl

theorem act_block (X : FVec Ideal ⟨2, ![50000, 128]⟩ .f32) (W : FVec Ideal ⟨2, ![128, 128]⟩ .f32)
    (B : FVec Ideal ⟨1, ![128]⟩ .f32) (x0 : Vec Ideal S5000x128 .f32) (x1 : Vec Ideal S128x128 .f32)
    (x2 : Vec Ideal S128 .f32) (i : S50000x128.Idx) (p : Fin 5000) (q : Fin 128)
    (hx : ∀ k : Fin 128, x0 (ix2 p k) = X (ix2 (i 0) k)) (hw : ∀ k : Fin 128, x1 (ix2 k q) = W (ix2 k (i 1)))
    (hb : x2 (ix1 q) = B (ix1 (i 1))) :
    Cert.Spec.lrelu ((∑ k : Fin 128, x0 (ix2 p k) * x1 (ix2 k q)) + x2 (ix1 q)) = Cert.Spec.actFn X W B i := by
  show _ = Cert.Spec.lrelu (Cert.Spec.denseAt X W B (i 0) (i 1))
  unfold Cert.Spec.denseAt
  simp only [hx, hw, hb]

section Region2

variable (V : (c : Dev nD) → (b : Ref sig .tc) → Buf (Elt Ideal) ((c : Thread nD τ).loc b))

theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem flushed2_eq (c : Dev nD) (t : Fin cfg2.N) :
    (dat2 (F := Ideal) V c).flushed 3 t
      = ((cfg2.win 3).blk t).view.read (Elt Ideal)
          (Cert.Spec.actFn (V c main_v28) (V c main_v30) (V c main_v32)) := by
  show (cfg2.win 3).cut (grid2.coords t) ((dat2 V c).after 3 t) = _
  rw [after2_3]
  unfold out2_3
  rw [View.canon_unit_zero zeros2]
  simp only [View.ld_unit_zero (S := S5000x128) zeros2, View.ld_unit_zero (S := S128x128) zeros2,
    View.ld_unit_zero (S := S128) zeros1]
  obtain ⟨e0, e1, e2, e3, e4, e5, e6⟩ := idx2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = Cert.Spec.actFn (V c main_v28) (V c main_v30) (V c main_v32) (((cfg2.win 3).blk t).view.emb (ix2 p q))
  rw [pay2_apply]
  refine act_block _ _ _ _ _ _ _ p q (fun k => ?_) (fun k => ?_) ?_

  · show V c main_v28 (((cfg2.win 0).blk t).view.emb (ix2 p k)) = _
    refine congrArg (V c main_v28) (funext fun a => Fin.ext ?_)
    match a with
    | ⟨0, _⟩ =>
      show win2_0.index t (0 : Fin 2) * 5000 + 1 * p.val = win2_3.index t (0 : Fin 2) * 5000 + 1 * p.val
      omega
    | ⟨1, _⟩ =>
      show win2_0.index t (1 : Fin 2) * 128 + 1 * k.val = k.val
      omega
  · show V c main_v30 (((cfg2.win 1).blk t).view.emb (ix2 k q)) = _
    refine congrArg (V c main_v30) (funext fun a => Fin.ext ?_)
    match a with
    | ⟨0, _⟩ =>
      show win2_1.index t (0 : Fin 2) * 128 + 1 * k.val = k.val
      omega
    | ⟨1, _⟩ =>
      show win2_1.index t (1 : Fin 2) * 128 + 1 * q.val = win2_3.index t (1 : Fin 2) * 128 + 1 * q.val
      omega
  · show V c main_v32 (((cfg2.win 2).blk t).view.emb (ix1 q)) = _
    refine congrArg (V c main_v32) (funext fun a => Fin.ext ?_)
    match a with
    | ⟨0, _⟩ =>
      show win2_2.index t (0 : Fin 1) * 128 + 1 * q.val = win2_3.index t (1 : Fin 2) * 128 + 1 * q.val
      omega

theorem mem_blk2 (t : Fin cfg2.N) (i : S50000x128.Idx) :
    i ∈ ((cfg2.win 3).blk t).view.set
      ↔ ∀ a : Fin 2, win2_3.index t a * S5000x128.size a ≤ (i a).val
          ∧ (i a).val < win2_3.index t a * S5000x128.size a + S5000x128.size a := by
  show i ∈ ((View.whole main_v33).slice (win2_3.rect t)).set ↔ _
  rw [View.set_slice_whole, Rect.mem_set_unit]
  exact Iff.rfl

theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 5000 < grid2.N := by rw [N_2]; omega
  obtain ⟨e0, e1, e2, e3, e4, e5, e6⟩ := idx2 ⟨(i 0).val / 5000, hN⟩
  refine ⟨⟨(i 0).val / 5000, hN⟩, flush2_3 _, ?_⟩
  rw [mem_blk2]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    have e5' : win2_3.index ⟨(i 0).val / 5000, hN⟩ (0 : Fin 2) = (i 0).val / 5000 := e5
    omega
  | ⟨1, _⟩ =>
    show win2_3.index ⟨(i 0).val / 5000, hN⟩ (1 : Fin 2) * 128 ≤ (i 1).val
      ∧ (i 1).val < win2_3.index ⟨(i 0).val / 5000, hN⟩ (1 : Fin 2) * 128 + 128
    omega

theorem region2_value (c : Dev nD) :
    (dat2 (F := Ideal) V c).arrAt 3 cfg2.N
      = Cert.Spec.actFn (V c main_v28) (V c main_v30) (V c main_v32) :=
  (dat2 (F := Ideal) V c).arrAt_eq_of_cover 3 _ (fun t _ => flushed2_eq V c t) cover2

end Region2

section Region5

variable (V : (c : Dev nD) → (b : Ref sig .tc) → Buf (Elt Ideal) ((c : Thread nD τ).loc b))

theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

theorem flushed5_eq (c : Dev nD) (t : Fin cfg5.N) :
    (dat5 (F := Ideal) V c).flushed 3 t
      = ((cfg5.win 3).blk t).view.read (Elt Ideal)
          (Cert.Spec.actFn (V c main_v77) (V c main_v79) (V c main_v81)) := by
  show (cfg5.win 3).cut (grid5.coords t) ((dat5 V c).after 3 t) = _
  rw [after5_3]
  unfold out5_3
  rw [View.canon_unit_zero zeros2]
  simp only [View.ld_unit_zero (S := S5000x128) zeros2, View.ld_unit_zero (S := S128x128) zeros2,
    View.ld_unit_zero (S := S128) zeros1]
  obtain ⟨e0, e1, e2, e3, e4, e5, e6⟩ := idx5 t
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (ix2 p q)
    = Cert.Spec.actFn (V c main_v77) (V c main_v79) (V c main_v81) (((cfg5.win 3).blk t).view.emb (ix2 p q))
  rw [pay5_apply]
  refine act_block _ _ _ _ _ _ _ p q (fun k => ?_) (fun k => ?_) ?_

  · show V c main_v77 (((cfg5.win 0).blk t).view.emb (ix2 p k)) = _
    refine congrArg (V c main_v77) (funext fun a => Fin.ext ?_)
    match a with
    | ⟨0, _⟩ =>
      show win5_0.index t (0 : Fin 2) * 5000 + 1 * p.val = win5_3.index t (0 : Fin 2) * 5000 + 1 * p.val
      omega
    | ⟨1, _⟩ =>
      show win5_0.index t (1 : Fin 2) * 128 + 1 * k.val = k.val
      omega
  · show V c main_v79 (((cfg5.win 1).blk t).view.emb (ix2 k q)) = _
    refine congrArg (V c main_v79) (funext fun a => Fin.ext ?_)
    match a with
    | ⟨0, _⟩ =>
      show win5_1.index t (0 : Fin 2) * 128 + 1 * k.val = k.val
      omega
    | ⟨1, _⟩ =>
      show win5_1.index t (1 : Fin 2) * 128 + 1 * q.val = win5_3.index t (1 : Fin 2) * 128 + 1 * q.val
      omega
  · show V c main_v81 (((cfg5.win 2).blk t).view.emb (ix1 q)) = _
    refine congrArg (V c main_v81) (funext fun a => Fin.ext ?_)
    match a with
    | ⟨0, _⟩ =>
      show win5_2.index t (0 : Fin 1) * 128 + 1 * q.val = win5_3.index t (1 : Fin 2) * 128 + 1 * q.val
      omega

theorem mem_blk5 (t : Fin cfg5.N) (i : S50000x128.Idx) :
    i ∈ ((cfg5.win 3).blk t).view.set
      ↔ ∀ a : Fin 2, win5_3.index t a * S5000x128.size a ≤ (i a).val
          ∧ (i a).val < win5_3.index t a * S5000x128.size a + S5000x128.size a := by
  show i ∈ ((View.whole main_v82).slice (win5_3.rect t)).set ↔ _
  rw [View.set_slice_whole, Rect.mem_set_unit]
  exact Iff.rfl

theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : (i 0).val / 5000 < grid5.N := by rw [N_5]; omega
  obtain ⟨e0, e1, e2, e3, e4, e5, e6⟩ := idx5 ⟨(i 0).val / 5000, hN⟩
  refine ⟨⟨(i 0).val / 5000, hN⟩, flush5_3 _, ?_⟩
  rw [mem_blk5]
  intro a
  match a with
  | ⟨0, _⟩ =>
    show win5_3.index ⟨(i 0).val / 5000, hN⟩ (0 : Fin 2) * 5000 ≤ (i 0).val
      ∧ (i 0).val < win5_3.index ⟨(i 0).val / 5000, hN⟩ (0 : Fin 2) * 5000 + 5000
    have e5' : win5_3.index ⟨(i 0).val / 5000, hN⟩ (0 : Fin 2) = (i 0).val / 5000 := e5
    omega
  | ⟨1, _⟩ =>
    show win5_3.index ⟨(i 0).val / 5000, hN⟩ (1 : Fin 2) * 128 ≤ (i 1).val
      ∧ (i 1).val < win5_3.index ⟨(i 0).val / 5000, hN⟩ (1 : Fin 2) * 128 + 128
    omega

theorem region5_value (c : Dev nD) :
    (dat5 (F := Ideal) V c).arrAt 3 cfg5.N
      = Cert.Spec.actFn (V c main_v77) (V c main_v79) (V c main_v81) :=
  (dat5 (F := Ideal) V c).arrAt_eq_of_cover 3 _ (fun t _ => flushed5_eq V c t) cover5

end Region5

section Region8

variable (V : (c : Dev nD) → (b : Ref sig .tc) → Buf (Elt Ideal) ((c : Thread nD τ).loc b))

theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = t.val ∧ win8_3.index t (1 : Fin 2) = 0 :=
  (by decide +kernel : ∀ t : Fin grid8.N, _)

theorem flushed8_eq (c : Dev nD) (t : Fin cfg8.N) :
    (dat8 (F := Ideal) V c).flushed 3 t
      = ((cfg8.win 3).blk t).view.read (Elt Ideal)
          (Cert.Spec.actFn (V c main_v126) (V c main_v128) (V c main_v130)) := by
  show (cfg8.win 3).cut (grid8.coords t) ((dat8 V c).after 3 t) = _
  rw [after8_3]
  unfold out8_3
  rw [View.canon_unit_zero zeros2]
  simp only [View.ld_unit_zero (S := S5000x128) zeros2, View.ld_unit_zero (S := S128x128) zeros2,
    View.ld_unit_zero (S := S128) zeros1]
  obtain ⟨e0, e1, e2, e3, e4, e5, e6⟩ := idx8 t
  funext j
  obtain ⟨p, q, rfl⟩ : ∃ (p : Fin 5000) (q : Fin 128), j = ix2 p q := ⟨j 0, j 1, eq_ix2 j⟩
  show k8_pay1 (iblk8 V c 0 t) (iblk8 V c 1 t) (iblk8 V c 2 t) (ix2 p q)
    = Cert.Spec.actFn (V c main_v126) (V c main_v128) (V c main_v130) (((cfg8.win 3).blk t).view.emb (ix2 p q))
  rw [pay8_apply]
  refine act_block _ _ _ _ _ _ _ p q (fun k => ?_) (fun k => ?_) ?_

  · show V c main_v126 (((cfg8.win 0).blk t).view.emb (ix2 p k)) = _
    refine congrArg (V c main_v126) (funext fun a => Fin.ext ?_)
    match a with
    | ⟨0, _⟩ =>
      show win8_0.index t (0 : Fin 2) * 5000 + 1 * p.val = win8_3.index t (0 : Fin 2) * 5000 + 1 * p.val
      omega
    | ⟨1, _⟩ =>
      show win8_0.index t (1 : Fin 2) * 128 + 1 * k.val = k.val
      omega
  · show V c main_v128 (((cfg8.win 1).blk t).view.emb (ix2 k q)) = _
    refine congrArg (V c main_v128) (funext fun a => Fin.ext ?_)
    match a with
    | ⟨0, _⟩ =>
      show win8_1.index t (0 : Fin 2) * 128 + 1 * k.val = k.val
      omega
    | ⟨1, _⟩ =>
      show win8_1.index t (1 : Fin 2) * 128 + 1 * q.val = win8_3.index t (1 : Fin 2) * 128 + 1 * q.val
      omega
  · show V c main_v130 (((cfg8.win 2).blk t).view.emb (ix1 q)) = _
    refine congrArg (V c main_v130) (funext fun a => Fin.ext ?_)
    match a with
    | ⟨0, _⟩ =>
      show win8_2.index t (0 : Fin 1) * 128 + 1 * q.val = win8_3.index t (1 : Fin 2) * 128 + 1 * q.val
      omega

theorem mem_blk8 (t : Fin cfg8.N) (i : S50000x128.Idx) :
    i ∈ ((cfg8.win 3).blk t).view.set
      ↔ ∀ a : Fin 2, win8_3.index t a * S5000x128.size a ≤ (i a).val
          ∧ (i a).val < win8_3.index t a * S5000x128.size a + S5000x128.size a := by
  show i ∈ ((View.whole main_v131).slice (win8_3.rect t)).set ↔ _
  rw [View.set_slice_whole, Rect.mem_set_unit]
  exact Iff.rfl

theorem cover8 (i : S50000x128.Idx) :
    ∃ t : Fin cfg8.N, (cfg8.win 3).flush t = true ∧ i ∈ ((cfg8.win 3).blk t).view.set := by
  have hi0 : (i 0).val < 50000 := (i 0).isLt
  have hi1 : (i 1).val < 128 := (i 1).isLt
  have hN : (i 0).val / 5000 < grid8.N := by rw [N_8]; omega
  obtain ⟨e0, e1, e2, e3, e4, e5, e6⟩ := idx8 ⟨(i 0).val / 5000, hN⟩
  refine ⟨⟨(i 0).val / 5000, hN⟩, flush8_3 _, ?_⟩
  rw [mem_blk8]
  intro a
  match a with
  | ⟨0, _⟩ =>
    show win8_3.index ⟨(i 0).val / 5000, hN⟩ (0 : Fin 2) * 5000 ≤ (i 0).val
      ∧ (i 0).val < win8_3.index ⟨(i 0).val / 5000, hN⟩ (0 : Fin 2) * 5000 + 5000
    have e5' : win8_3.index ⟨(i 0).val / 5000, hN⟩ (0 : Fin 2) = (i 0).val / 5000 := e5
    omega
  | ⟨1, _⟩ =>
    show win8_3.index ⟨(i 0).val / 5000, hN⟩ (1 : Fin 2) * 128 ≤ (i 1).val
      ∧ (i 1).val < win8_3.index ⟨(i 0).val / 5000, hN⟩ (1 : Fin 2) * 128 + 128
    omega

theorem region8_value (c : Dev nD) :
    (dat8 (F := Ideal) V c).arrAt 3 cfg8.N
      = Cert.Spec.actFn (V c main_v126) (V c main_v128) (V c main_v130) :=
  (dat8 (F := Ideal) V c).arrAt_eq_of_cover 3 _ (fun t _ => flushed8_eq V c t) cover8

end Region8

end Cert.KernelIdeal.RegionAct

end
-- ==== Proof.SimD.lean ====
import proofs.«427610_j64510408786513_1_alg».proof.Proof.Ctx
import proofs.«427610_j64510408786513_1_alg».proof.Proof.Read
import proofs.«427610_j64510408786513_1_alg».proof.Proof.Spec
import proofs.«427610_j64510408786513_1_alg».proof.Proof.LibPlainDot
import proofs.«427610_j64510408786513_1_alg».proof.Proof.RegionAct
import proofs.«427610_j64510408786513_1_alg».proof.Proof.RefStages
import proofs.«427610_j64510408786513_1_alg».proof.Proof.RefKeep
import Idealize.ShloMosaic.Lib.Pipeline.Value
import Idealize.ShloMosaic.Lib.IdealHost

set_option maxRecDepth 16384

noncomputable section

namespace Cert.Bridge.SimD

open Idealize.ShloMosaic Idealize.ShloMosaic.TcCoe Idealize.SL.Sem Idealize.ShloMosaic.ValueIdx

def hostAct {R : Nat}
    (wf : DotDims.WF ⟨2, ![R, 128]⟩ ⟨2, ![128, 128]⟩ ⟨2, ![R, 128]⟩ [1] [0] [0] [1] [] [])
    (hb1 : (⟨1, ![128]⟩ : Shape).BroadcastsInDim ⟨2, ![1, 128]⟩ ![1])
    (hb2 : (⟨2, ![1, 128]⟩ : Shape).BroadcastsInDim ⟨2, ![R, 128]⟩ ![0, 1])
    (hb0 : (⟨0, ![]⟩ : Shape).BroadcastsInDim ⟨2, ![R, 128]⟩ ![])
    (x : FVec Ideal ⟨2, ![R, 128]⟩ .f32) (w : FVec Ideal ⟨2, ![128, 128]⟩ .f32) (b : FVec Ideal ⟨1, ![128]⟩ .f32) :
    FVec Ideal ⟨2, ![R, 128]⟩ .f32 :=
  select
    (cmpf .oge
      (addf (Host.dotGeneral (Cert.LibPlainDot.plainDims R 128 128 wf) none x w)
        (broadcastInDim ⟨2, ![R, 128]⟩ ![0, 1] hb2 (broadcastInDim ⟨2, ![1, 128]⟩ ![1] hb1 b)))
      (broadcastInDim ⟨2, ![R, 128]⟩ ![] hb0 (constant (F := Ideal) ⟨0, ![]⟩ .f32 0x00000000#32)))
    (addf (Host.dotGeneral (Cert.LibPlainDot.plainDims R 128 128 wf) none x w)
      (broadcastInDim ⟨2, ![R, 128]⟩ ![0, 1] hb2 (broadcastInDim ⟨2, ![1, 128]⟩ ![1] hb1 b)))
    (mulf (broadcastInDim ⟨2, ![R, 128]⟩ ![] hb0 (constant (F := Ideal) ⟨0, ![]⟩ .f32 0x3E4CCCCD#32))
      (addf (Host.dotGeneral (Cert.LibPlainDot.plainDims R 128 128 wf) none x w)
        (broadcastInDim ⟨2, ![R, 128]⟩ ![0, 1] hb2 (broadcastInDim ⟨2, ![1, 128]⟩ ![1] hb1 b))))

-- Entry by entry, the leaky rectifier of x · w + b is the host's choice between that sum and 0.2 times it.
theorem act_eq_host {R : Nat}
    (wf : DotDims.WF ⟨2, ![R, 128]⟩ ⟨2, ![128, 128]⟩ ⟨2, ![R, 128]⟩ [1] [0] [0] [1] [] [])
    (hb1 : (⟨1, ![128]⟩ : Shape).BroadcastsInDim ⟨2, ![1, 128]⟩ ![1])
    (hb2 : (⟨2, ![1, 128]⟩ : Shape).BroadcastsInDim ⟨2, ![R, 128]⟩ ![0, 1])
    (hb0 : (⟨0, ![]⟩ : Shape).BroadcastsInDim ⟨2, ![R, 128]⟩ ![])
    (x : FVec Ideal ⟨2, ![R, 128]⟩ .f32) (w : FVec Ideal ⟨2, ![128, 128]⟩ .f32) (b : FVec Ideal ⟨1, ![128]⟩ .f32) :
    Cert.Spec.actFn x w b = hostAct wf hb1 hb2 hb0 x w b := by
  funext i
  obtain ⟨p, q, rfl⟩ : ∃ p q, i = ix2 p q := ⟨i 0, i 1, eq_ix2 i⟩

  have ht : addf (Host.dotGeneral (Cert.LibPlainDot.plainDims R 128 128 wf) none x w)
      (broadcastInDim ⟨2, ![R, 128]⟩ ![0, 1] hb2 (broadcastInDim ⟨2, ![1, 128]⟩ ![1] hb1 b)) (ix2 p q)
        = Cert.Spec.denseAt x w b p q := by
    rw [addf_apply, Cert.LibSlice.bias_rows_apply hb1 hb2 b p q]
    show FloatOps.dotGeneral (Cert.LibPlainDot.plainDims R 128 128 wf) none .single x w (ix2 p q) + b (ix1 q) = _
    rw [Cert.LibPlainDot.dotGeneral_apply wf none .single x w p q]
    rfl
  unfold hostAct
  rw [select_apply, cmpf_apply, mulf_apply, ht, broadcastInDim_scalar_apply, broadcastInDim_scalar_apply,
    constant_apply, constant_apply]
  rfl

theorem act_eq_host_of {R : Nat}
    (wf : DotDims.WF ⟨2, ![R, 128]⟩ ⟨2, ![128, 128]⟩ ⟨2, ![R, 128]⟩ [1] [0] [0] [1] [] [])
    (hb1 : (⟨1, ![128]⟩ : Shape).BroadcastsInDim ⟨2, ![1, 128]⟩ ![1])
    (hb2 : (⟨2, ![1, 128]⟩ : Shape).BroadcastsInDim ⟨2, ![R, 128]⟩ ![0, 1])
    (hb0 : (⟨0, ![]⟩ : Shape).BroadcastsInDim ⟨2, ![R, 128]⟩ ![])
    {x x' : FVec Ideal ⟨2, ![R, 128]⟩ .f32} {w w' : FVec Ideal ⟨2, ![128, 128]⟩ .f32} {b b' : FVec Ideal ⟨1, ![128]⟩ .f32}
    (hx : x = x') (hw : w = w') (hb : b = b') :
    Cert.Spec.actFn x w b = hostAct wf hb1 hb2 hb0 x' w' b' := by
  subst hx hw hb
  exact act_eq_host wf hb1 hb2 hb0 x w b

section
variable (m : Cert.Bridge.KMem) (ρ : Dev Cert.KernelIdeal.nD → PrngReg) (m' : Cert.Bridge.RMem) (c : Dev Cert.KernelIdeal.nD)

theorem ref_D0 (VA : Valuation Cert.ReferenceIdeal.τ Cert.ReferenceIdeal.sig (Elt Ideal)) :
    (StableHlo.after (Cert.ReferenceIdeal.Stages.sD0 (F := Ideal)) VA (Proc.devRef .tc Cert.ReferenceIdeal.main_v54) : FVec Ideal Cert.KernelIdeal.S50000x128 .f32)
      = hostAct Cert.ReferenceIdeal.Gen.dot_S50000x128_S128x128_S50000x128_1_0_0_1_n_n_wf Cert.ReferenceIdeal.Gen.bcast_S128_S1x128_1
          Cert.ReferenceIdeal.Gen.bcast_S1x128_S50000x128_0_1 Cert.ReferenceIdeal.Gen.bcast_S_S50000x128
          (VA (Proc.devRef .tc Cert.ReferenceIdeal.main_v41) : FVec Ideal Cert.KernelIdeal.S50000x128 .f32)
          (shapeCast Cert.KernelIdeal.S128x128 (extractStridedSlice Cert.KernelIdeal.S1x128x128 ![0, 0, 0]
            (VA (Proc.devRef .tc Cert.ReferenceIdeal.main_arg8) : FVec Ideal Cert.KernelIdeal.S3x128x128 .f32)
            Cert.KernelIdeal.Gen.slices_S3x128x128_S1x128x128_0_0_0) Cert.KernelIdeal.Gen.shapeCasts_S1x128x128_S128x128)
          (shapeCast Cert.KernelIdeal.S128 (extractStridedSlice Cert.KernelIdeal.S1x128 ![0, 0]
            (VA (Proc.devRef .tc Cert.ReferenceIdeal.main_arg9) : FVec Ideal Cert.KernelIdeal.S3x128 .f32)
            Cert.KernelIdeal.Gen.slices_S3x128_S1x128_0_0) Cert.KernelIdeal.Gen.shapeCasts_S1x128_S128) := by
  walk [Cert.ReferenceIdeal.Stages.sD0, Cert.ReferenceIdeal.Stages.sD0a, Cert.ReferenceIdeal.Stages.sD0b, Cert.ReferenceIdeal.Stages.sD0c]
  rfl

theorem kern_w0 :
    (Cert.KernelIdeal.Gen.W7 (F := Ideal) m ρ c (Proc.devRef .tc Cert.KernelIdeal.main_v30) : FVec Ideal Cert.KernelIdeal.S128x128 .f32)
      = shapeCast Cert.KernelIdeal.S128x128 (extractStridedSlice Cert.KernelIdeal.S1x128x128 ![0, 0, 0]
            (m ((c.tc : Thread Cert.KernelIdeal.nD Cert.KernelIdeal.τ).loc Cert.KernelIdeal.main_arg8) : FVec Ideal Cert.KernelIdeal.S3x128x128 .f32)
            Cert.KernelIdeal.Gen.slices_S3x128x128_S1x128x128_0_0_0) Cert.KernelIdeal.Gen.shapeCasts_S1x128x128_S128x128 := by
  kread
  rfl

theorem kern_b0 :
    (Cert.KernelIdeal.Gen.W7 (F := Ideal) m ρ c (Proc.devRef .tc Cert.KernelIdeal.main_v32) : FVec Ideal Cert.KernelIdeal.S128 .f32)
      = shapeCast Cert.KernelIdeal.S128 (extractStridedSlice Cert.KernelIdeal.S1x128 ![0, 0]
            (m ((c.tc : Thread Cert.KernelIdeal.nD Cert.KernelIdeal.τ).loc Cert.KernelIdeal.main_arg9) : FVec Ideal Cert.KernelIdeal.S3x128 .f32)
            Cert.KernelIdeal.Gen.slices_S3x128_S1x128_0_0) Cert.KernelIdeal.Gen.shapeCasts_S1x128_S128 := by
  kread
  rfl

theorem ref_arg8_A0 :
    (Cert.ReferenceIdeal.Stages.vA0 (F := Ideal) (StableHlo.launchContents m' c) (Proc.devRef .tc Cert.ReferenceIdeal.main_arg8) : FVec Ideal Cert.KernelIdeal.S3x128x128 .f32)
      = (m' ((c.tc : Thread Cert.ReferenceIdeal.nD Cert.ReferenceIdeal.τ).loc Cert.ReferenceIdeal.main_arg8) : FVec Ideal Cert.KernelIdeal.S3x128x128 .f32) :=
  Cert.ReferenceIdeal.Keep.vA0_arg (F := Ideal) _ (by decide)

theorem ref_arg9_A0 :
    (Cert.ReferenceIdeal.Stages.vA0 (F := Ideal) (StableHlo.launchContents m' c) (Proc.devRef .tc Cert.ReferenceIdeal.main_arg9) : FVec Ideal Cert.KernelIdeal.S3x128 .f32)
      = (m' ((c.tc : Thread Cert.ReferenceIdeal.nD Cert.ReferenceIdeal.τ).loc Cert.ReferenceIdeal.main_arg9) : FVec Ideal Cert.KernelIdeal.S3x128 .f32) :=
  Cert.ReferenceIdeal.Keep.vA0_arg (F := Ideal) _ (by decide)

variable (hag : Cert.Bridge.Agree m m' c)
include hag

theorem sim_D0
    (ha : (Cert.KernelIdeal.Gen.W7 (F := Ideal) m ρ c (Proc.devRef .tc Cert.KernelIdeal.main_v28) : FVec Ideal Cert.KernelIdeal.S50000x128 .f32)
      = (Cert.ReferenceIdeal.Stages.vA0 (F := Ideal) (StableHlo.launchContents m' c) (Proc.devRef .tc Cert.ReferenceIdeal.main_v41) : FVec Ideal Cert.KernelIdeal.S50000x128 .f32)) :
    (Cert.KernelIdeal.Gen.W8 (F := Ideal) m ρ c (Proc.devRef .tc Cert.KernelIdeal.main_v33) : FVec Ideal Cert.KernelIdeal.S50000x128 .f32)
      = (Cert.ReferenceIdeal.Stages.vD0 (F := Ideal) (StableHlo.launchContents m' c) (Proc.devRef .tc Cert.ReferenceIdeal.main_v54) : FVec Ideal Cert.KernelIdeal.S50000x128 .f32) := by

  have e8 := (ref_arg8_A0 m' c).trans hag.2.2.2.2.2.2.2.2.1
  have e9 := (ref_arg9_A0 m' c).trans hag.2.2.2.2.2.2.2.2.2.1

  refine ((Cert.KernelIdeal.Gen.W8_arr (F := Ideal) m ρ c 3).trans (Cert.KernelIdeal.RegionAct.region2_value (Cert.KernelIdeal.Gen.V7 m ρ) c)).trans ?_

  refine (act_eq_host_of Cert.ReferenceIdeal.Gen.dot_S50000x128_S128x128_S50000x128_1_0_0_1_n_n_wf Cert.ReferenceIdeal.Gen.bcast_S128_S1x128_1
          Cert.ReferenceIdeal.Gen.bcast_S1x128_S50000x128_0_1 Cert.ReferenceIdeal.Gen.bcast_S_S50000x128 ha ?_ ?_).trans (ref_D0 (Cert.ReferenceIdeal.Stages.vA0 (F := Ideal) (StableHlo.launchContents m' c))).symm
  · exact (kern_w0 m ρ c).trans (congrArg (fun a : FVec Ideal Cert.KernelIdeal.S3x128x128 .f32 =>
      shapeCast Cert.KernelIdeal.S128x128 (extractStridedSlice Cert.KernelIdeal.S1x128x128 ![0, 0, 0] a
        Cert.KernelIdeal.Gen.slices_S3x128x128_S1x128x128_0_0_0) Cert.KernelIdeal.Gen.shapeCasts_S1x128x128_S128x128) e8.symm)
  · exact (kern_b0 m ρ c).trans (congrArg (fun a : FVec Ideal Cert.KernelIdeal.S3x128 .f32 =>
      shapeCast Cert.KernelIdeal.S128 (extractStridedSlice Cert.KernelIdeal.S1x128 ![0, 0] a
        Cert.KernelIdeal.Gen.slices_S3x128_S1x128_0_0) Cert.KernelIdeal.Gen.shapeCasts_S1x128_S128) e9.symm)

end

section
variable (m : Cert.Bridge.KMem) (ρ : Dev Cert.KernelIdeal.nD → PrngReg) (m' : Cert.Bridge.RMem) (c : Dev Cert.KernelIdeal.nD)

theorem ref_D1 (VA : Valuation Cert.ReferenceIdeal.τ Cert.ReferenceIdeal.sig (Elt Ideal)) :
    (StableHlo.after (Cert.ReferenceIdeal.Stages.sD1 (F := Ideal)) VA (Proc.devRef .tc Cert.ReferenceIdeal.main_v124) : FVec Ideal Cert.KernelIdeal.S50000x128 .f32)
      = hostAct Cert.ReferenceIdeal.Gen.dot_S50000x128_S128x128_S50000x128_1_0_0_1_n_n_wf Cert.ReferenceIdeal.Gen.bcast_S128_S1x128_1
          Cert.ReferenceIdeal.Gen.bcast_S1x128_S50000x128_0_1 Cert.ReferenceIdeal.Gen.bcast_S_S50000x128
          (VA (Proc.devRef .tc Cert.ReferenceIdeal.main_v111) : FVec Ideal Cert.KernelIdeal.S50000x128 .f32)
          (shapeCast Cert.KernelIdeal.S128x128 (extractStridedSlice Cert.KernelIdeal.S1x128x128 ![1, 0, 0]
            (VA (Proc.devRef .tc Cert.ReferenceIdeal.main_arg8) : FVec Ideal Cert.KernelIdeal.S3x128x128 .f32)
            Cert.KernelIdeal.Gen.slices_S3x128x128_S1x128x128_1_0_0) Cert.KernelIdeal.Gen.shapeCasts_S1x128x128_S128x128)
          (shapeCast Cert.KernelIdeal.S128 (extractStridedSlice Cert.KernelIdeal.S1x128 ![1, 0]
            (VA (Proc.devRef .tc Cert.ReferenceIdeal.main_arg9) : FVec Ideal Cert.KernelIdeal.S3x128 .f32)
            Cert.KernelIdeal.Gen.slices_S3x128_S1x128_1_0) Cert.KernelIdeal.Gen.shapeCasts_S1x128_S128) := by
  walk [Cert.ReferenceIdeal.Stages.sD1, Cert.ReferenceIdeal.Stages.sD1a, Cert.ReferenceIdeal.Stages.sD1b]
  rfl

theorem kern_w1 :
    (Cert.KernelIdeal.Gen.W17 (F := Ideal) m ρ c (Proc.devRef .tc Cert.KernelIdeal.main_v79) : FVec Ideal Cert.KernelIdeal.S128x128 .f32)
      = shapeCast Cert.KernelIdeal.S128x128 (extractStridedSlice Cert.KernelIdeal.S1x128x128 ![1, 0, 0]
            (m ((c.tc : Thread Cert.KernelIdeal.nD Cert.KernelIdeal.τ).loc Cert.KernelIdeal.main_arg8) : FVec Ideal Cert.KernelIdeal.S3x128x128 .f32)
            Cert.KernelIdeal.Gen.slices_S3x128x128_S1x128x128_1_0_0) Cert.KernelIdeal.Gen.shapeCasts_S1x128x128_S128x128 := by
  kread
  rfl

theorem kern_b1 :
    (Cert.KernelIdeal.Gen.W17 (F := Ideal) m ρ c (Proc.devRef .tc Cert.KernelIdeal.main_v81) : FVec Ideal Cert.KernelIdeal.S128 .f32)
      = shapeCast Cert.KernelIdeal.S128 (extractStridedSlice Cert.KernelIdeal.S1x128 ![1, 0]
            (m ((c.tc : Thread Cert.KernelIdeal.nD Cert.KernelIdeal.τ).loc Cert.KernelIdeal.main_arg9) : FVec Ideal Cert.KernelIdeal.S3x128 .f32)
            Cert.KernelIdeal.Gen.slices_S3x128_S1x128_1_0) Cert.KernelIdeal.Gen.shapeCasts_S1x128_S128 := by
  kread
  rfl

theorem ref_arg8_A1 :
    (Cert.ReferenceIdeal.Stages.vA1 (F := Ideal) (StableHlo.launchContents m' c) (Proc.devRef .tc Cert.ReferenceIdeal.main_arg8) : FVec Ideal Cert.KernelIdeal.S3x128x128 .f32)
      = (m' ((c.tc : Thread Cert.ReferenceIdeal.nD Cert.ReferenceIdeal.τ).loc Cert.ReferenceIdeal.main_arg8) : FVec Ideal Cert.KernelIdeal.S3x128x128 .f32) :=
  Cert.ReferenceIdeal.Keep.vA1_arg (F := Ideal) _ (by decide)

theorem ref_arg9_A1 :
    (Cert.ReferenceIdeal.Stages.vA1 (F := Ideal) (StableHlo.launchContents m' c) (Proc.devRef .tc Cert.ReferenceIdeal.main_arg9) : FVec Ideal Cert.KernelIdeal.S3x128 .f32)
      = (m' ((c.tc : Thread Cert.ReferenceIdeal.nD Cert.ReferenceIdeal.τ).loc Cert.ReferenceIdeal.main_arg9) : FVec Ideal Cert.KernelIdeal.S3x128 .f32) :=
  Cert.ReferenceIdeal.Keep.vA1_arg (F := Ideal) _ (by decide)

variable (hag : Cert.Bridge.Agree m m' c)
include hag

theorem sim_D1
    (ha : (Cert.KernelIdeal.Gen.W17 (F := Ideal) m ρ c (Proc.devRef .tc Cert.KernelIdeal.main_v77) : FVec Ideal Cert.KernelIdeal.S50000x128 .f32)
      = (Cert.ReferenceIdeal.Stages.vA1 (F := Ideal) (StableHlo.launchContents m' c) (Proc.devRef .tc Cert.ReferenceIdeal.main_v111) : FVec Ideal Cert.KernelIdeal.S50000x128 .f32)) :
    (Cert.KernelIdeal.Gen.W18 (F := Ideal) m ρ c (Proc.devRef .tc Cert.KernelIdeal.main_v82) : FVec Ideal Cert.KernelIdeal.S50000x128 .f32)
      = (Cert.ReferenceIdeal.Stages.vD1 (F := Ideal) (StableHlo.launchContents m' c) (Proc.devRef .tc Cert.ReferenceIdeal.main_v124) : FVec Ideal Cert.KernelIdeal.S50000x128 .f32) := by

  have e8 := (ref_arg8_A1 m' c).trans hag.2.2.2.2.2.2.2.2.1
  have e9 := (ref_arg9_A1 m' c).trans hag.2.2.2.2.2.2.2.2.2.1

  refine ((Cert.KernelIdeal.Gen.W18_arr (F := Ideal) m ρ c 3).trans (Cert.KernelIdeal.RegionAct.region5_value (Cert.KernelIdeal.Gen.V17 m ρ) c)).trans ?_

  refine (act_eq_host_of Cert.ReferenceIdeal.Gen.dot_S50000x128_S128x128_S50000x128_1_0_0_1_n_n_wf Cert.ReferenceIdeal.Gen.bcast_S128_S1x128_1
          Cert.ReferenceIdeal.Gen.bcast_S1x128_S50000x128_0_1 Cert.ReferenceIdeal.Gen.bcast_S_S50000x128 ha ?_ ?_).trans (ref_D1 (Cert.ReferenceIdeal.Stages.vA1 (F := Ideal) (StableHlo.launchContents m' c))).symm
  · exact (kern_w1 m ρ c).trans (congrArg (fun a : FVec Ideal Cert.KernelIdeal.S3x128x128 .f32 =>
      shapeCast Cert.KernelIdeal.S128x128 (extractStridedSlice Cert.KernelIdeal.S1x128x128 ![1, 0, 0] a
        Cert.KernelIdeal.Gen.slices_S3x128x128_S1x128x128_1_0_0) Cert.KernelIdeal.Gen.shapeCasts_S1x128x128_S128x128) e8.symm)
  · exact (kern_b1 m ρ c).trans (congrArg (fun a : FVec Ideal Cert.KernelIdeal.S3x128 .f32 =>
      shapeCast Cert.KernelIdeal.S128 (extractStridedSlice Cert.KernelIdeal.S1x128 ![1, 0] a
        Cert.KernelIdeal.Gen.slices_S3x128_S1x128_1_0) Cert.KernelIdeal.Gen.shapeCasts_S1x128_S128) e9.symm)

end

section
variable (m : Cert.Bridge.KMem) (ρ : Dev Cert.KernelIdeal.nD → PrngReg) (m' : Cert.Bridge.RMem) (c : Dev Cert.KernelIdeal.nD)

theorem ref_D2 (VA : Valuation Cert.ReferenceIdeal.τ Cert.ReferenceIdeal.sig (Elt Ideal)) :
    (StableHlo.after (Cert.ReferenceIdeal.Stages.sD2 (F := Ideal)) VA (Proc.devRef .tc Cert.ReferenceIdeal.main_v194) : FVec Ideal Cert.KernelIdeal.S50000x128 .f32)
      = hostAct Cert.ReferenceIdeal.Gen.dot_S50000x128_S128x128_S50000x128_1_0_0_1_n_n_wf Cert.ReferenceIdeal.Gen.bcast_S128_S1x128_1
          Cert.ReferenceIdeal.Gen.bcast_S1x128_S50000x128_0_1 Cert.ReferenceIdeal.Gen.bcast_S_S50000x128
          (VA (Proc.devRef .tc Cert.ReferenceIdeal.main_v181) : FVec Ideal Cert.KernelIdeal.S50000x128 .f32)
          (shapeCast Cert.KernelIdeal.S128x128 (extractStridedSlice Cert.KernelIdeal.S1x128x128 ![2, 0, 0]
            (VA (Proc.devRef .tc Cert.ReferenceIdeal.main_arg8) : FVec Ideal Cert.KernelIdeal.S3x128x128 .f32)
            Cert.KernelIdeal.Gen.slices_S3x128x128_S1x128x128_2_0_0) Cert.KernelIdeal.Gen.shapeCasts_S1x128x128_S128x128)
          (shapeCast Cert.KernelIdeal.S128 (extractStridedSlice Cert.KernelIdeal.S1x128 ![2, 0]
            (VA (Proc.devRef .tc Cert.ReferenceIdeal.main_arg9) : FVec Ideal Cert.KernelIdeal.S3x128 .f32)
            Cert.KernelIdeal.Gen.slices_S3x128_S1x128_2_0) Cert.KernelIdeal.Gen.shapeCasts_S1x128_S128) := by
  walk [Cert.ReferenceIdeal.Stages.sD2, Cert.ReferenceIdeal.Stages.sD2a, Cert.ReferenceIdeal.Stages.sD2b]
  rfl

theorem kern_w2 :
    (Cert.KernelIdeal.Gen.W27 (F := Ideal) m ρ c (Proc.devRef .tc Cert.KernelIdeal.main_v128) : FVec Ideal Cert.KernelIdeal.S128x128 .f32)
      = shapeCast Cert.KernelIdeal.S128x128 (extractStridedSlice Cert.KernelIdeal.S1x128x128 ![2, 0, 0]
            (m ((c.tc : Thread Cert.KernelIdeal.nD Cert.KernelIdeal.τ).loc Cert.KernelIdeal.main_arg8) : FVec Ideal Cert.KernelIdeal.S3x128x128 .f32)
            Cert.KernelIdeal.Gen.slices_S3x128x128_S1x128x128_2_0_0) Cert.KernelIdeal.Gen.shapeCasts_S1x128x128_S128x128 := by
  kread
  rfl

theorem kern_b2 :
    (Cert.KernelIdeal.Gen.W27 (F := Ideal) m ρ c (Proc.devRef .tc Cert.KernelIdeal.main_v130) : FVec Ideal Cert.KernelIdeal.S128 .f32)
      = shapeCast Cert.KernelIdeal.S128 (extractStridedSlice Cert.KernelIdeal.S1x128 ![2, 0]
            (m ((c.tc : Thread Cert.KernelIdeal.nD Cert.KernelIdeal.τ).loc Cert.KernelIdeal.main_arg9) : FVec Ideal Cert.KernelIdeal.S3x128 .f32)
            Cert.KernelIdeal.Gen.slices_S3x128_S1x128_2_0) Cert.KernelIdeal.Gen.shapeCasts_S1x128_S128 := by
  kread
  rfl

theorem ref_arg8_A2 :
    (Cert.ReferenceIdeal.Stages.vA2 (F := Ideal) (StableHlo.launchContents m' c) (Proc.devRef .tc Cert.ReferenceIdeal.main_arg8) : FVec Ideal Cert.KernelIdeal.S3x128x128 .f32)
      = (m' ((c.tc : Thread Cert.ReferenceIdeal.nD Cert.ReferenceIdeal.τ).loc Cert.ReferenceIdeal.main_arg8) : FVec Ideal Cert.KernelIdeal.S3x128x128 .f32) :=
  Cert.ReferenceIdeal.Keep.vA2_arg (F := Ideal) _ (by decide)

theorem ref_arg9_A2 :
    (Cert.ReferenceIdeal.Stages.vA2 (F := Ideal) (StableHlo.launchContents m' c) (Proc.devRef .tc Cert.ReferenceIdeal.main_arg9) : FVec Ideal Cert.KernelIdeal.S3x128 .f32)
      = (m' ((c.tc : Thread Cert.ReferenceIdeal.nD Cert.ReferenceIdeal.τ).loc Cert.ReferenceIdeal.main_arg9) : FVec Ideal Cert.KernelIdeal.S3x128 .f32) :=
  Cert.ReferenceIdeal.Keep.vA2_arg (F := Ideal) _ (by decide)

variable (hag : Cert.Bridge.Agree m m' c)
include hag

theorem sim_D2
    (ha : (Cert.KernelIdeal.Gen.W27 (F := Ideal) m ρ c (Proc.devRef .tc Cert.KernelIdeal.main_v126) : FVec Ideal Cert.KernelIdeal.S50000x128 .f32)
      = (Cert.ReferenceIdeal.Stages.vA2 (F := Ideal) (StableHlo.launchContents m' c) (Proc.devRef .tc Cert.ReferenceIdeal.main_v181) : FVec Ideal Cert.KernelIdeal.S50000x128 .f32)) :
    (Cert.KernelIdeal.Gen.W28 (F := Ideal) m ρ c (Proc.devRef .tc Cert.KernelIdeal.main_v131) : FVec Ideal Cert.KernelIdeal.S50000x128 .f32)
      = (Cert.ReferenceIdeal.Stages.vD2 (F := Ideal) (StableHlo.launchContents m' c) (Proc.devRef .tc Cert.ReferenceIdeal.main_v194) : FVec Ideal Cert.KernelIdeal.S50000x128 .f32) := by

  have e8 := (ref_arg8_A2 m' c).trans hag.2.2.2.2.2.2.2.2.1
  have e9 := (ref_arg9_A2 m' c).trans hag.2.2.2.2.2.2.2.2.2.1

  refine ((Cert.KernelIdeal.Gen.W28_arr (F := Ideal) m ρ c 3).trans (Cert.KernelIdeal.RegionAct.region8_value (Cert.KernelIdeal.Gen.V27 m ρ) c)).trans ?_

  refine (act_eq_host_of Cert.ReferenceIdeal.Gen.dot_S50000x128_S128x128_S50000x128_1_0_0_1_n_n_wf Cert.ReferenceIdeal.Gen.bcast_S128_S1x128_1
          Cert.ReferenceIdeal.Gen.bcast_S1x128_S50000x128_0_1 Cert.ReferenceIdeal.Gen.bcast_S_S50000x128 ha ?_ ?_).trans (ref_D2 (Cert.ReferenceIdeal.Stages.vA2 (F := Ideal) (StableHlo.launchContents m' c))).symm
  · exact (kern_w2 m ρ c).trans (congrArg (fun a : FVec Ideal Cert.KernelIdeal.S3x128x128 .f32 =>
      shapeCast Cert.KernelIdeal.S128x128 (extractStridedSlice Cert.KernelIdeal.S1x128x128 ![2, 0, 0] a
        Cert.KernelIdeal.Gen.slices_S3x128x128_S1x128x128_2_0_0) Cert.KernelIdeal.Gen.shapeCasts_S1x128x128_S128x128) e8.symm)
  · exact (kern_b2 m ρ c).trans (congrArg (fun a : FVec Ideal Cert.KernelIdeal.S3x128 .f32 =>
      shapeCast Cert.KernelIdeal.S128 (extractStridedSlice Cert.KernelIdeal.S1x128 ![2, 0] a
        Cert.KernelIdeal.Gen.slices_S3x128_S1x128_2_0) Cert.KernelIdeal.Gen.shapeCasts_S1x128_S128) e9.symm)

end

end Cert.Bridge.SimD

end
-- ==== Proof.SimSame.lean ====
import proofs.«427610_j64510408786513_1_alg».proof.Proof.RefStages
import proofs.«427610_j64510408786513_1_alg».proof.Proof.Ctx
import proofs.«427610_j64510408786513_1_alg».proof.Proof.Read
import proofs.«427610_j64510408786513_1_alg».proof.Proof.RefKeep

set_option maxRecDepth 16384

noncomputable section

namespace Cert.Bridge.SimSame

open Idealize.ShloMosaic Idealize.ShloMosaic.TcCoe Idealize.SL.Sem Idealize.ShloMosaic.StableHlo

section Stage

variable (U : Valuation Cert.KernelIdeal.τ Cert.KernelIdeal.sig (Elt Ideal)) (U' : Valuation Cert.ReferenceIdeal.τ Cert.ReferenceIdeal.sig (Elt Ideal))

theorem stageA0
    (hm : (U (Proc.devRef .tc Cert.KernelIdeal.main_v20) : FVec Ideal Cert.KernelIdeal.S850000x128 .f32) = U' (Proc.devRef .tc Cert.ReferenceIdeal.main_v33))
    (hcol : (U (Proc.devRef .tc Cert.KernelIdeal.main_v7) : IVec Cert.KernelIdeal.S850000 32) = U' (Proc.devRef .tc Cert.ReferenceIdeal.main_v7))
    (hb : (U (Proc.devRef .tc Cert.KernelIdeal.main_arg5) : FVec Ideal Cert.KernelIdeal.S3x128 .f32) = U' (Proc.devRef .tc Cert.ReferenceIdeal.main_arg5)) :
    (StableHlo.after Cert.KernelIdeal.Gen.hostOps2 U (Proc.devRef .tc Cert.KernelIdeal.main_v28) : FVec Ideal Cert.KernelIdeal.S50000x128 .f32)
      = StableHlo.after Cert.ReferenceIdeal.Stages.sA0 U' (Proc.devRef .tc Cert.ReferenceIdeal.main_v41) := by
  walk [Cert.KernelIdeal.Gen.hostOps2, Cert.ReferenceIdeal.Stages.sA0]
  rw [hm, hcol, hb]
  rfl

theorem stageA1
    (hm : (U (Proc.devRef .tc Cert.KernelIdeal.main_v69) : FVec Ideal Cert.KernelIdeal.S850000x128 .f32) = U' (Proc.devRef .tc Cert.ReferenceIdeal.main_v103))
    (hcol : (U (Proc.devRef .tc Cert.KernelIdeal.main_v7) : IVec Cert.KernelIdeal.S850000 32) = U' (Proc.devRef .tc Cert.ReferenceIdeal.main_v7))
    (hb : (U (Proc.devRef .tc Cert.KernelIdeal.main_arg5) : FVec Ideal Cert.KernelIdeal.S3x128 .f32) = U' (Proc.devRef .tc Cert.ReferenceIdeal.main_arg5)) :
    (StableHlo.after Cert.KernelIdeal.Gen.hostOps5 U (Proc.devRef .tc Cert.KernelIdeal.main_v77) : FVec Ideal Cert.KernelIdeal.S50000x128 .f32)
      = StableHlo.after Cert.ReferenceIdeal.Stages.sA1 U' (Proc.devRef .tc Cert.ReferenceIdeal.main_v111) := by
  walk [Cert.KernelIdeal.Gen.hostOps5, Cert.ReferenceIdeal.Stages.sA1, Cert.ReferenceIdeal.Stages.sA1a, Cert.ReferenceIdeal.Stages.sA1b]
  rw [hm, hcol, hb]
  rfl

theorem stageA2
    (hm : (U (Proc.devRef .tc Cert.KernelIdeal.main_v118) : FVec Ideal Cert.KernelIdeal.S850000x128 .f32) = U' (Proc.devRef .tc Cert.ReferenceIdeal.main_v173))
    (hcol : (U (Proc.devRef .tc Cert.KernelIdeal.main_v7) : IVec Cert.KernelIdeal.S850000 32) = U' (Proc.devRef .tc Cert.ReferenceIdeal.main_v7))
    (hb : (U (Proc.devRef .tc Cert.KernelIdeal.main_arg5) : FVec Ideal Cert.KernelIdeal.S3x128 .f32) = U' (Proc.devRef .tc Cert.ReferenceIdeal.main_arg5)) :
    (StableHlo.after Cert.KernelIdeal.Gen.hostOps8 U (Proc.devRef .tc Cert.KernelIdeal.main_v126) : FVec Ideal Cert.KernelIdeal.S50000x128 .f32)
      = StableHlo.after Cert.ReferenceIdeal.Stages.sA2 U' (Proc.devRef .tc Cert.ReferenceIdeal.main_v181) := by
  walk [Cert.KernelIdeal.Gen.hostOps8, Cert.ReferenceIdeal.Stages.sA2]
  rw [hm, hcol, hb]
  rfl

end Stage

section Run

variable (m : Cert.Bridge.KMem) (ρ : Dev Cert.KernelIdeal.nD → PrngReg) (m' : Cert.Bridge.RMem) (c : Dev Cert.KernelIdeal.nD)

theorem keepK1_col :
    Cert.KernelIdeal.Gen.W16 (F := Ideal) m ρ c (Proc.devRef .tc Cert.KernelIdeal.main_v7) = Cert.KernelIdeal.Gen.W6 (F := Ideal) m ρ c (Proc.devRef .tc Cert.KernelIdeal.main_v7) := by
  walk [Cert.KernelIdeal.Read.W16_ne', Cert.KernelIdeal.Gen.W15, Cert.KernelIdeal.Gen.W14, Cert.KernelIdeal.Gen.W13, Cert.KernelIdeal.Read.W12_ne', Cert.KernelIdeal.Gen.W11, Cert.KernelIdeal.Gen.W10, Cert.KernelIdeal.Gen.W9, Cert.KernelIdeal.Read.W8_ne', Cert.KernelIdeal.Gen.W7, Cert.KernelIdeal.Gen.hostOps2, Cert.KernelIdeal.Gen.hostOps3, Cert.KernelIdeal.Gen.hostOps3_1, Cert.KernelIdeal.Gen.hostOps3_2, Cert.KernelIdeal.Gen.hostOps4, Cert.KernelIdeal.Gen.hostOps4_1, Cert.KernelIdeal.Gen.hostOps4_2]

theorem keepK1_bias :
    Cert.KernelIdeal.Gen.W16 (F := Ideal) m ρ c (Proc.devRef .tc Cert.KernelIdeal.main_arg5) = Cert.KernelIdeal.Gen.W6 (F := Ideal) m ρ c (Proc.devRef .tc Cert.KernelIdeal.main_arg5) := by
  walk [Cert.KernelIdeal.Read.W16_ne', Cert.KernelIdeal.Gen.W15, Cert.KernelIdeal.Gen.W14, Cert.KernelIdeal.Gen.W13, Cert.KernelIdeal.Read.W12_ne', Cert.KernelIdeal.Gen.W11, Cert.KernelIdeal.Gen.W10, Cert.KernelIdeal.Gen.W9, Cert.KernelIdeal.Read.W8_ne', Cert.KernelIdeal.Gen.W7, Cert.KernelIdeal.Gen.hostOps2, Cert.KernelIdeal.Gen.hostOps3, Cert.KernelIdeal.Gen.hostOps3_1, Cert.KernelIdeal.Gen.hostOps3_2, Cert.KernelIdeal.Gen.hostOps4, Cert.KernelIdeal.Gen.hostOps4_1, Cert.KernelIdeal.Gen.hostOps4_2]

theorem keepK2_col :
    Cert.KernelIdeal.Gen.W26 (F := Ideal) m ρ c (Proc.devRef .tc Cert.KernelIdeal.main_v7) = Cert.KernelIdeal.Gen.W16 (F := Ideal) m ρ c (Proc.devRef .tc Cert.KernelIdeal.main_v7) := by
  walk [Cert.KernelIdeal.Read.W26_ne', Cert.KernelIdeal.Gen.W25, Cert.KernelIdeal.Gen.W24, Cert.KernelIdeal.Gen.W23, Cert.KernelIdeal.Read.W22_ne', Cert.KernelIdeal.Gen.W21, Cert.KernelIdeal.Gen.W20, Cert.KernelIdeal.Gen.W19, Cert.KernelIdeal.Read.W18_ne', Cert.KernelIdeal.Gen.W17, Cert.KernelIdeal.Gen.hostOps5, Cert.KernelIdeal.Gen.hostOps6, Cert.KernelIdeal.Gen.hostOps6_1, Cert.KernelIdeal.Gen.hostOps6_2, Cert.KernelIdeal.Gen.hostOps7, Cert.KernelIdeal.Gen.hostOps7_1, Cert.KernelIdeal.Gen.hostOps7_2]

theorem keepK2_bias :
    Cert.KernelIdeal.Gen.W26 (F := Ideal) m ρ c (Proc.devRef .tc Cert.KernelIdeal.main_arg5) = Cert.KernelIdeal.Gen.W16 (F := Ideal) m ρ c (Proc.devRef .tc Cert.KernelIdeal.main_arg5) := by
  walk [Cert.KernelIdeal.Read.W26_ne', Cert.KernelIdeal.Gen.W25, Cert.KernelIdeal.Gen.W24, Cert.KernelIdeal.Gen.W23, Cert.KernelIdeal.Read.W22_ne', Cert.KernelIdeal.Gen.W21, Cert.KernelIdeal.Gen.W20, Cert.KernelIdeal.Gen.W19, Cert.KernelIdeal.Read.W18_ne', Cert.KernelIdeal.Gen.W17, Cert.KernelIdeal.Gen.hostOps5, Cert.KernelIdeal.Gen.hostOps6, Cert.KernelIdeal.Gen.hostOps6_1, Cert.KernelIdeal.Gen.hostOps6_2, Cert.KernelIdeal.Gen.hostOps7, Cert.KernelIdeal.Gen.hostOps7_1, Cert.KernelIdeal.Gen.hostOps7_2]

theorem agree_1_5 (hag : Cert.Bridge.Agree m m' c) :
    m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) :=
  ⟨hag.2.1, hag.2.2.2.2.2.1⟩

theorem col0 (hag : Cert.Bridge.Agree m m' c) :
    (Cert.KernelIdeal.Gen.W6 (F := Ideal) m ρ c (Proc.devRef .tc Cert.KernelIdeal.main_v7) : IVec Cert.KernelIdeal.S850000 32)
      = Cert.ReferenceIdeal.Stages.vM0 (F := Ideal) (StableHlo.launchContents m' c) (Proc.devRef .tc Cert.ReferenceIdeal.main_v7) := by
  have e1 : StableHlo.launchContents m' c (Proc.devRef .tc Cert.ReferenceIdeal.main_arg1)
      = Cert.KernelIdeal.Gen.W0 m ρ c (Proc.devRef .tc Cert.KernelIdeal.main_arg1) := (agree_1_5 m m' c hag).1
  kread
  read_results
  rw [e1]
  rfl

theorem bias0 (hag : Cert.Bridge.Agree m m' c) :
    (Cert.KernelIdeal.Gen.W6 (F := Ideal) m ρ c (Proc.devRef .tc Cert.KernelIdeal.main_arg5) : FVec Ideal Cert.KernelIdeal.S3x128 .f32)
      = Cert.ReferenceIdeal.Stages.vM0 (F := Ideal) (StableHlo.launchContents m' c) (Proc.devRef .tc Cert.ReferenceIdeal.main_arg5) := by
  kread
  exact (agree_1_5 m m' c hag).2.symm

theorem sim_A0 (hag : Cert.Bridge.Agree m m' c)
    (hm : (Cert.KernelIdeal.Gen.W6 (F := Ideal) m ρ c (Proc.devRef .tc Cert.KernelIdeal.main_v20) : FVec Ideal Cert.KernelIdeal.S850000x128 .f32)
      = Cert.ReferenceIdeal.Stages.vM0 (F := Ideal) (StableHlo.launchContents m' c) (Proc.devRef .tc Cert.ReferenceIdeal.main_v33)) :
    (Cert.KernelIdeal.Gen.W7 (F := Ideal) m ρ c (Proc.devRef .tc Cert.KernelIdeal.main_v28) : FVec Ideal Cert.KernelIdeal.S50000x128 .f32)
      = Cert.ReferenceIdeal.Stages.vA0 (F := Ideal) (StableHlo.launchContents m' c) (Proc.devRef .tc Cert.ReferenceIdeal.main_v41) :=
  stageA0 (Cert.KernelIdeal.Gen.W6 (F := Ideal) m ρ c) (Cert.ReferenceIdeal.Stages.vM0 (F := Ideal) (StableHlo.launchContents m' c))
    hm (col0 m ρ m' c hag) (bias0 m ρ m' c hag)

theorem col1 (hag : Cert.Bridge.Agree m m' c) :
    (Cert.KernelIdeal.Gen.W16 (F := Ideal) m ρ c (Proc.devRef .tc Cert.KernelIdeal.main_v7) : IVec Cert.KernelIdeal.S850000 32)
      = Cert.ReferenceIdeal.Stages.vM1 (F := Ideal) (StableHlo.launchContents m' c) (Proc.devRef .tc Cert.ReferenceIdeal.main_v7) := by
  rw [keepK1_col m ρ c, col0 m ρ m' c hag,
    Cert.ReferenceIdeal.Keep.vM1_of (F := Ideal) (StableHlo.launchContents m' c) (r := Cert.ReferenceIdeal.main_v7) (by decide),
    Cert.ReferenceIdeal.Keep.vG1_of (F := Ideal) (StableHlo.launchContents m' c) (r := Cert.ReferenceIdeal.main_v7) (by decide),
    Cert.ReferenceIdeal.Keep.vH1_of (F := Ideal) (StableHlo.launchContents m' c) (r := Cert.ReferenceIdeal.main_v7) (by decide),
    Cert.ReferenceIdeal.Keep.vB0_of (F := Ideal) (StableHlo.launchContents m' c) (r := Cert.ReferenceIdeal.main_v7) (by decide),
    Cert.ReferenceIdeal.Keep.vD0_of (F := Ideal) (StableHlo.launchContents m' c) (r := Cert.ReferenceIdeal.main_v7) (by decide),
    Cert.ReferenceIdeal.Keep.vA0_of (F := Ideal) (StableHlo.launchContents m' c) (r := Cert.ReferenceIdeal.main_v7) (by decide)]

theorem bias1 (hag : Cert.Bridge.Agree m m' c) :
    (Cert.KernelIdeal.Gen.W16 (F := Ideal) m ρ c (Proc.devRef .tc Cert.KernelIdeal.main_arg5) : FVec Ideal Cert.KernelIdeal.S3x128 .f32)
      = Cert.ReferenceIdeal.Stages.vM1 (F := Ideal) (StableHlo.launchContents m' c) (Proc.devRef .tc Cert.ReferenceIdeal.main_arg5) := by
  rw [keepK1_bias m ρ c, bias0 m ρ m' c hag,
    Cert.ReferenceIdeal.Keep.vM1_of (F := Ideal) (StableHlo.launchContents m' c) (r := Cert.ReferenceIdeal.main_arg5) (by decide),
    Cert.ReferenceIdeal.Keep.vG1_of (F := Ideal) (StableHlo.launchContents m' c) (r := Cert.ReferenceIdeal.main_arg5) (by decide),
    Cert.ReferenceIdeal.Keep.vH1_of (F := Ideal) (StableHlo.launchContents m' c) (r := Cert.ReferenceIdeal.main_arg5) (by decide),
    Cert.ReferenceIdeal.Keep.vB0_of (F := Ideal) (StableHlo.launchContents m' c) (r := Cert.ReferenceIdeal.main_arg5) (by decide),
    Cert.ReferenceIdeal.Keep.vD0_of (F := Ideal) (StableHlo.launchContents m' c) (r := Cert.ReferenceIdeal.main_arg5) (by decide),
    Cert.ReferenceIdeal.Keep.vA0_of (F := Ideal) (StableHlo.launchContents m' c) (r := Cert.ReferenceIdeal.main_arg5) (by decide)]

theorem sim_A1 (hag : Cert.Bridge.Agree m m' c)
    (hm : (Cert.KernelIdeal.Gen.W16 (F := Ideal) m ρ c (Proc.devRef .tc Cert.KernelIdeal.main_v69) : FVec Ideal Cert.KernelIdeal.S850000x128 .f32)
      = Cert.ReferenceIdeal.Stages.vM1 (F := Ideal) (StableHlo.launchContents m' c) (Proc.devRef .tc Cert.ReferenceIdeal.main_v103)) :
    (Cert.KernelIdeal.Gen.W17 (F := Ideal) m ρ c (Proc.devRef .tc Cert.KernelIdeal.main_v77) : FVec Ideal Cert.KernelIdeal.S50000x128 .f32)
      = Cert.ReferenceIdeal.Stages.vA1 (F := Ideal) (StableHlo.launchContents m' c) (Proc.devRef .tc Cert.ReferenceIdeal.main_v111) :=
  stageA1 (Cert.KernelIdeal.Gen.W16 (F := Ideal) m ρ c) (Cert.ReferenceIdeal.Stages.vM1 (F := Ideal) (StableHlo.launchContents m' c))
    hm (col1 m ρ m' c hag) (bias1 m ρ m' c hag)

theorem col2 (hag : Cert.Bridge.Agree m m' c) :
    (Cert.KernelIdeal.Gen.W26 (F := Ideal) m ρ c (Proc.devRef .tc Cert.KernelIdeal.main_v7) : IVec Cert.KernelIdeal.S850000 32)
      = Cert.ReferenceIdeal.Stages.vM2 (F := Ideal) (StableHlo.launchContents m' c) (Proc.devRef .tc Cert.ReferenceIdeal.main_v7) := by
  rw [keepK2_col m ρ c, col1 m ρ m' c hag,
    Cert.ReferenceIdeal.Keep.vM2_of (F := Ideal) (StableHlo.launchContents m' c) (r := Cert.ReferenceIdeal.main_v7) (by decide),
    Cert.ReferenceIdeal.Keep.vG2_of (F := Ideal) (StableHlo.launchContents m' c) (r := Cert.ReferenceIdeal.main_v7) (by decide),
    Cert.ReferenceIdeal.Keep.vH2_of (F := Ideal) (StableHlo.launchContents m' c) (r := Cert.ReferenceIdeal.main_v7) (by decide),
    Cert.ReferenceIdeal.Keep.vB1_of (F := Ideal) (StableHlo.launchContents m' c) (r := Cert.ReferenceIdeal.main_v7) (by decide),
    Cert.ReferenceIdeal.Keep.vD1_of (F := Ideal) (StableHlo.launchContents m' c) (r := Cert.ReferenceIdeal.main_v7) (by decide),
    Cert.ReferenceIdeal.Keep.vA1_of (F := Ideal) (StableHlo.launchContents m' c) (r := Cert.ReferenceIdeal.main_v7) (by decide)]

theorem bias2 (hag : Cert.Bridge.Agree m m' c) :
    (Cert.KernelIdeal.Gen.W26 (F := Ideal) m ρ c (Proc.devRef .tc Cert.KernelIdeal.main_arg5) : FVec Ideal Cert.KernelIdeal.S3x128 .f32)
      = Cert.ReferenceIdeal.Stages.vM2 (F := Ideal) (StableHlo.launchContents m' c) (Proc.devRef .tc Cert.ReferenceIdeal.main_arg5) := by
  rw [keepK2_bias m ρ c, bias1 m ρ m' c hag,
    Cert.ReferenceIdeal.Keep.vM2_of (F := Ideal) (StableHlo.launchContents m' c) (r := Cert.ReferenceIdeal.main_arg5) (by decide),
    Cert.ReferenceIdeal.Keep.vG2_of (F := Ideal) (StableHlo.launchContents m' c) (r := Cert.ReferenceIdeal.main_arg5) (by decide),
    Cert.ReferenceIdeal.Keep.vH2_of (F := Ideal) (StableHlo.launchContents m' c) (r := Cert.ReferenceIdeal.main_arg5) (by decide),
    Cert.ReferenceIdeal.Keep.vB1_of (F := Ideal) (StableHlo.launchContents m' c) (r := Cert.ReferenceIdeal.main_arg5) (by decide),
    Cert.ReferenceIdeal.Keep.vD1_of (F := Ideal) (StableHlo.launchContents m' c) (r := Cert.ReferenceIdeal.main_arg5) (by decide),
    Cert.ReferenceIdeal.Keep.vA1_of (F := Ideal) (StableHlo.launchContents m' c) (r := Cert.ReferenceIdeal.main_arg5) (by decide)]

theorem sim_A2 (hag : Cert.Bridge.Agree m m' c)
    (hm : (Cert.KernelIdeal.Gen.W26 (F := Ideal) m ρ c (Proc.devRef .tc Cert.KernelIdeal.main_v118) : FVec Ideal Cert.KernelIdeal.S850000x128 .f32)
      = Cert.ReferenceIdeal.Stages.vM2 (F := Ideal) (StableHlo.launchContents m' c) (Proc.devRef .tc Cert.ReferenceIdeal.main_v173)) :
    (Cert.KernelIdeal.Gen.W27 (F := Ideal) m ρ c (Proc.devRef .tc Cert.KernelIdeal.main_v126) : FVec Ideal Cert.KernelIdeal.S50000x128 .f32)
      = Cert.ReferenceIdeal.Stages.vA2 (F := Ideal) (StableHlo.launchContents m' c) (Proc.devRef .tc Cert.ReferenceIdeal.main_v181) :=
  stageA2 (Cert.KernelIdeal.Gen.W26 (F := Ideal) m ρ c) (Cert.ReferenceIdeal.Stages.vM2 (F := Ideal) (StableHlo.launchContents m' c))
    hm (col2 m ρ m' c hag) (bias2 m ρ m' c hag)

end Run

end Cert.Bridge.SimSame

end
-- ==== Proof.SimTail.lean ====
import proofs.«427610_j64510408786513_1_alg».proof.Proof.Ctx
import proofs.«427610_j64510408786513_1_alg».proof.Proof.Read
import proofs.«427610_j64510408786513_1_alg».proof.Proof.RefStages
import proofs.«427610_j64510408786513_1_alg».proof.Proof.RefKeep

set_option maxRecDepth 16384

noncomputable section
namespace Cert.Bridge.SimTail
open Idealize.ShloMosaic Idealize.SL.Sem

theorem glue {α : Type} {a b c d : α} (h1 : a = b) (h2 : c = b) (h3 : d = c) : a = d :=
  h1.trans (h2.symm.trans h3.symm)

section KernelArgs

variable (m : Cert.Bridge.KMem) (ρ : Dev Cert.KernelIdeal.nD → PrngReg) (c : Dev Cert.KernelIdeal.nD)

set_option maxHeartbeats 4000000 in

theorem kArg3 : Cert.KernelIdeal.Gen.W28 (F := Ideal) m ρ c (Proc.devRef .tc Cert.KernelIdeal.main_arg3)
    = m ((c.tc : Thread Cert.KernelIdeal.nD Cert.KernelIdeal.τ).loc Cert.KernelIdeal.main_arg3) := by
  kread

set_option maxHeartbeats 4000000 in

theorem kArg10 : Cert.KernelIdeal.Gen.W28 (F := Ideal) m ρ c (Proc.devRef .tc Cert.KernelIdeal.main_arg10)
    = m ((c.tc : Thread Cert.KernelIdeal.nD Cert.KernelIdeal.τ).loc Cert.KernelIdeal.main_arg10) := by
  kread

set_option maxHeartbeats 4000000 in

theorem kArg11 : Cert.KernelIdeal.Gen.W28 (F := Ideal) m ρ c (Proc.devRef .tc Cert.KernelIdeal.main_arg11)
    = m ((c.tc : Thread Cert.KernelIdeal.nD Cert.KernelIdeal.τ).loc Cert.KernelIdeal.main_arg11) := by
  kread

set_option maxHeartbeats 4000000 in

theorem kArg12 : Cert.KernelIdeal.Gen.W28 (F := Ideal) m ρ c (Proc.devRef .tc Cert.KernelIdeal.main_arg12)
    = m ((c.tc : Thread Cert.KernelIdeal.nD Cert.KernelIdeal.τ).loc Cert.KernelIdeal.main_arg12) := by
  kread

set_option maxHeartbeats 4000000 in

theorem kArg13 : Cert.KernelIdeal.Gen.W28 (F := Ideal) m ρ c (Proc.devRef .tc Cert.KernelIdeal.main_arg13)
    = m ((c.tc : Thread Cert.KernelIdeal.nD Cert.KernelIdeal.τ).loc Cert.KernelIdeal.main_arg13) := by
  kread

set_option maxHeartbeats 4000000 in

theorem kArg14 : Cert.KernelIdeal.Gen.W28 (F := Ideal) m ρ c (Proc.devRef .tc Cert.KernelIdeal.main_arg14)
    = m ((c.tc : Thread Cert.KernelIdeal.nD Cert.KernelIdeal.τ).loc Cert.KernelIdeal.main_arg14) := by
  kread

set_option maxHeartbeats 4000000 in

theorem kArg15 : Cert.KernelIdeal.Gen.W28 (F := Ideal) m ρ c (Proc.devRef .tc Cert.KernelIdeal.main_arg15)
    = m ((c.tc : Thread Cert.KernelIdeal.nD Cert.KernelIdeal.τ).loc Cert.KernelIdeal.main_arg15) := by
  kread

set_option maxHeartbeats 4000000 in

theorem kArg16 : Cert.KernelIdeal.Gen.W28 (F := Ideal) m ρ c (Proc.devRef .tc Cert.KernelIdeal.main_arg16)
    = m ((c.tc : Thread Cert.KernelIdeal.nD Cert.KernelIdeal.τ).loc Cert.KernelIdeal.main_arg16) := by
  kread

set_option maxHeartbeats 4000000 in

theorem kArg17 : Cert.KernelIdeal.Gen.W28 (F := Ideal) m ρ c (Proc.devRef .tc Cert.KernelIdeal.main_arg17)
    = m ((c.tc : Thread Cert.KernelIdeal.nD Cert.KernelIdeal.τ).loc Cert.KernelIdeal.main_arg17) := by
  kread

end KernelArgs

set_option maxHeartbeats 8000000 in

theorem tail_eq (VK : Valuation Cert.KernelIdeal.τ Cert.KernelIdeal.sig (Elt Ideal)) (VR : Valuation Cert.ReferenceIdeal.τ Cert.ReferenceIdeal.sig (Elt Ideal))
    (hz : (VK (Proc.devRef .tc Cert.KernelIdeal.main_v131) : FVec Ideal Cert.KernelIdeal.S50000x128 .f32) = (VR (Proc.devRef .tc Cert.ReferenceIdeal.main_v194) : FVec Ideal Cert.KernelIdeal.S50000x128 .f32))
    (h3 : (VK (Proc.devRef .tc Cert.KernelIdeal.main_arg3) : IVec Cert.KernelIdeal.S50000 32) = (VR (Proc.devRef .tc Cert.ReferenceIdeal.main_arg3) : IVec Cert.KernelIdeal.S50000 32))
    (h10 : (VK (Proc.devRef .tc Cert.KernelIdeal.main_arg10) : FVec Ideal Cert.KernelIdeal.S3x128 .f32) = (VR (Proc.devRef .tc Cert.ReferenceIdeal.main_arg10) : FVec Ideal Cert.KernelIdeal.S3x128 .f32))
    (h11 : (VK (Proc.devRef .tc Cert.KernelIdeal.main_arg11) : FVec Ideal Cert.KernelIdeal.S3x128 .f32) = (VR (Proc.devRef .tc Cert.ReferenceIdeal.main_arg11) : FVec Ideal Cert.KernelIdeal.S3x128 .f32))
    (h12 : (VK (Proc.devRef .tc Cert.KernelIdeal.main_arg12) : FVec Ideal Cert.KernelIdeal.S128x128 .f32) = (VR (Proc.devRef .tc Cert.ReferenceIdeal.main_arg12) : FVec Ideal Cert.KernelIdeal.S128x128 .f32))
    (h13 : (VK (Proc.devRef .tc Cert.KernelIdeal.main_arg13) : FVec Ideal Cert.KernelIdeal.S128 .f32) = (VR (Proc.devRef .tc Cert.ReferenceIdeal.main_arg13) : FVec Ideal Cert.KernelIdeal.S128 .f32))
    (h14 : (VK (Proc.devRef .tc Cert.KernelIdeal.main_arg14) : FVec Ideal Cert.KernelIdeal.S128x64 .f32) = (VR (Proc.devRef .tc Cert.ReferenceIdeal.main_arg14) : FVec Ideal Cert.KernelIdeal.S128x64 .f32))
    (h15 : (VK (Proc.devRef .tc Cert.KernelIdeal.main_arg15) : FVec Ideal Cert.KernelIdeal.S64 .f32) = (VR (Proc.devRef .tc Cert.ReferenceIdeal.main_arg15) : FVec Ideal Cert.KernelIdeal.S64 .f32))
    (h16 : (VK (Proc.devRef .tc Cert.KernelIdeal.main_arg16) : FVec Ideal Cert.KernelIdeal.S64x2 .f32) = (VR (Proc.devRef .tc Cert.ReferenceIdeal.main_arg16) : FVec Ideal Cert.KernelIdeal.S64x2 .f32))
    (h17 : (VK (Proc.devRef .tc Cert.KernelIdeal.main_arg17) : FVec Ideal Cert.KernelIdeal.S2 .f32) = (VR (Proc.devRef .tc Cert.ReferenceIdeal.main_arg17) : FVec Ideal Cert.KernelIdeal.S2 .f32)) :
    (StableHlo.after Cert.KernelIdeal.Gen.hostOps9_6 (StableHlo.after Cert.KernelIdeal.Gen.hostOps9_5 (StableHlo.after Cert.KernelIdeal.Gen.hostOps9_4 (StableHlo.after Cert.KernelIdeal.Gen.hostOps9_3
        (StableHlo.after Cert.KernelIdeal.Gen.hostOps9_2 (StableHlo.after Cert.KernelIdeal.Gen.hostOps9_1 (StableHlo.after Cert.KernelIdeal.Gen.hostOps9 VK)))))) (Proc.devRef .tc Cert.KernelIdeal.main_v187) : FVec Ideal Cert.KernelIdeal.S50x2 .f32)
      = (StableHlo.after Cert.ReferenceIdeal.Stages.sT VR (Proc.devRef .tc Cert.ReferenceIdeal.main_v250) : FVec Ideal Cert.KernelIdeal.S50x2 .f32) := by
  walk [Cert.KernelIdeal.Gen.hostOps9_6, Cert.KernelIdeal.Gen.hostOps9_5, Cert.KernelIdeal.Gen.hostOps9_4, Cert.KernelIdeal.Gen.hostOps9_3, Cert.KernelIdeal.Gen.hostOps9_2, Cert.KernelIdeal.Gen.hostOps9_1, Cert.KernelIdeal.Gen.hostOps9, Cert.ReferenceIdeal.Stages.sT, Cert.ReferenceIdeal.Stages.sTa, Cert.ReferenceIdeal.Stages.sTb, Cert.ReferenceIdeal.Stages.sTc, Cert.ReferenceIdeal.Stages.sTd, Cert.ReferenceIdeal.Stages.sTe, Cert.ReferenceIdeal.Stages.sTf, Cert.ReferenceIdeal.Stages.sTg, Cert.ReferenceIdeal.Stages.sTh]
  rw [hz, h3, h10, h11, h12, h13, h14, h15, h16, h17]
  rfl

theorem sim_T (m : Cert.Bridge.KMem) (ρ : Dev Cert.KernelIdeal.nD → PrngReg) (m' : Cert.Bridge.RMem) (c : Dev Cert.KernelIdeal.nD)
    (hag : Cert.Bridge.Agree m m' c)
    (hh : (Cert.KernelIdeal.Gen.W28 (F := Ideal) m ρ c (Proc.devRef .tc Cert.KernelIdeal.main_v131) : FVec Ideal Cert.KernelIdeal.S50000x128 .f32) = (Cert.ReferenceIdeal.Stages.vD2 (F := Ideal) (StableHlo.launchContents m' c) (Proc.devRef .tc Cert.ReferenceIdeal.main_v194) : FVec Ideal Cert.KernelIdeal.S50000x128 .f32)) :
    (Cert.KernelIdeal.Gen.W35 (F := Ideal) m ρ c (Proc.devRef .tc Cert.KernelIdeal.main_v187) : FVec Ideal Cert.KernelIdeal.S50x2 .f32) = (Cert.ReferenceIdeal.Stages.vT (F := Ideal) (StableHlo.launchContents m' c) (Proc.devRef .tc Cert.ReferenceIdeal.main_v250) : FVec Ideal Cert.KernelIdeal.S50x2 .f32) :=
  tail_eq (Cert.KernelIdeal.Gen.W28 (F := Ideal) m ρ c) (Cert.ReferenceIdeal.Stages.vD2 (F := Ideal) (StableHlo.launchContents m' c)) hh
    (glue (α := IVec Cert.KernelIdeal.S50000 32) (kArg3 m ρ c) hag.2.2.2.1 (Cert.ReferenceIdeal.Keep.vD2_arg _ (by decide)))
    (glue (α := FVec Ideal Cert.KernelIdeal.S3x128 .f32) (kArg10 m ρ c) hag.2.2.2.2.2.2.2.2.2.2.1 (Cert.ReferenceIdeal.Keep.vD2_arg _ (by decide)))
    (glue (α := FVec Ideal Cert.KernelIdeal.S3x128 .f32) (kArg11 m ρ c) hag.2.2.2.2.2.2.2.2.2.2.2.1 (Cert.ReferenceIdeal.Keep.vD2_arg _ (by decide)))
    (glue (α := FVec Ideal Cert.KernelIdeal.S128x128 .f32) (kArg12 m ρ c) hag.2.2.2.2.2.2.2.2.2.2.2.2.1 (Cert.ReferenceIdeal.Keep.vD2_arg _ (by decide)))
    (glue (α := FVec Ideal Cert.KernelIdeal.S128 .f32) (kArg13 m ρ c) hag.2.2.2.2.2.2.2.2.2.2.2.2.2.1 (Cert.ReferenceIdeal.Keep.vD2_arg _ (by decide)))
    (glue (α := FVec Ideal Cert.KernelIdeal.S128x64 .f32) (kArg14 m ρ c) hag.2.2.2.2.2.2.2.2.2.2.2.2.2.2.1 (Cert.ReferenceIdeal.Keep.vD2_arg _ (by decide)))
    (glue (α := FVec Ideal Cert.KernelIdeal.S64 .f32) (kArg15 m ρ c) hag.2.2.2.2.2.2.2.2.2.2.2.2.2.2.2.1 (Cert.ReferenceIdeal.Keep.vD2_arg _ (by decide)))
    (glue (α := FVec Ideal Cert.KernelIdeal.S64x2 .f32) (kArg16 m ρ c) hag.2.2.2.2.2.2.2.2.2.2.2.2.2.2.2.2.1 (Cert.ReferenceIdeal.Keep.vD2_arg _ (by decide)))
    (glue (α := FVec Ideal Cert.KernelIdeal.S2 .f32) (kArg17 m ρ c) hag.2.2.2.2.2.2.2.2.2.2.2.2.2.2.2.2.2 (Cert.ReferenceIdeal.Keep.vD2_arg _ (by decide)))

end Cert.Bridge.SimTail
end
-- ==== Proof.SimBN.lean ====
import proofs.«427610_j64510408786513_1_alg».proof.Proof.Ctx
import proofs.«427610_j64510408786513_1_alg».proof.Proof.Read
import proofs.«427610_j64510408786513_1_alg».proof.Proof.RefStages
import proofs.«427610_j64510408786513_1_alg».proof.Proof.RefKeep

set_option maxRecDepth 16384

set_option maxHeartbeats 4000000

noncomputable section

namespace Cert.Bridge.SimBN

open Idealize.ShloMosaic Idealize.ShloMosaic.TcCoe Idealize.SL.Sem

section
variable (m : Cert.Bridge.KMem) (ρ : Dev Cert.KernelIdeal.nD → PrngReg) (m' : Cert.Bridge.RMem) (c : Dev Cert.KernelIdeal.nD)
  (hag : Cert.Bridge.Agree m m' c)

include hag in

attribute [local irreducible] Host.reduceAdd Host.divf Host.rsqrt in

theorem sim_B0
    (hh : (Cert.KernelIdeal.Gen.W8 (F := Ideal) m ρ c (Proc.devRef .tc Cert.KernelIdeal.main_v33) : FVec Ideal Cert.KernelIdeal.S50000x128 .f32)
      = (Cert.ReferenceIdeal.Stages.vD0 (F := Ideal) (StableHlo.launchContents m' c) (Proc.devRef .tc Cert.ReferenceIdeal.main_v54) : FVec Ideal Cert.KernelIdeal.S50000x128 .f32)) :
    (Cert.KernelIdeal.Gen.W11 (F := Ideal) m ρ c (Proc.devRef .tc Cert.KernelIdeal.main_v56) : FVec Ideal Cert.KernelIdeal.S50000x128 .f32)
      = (Cert.ReferenceIdeal.Stages.vB0 (F := Ideal) (StableHlo.launchContents m' c) (Proc.devRef .tc Cert.ReferenceIdeal.main_v77) : FVec Ideal Cert.KernelIdeal.S50000x128 .f32) := by

  have e10 : StableHlo.launchContents m' c (Proc.devRef .tc Cert.ReferenceIdeal.main_arg10)
      = m ((c.tc : Thread Cert.KernelIdeal.nD Cert.KernelIdeal.τ).loc Cert.KernelIdeal.main_arg10) := hag.2.2.2.2.2.2.2.2.2.2.1
  have e11 : StableHlo.launchContents m' c (Proc.devRef .tc Cert.ReferenceIdeal.main_arg11)
      = m ((c.tc : Thread Cert.KernelIdeal.nD Cert.KernelIdeal.τ).loc Cert.KernelIdeal.main_arg11) := hag.2.2.2.2.2.2.2.2.2.2.2.1

  have k10 : Cert.KernelIdeal.Gen.W8 (F := Ideal) m ρ c (Proc.devRef .tc Cert.KernelIdeal.main_arg10)
      = m ((c.tc : Thread Cert.KernelIdeal.nD Cert.KernelIdeal.τ).loc Cert.KernelIdeal.main_arg10) := by kread
  have k11 : Cert.KernelIdeal.Gen.W8 (F := Ideal) m ρ c (Proc.devRef .tc Cert.KernelIdeal.main_arg11)
      = m ((c.tc : Thread Cert.KernelIdeal.nD Cert.KernelIdeal.τ).loc Cert.KernelIdeal.main_arg11) := by kread
  have r10 : Cert.ReferenceIdeal.Stages.vD0 (F := Ideal) (StableHlo.launchContents m' c) (Proc.devRef .tc Cert.ReferenceIdeal.main_arg10)
      = StableHlo.launchContents m' c (Proc.devRef .tc Cert.ReferenceIdeal.main_arg10) :=
    Cert.ReferenceIdeal.Keep.vD0_arg (F := Ideal) (StableHlo.launchContents m' c) (by decide)
  have r11 : Cert.ReferenceIdeal.Stages.vD0 (F := Ideal) (StableHlo.launchContents m' c) (Proc.devRef .tc Cert.ReferenceIdeal.main_arg11)
      = StableHlo.launchContents m' c (Proc.devRef .tc Cert.ReferenceIdeal.main_arg11) :=
    Cert.ReferenceIdeal.Keep.vD0_arg (F := Ideal) (StableHlo.launchContents m' c) (by decide)

  dsimp only [Cert.ReferenceIdeal.Stages.vB0]
  generalize Cert.ReferenceIdeal.Stages.vD0 (F := Ideal) (StableHlo.launchContents m' c) = VD at hh r10 r11 ⊢

  walk [Cert.KernelIdeal.Gen.W11, Cert.KernelIdeal.Gen.W10, Cert.KernelIdeal.Gen.W9, Cert.KernelIdeal.Gen.hostOps3, Cert.KernelIdeal.Gen.hostOps3_1, Cert.KernelIdeal.Gen.hostOps3_2, Cert.ReferenceIdeal.Stages.sB0, Cert.ReferenceIdeal.Stages.sB0a, Cert.ReferenceIdeal.Stages.sB0b, Cert.ReferenceIdeal.Stages.sB0c]
  rw [k10, k11, r10, r11, e10, e11]

  generalize Cert.KernelIdeal.Gen.W8 (F := Ideal) m ρ c (Proc.devRef .tc Cert.KernelIdeal.main_v33) = x at hh ⊢
  generalize VD (Proc.devRef .tc Cert.ReferenceIdeal.main_v54) = x' at hh ⊢
  subst hh
  generalize m ((c.tc : Thread Cert.KernelIdeal.nD Cert.KernelIdeal.τ).loc Cert.KernelIdeal.main_arg10) = g
  generalize m ((c.tc : Thread Cert.KernelIdeal.nD Cert.KernelIdeal.τ).loc Cert.KernelIdeal.main_arg11) = b

  rfl

include hag in

attribute [local irreducible] Host.reduceAdd Host.divf Host.rsqrt in

theorem sim_B1
    (hh : (Cert.KernelIdeal.Gen.W18 (F := Ideal) m ρ c (Proc.devRef .tc Cert.KernelIdeal.main_v82) : FVec Ideal Cert.KernelIdeal.S50000x128 .f32)
      = (Cert.ReferenceIdeal.Stages.vD1 (F := Ideal) (StableHlo.launchContents m' c) (Proc.devRef .tc Cert.ReferenceIdeal.main_v124) : FVec Ideal Cert.KernelIdeal.S50000x128 .f32)) :
    (Cert.KernelIdeal.Gen.W21 (F := Ideal) m ρ c (Proc.devRef .tc Cert.KernelIdeal.main_v105) : FVec Ideal Cert.KernelIdeal.S50000x128 .f32)
      = (Cert.ReferenceIdeal.Stages.vB1 (F := Ideal) (StableHlo.launchContents m' c) (Proc.devRef .tc Cert.ReferenceIdeal.main_v147) : FVec Ideal Cert.KernelIdeal.S50000x128 .f32) := by

  have e10 : StableHlo.launchContents m' c (Proc.devRef .tc Cert.ReferenceIdeal.main_arg10)
      = m ((c.tc : Thread Cert.KernelIdeal.nD Cert.KernelIdeal.τ).loc Cert.KernelIdeal.main_arg10) := hag.2.2.2.2.2.2.2.2.2.2.1
  have e11 : StableHlo.launchContents m' c (Proc.devRef .tc Cert.ReferenceIdeal.main_arg11)
      = m ((c.tc : Thread Cert.KernelIdeal.nD Cert.KernelIdeal.τ).loc Cert.KernelIdeal.main_arg11) := hag.2.2.2.2.2.2.2.2.2.2.2.1

  have k10 : Cert.KernelIdeal.Gen.W18 (F := Ideal) m ρ c (Proc.devRef .tc Cert.KernelIdeal.main_arg10)
      = m ((c.tc : Thread Cert.KernelIdeal.nD Cert.KernelIdeal.τ).loc Cert.KernelIdeal.main_arg10) := by kread
  have k11 : Cert.KernelIdeal.Gen.W18 (F := Ideal) m ρ c (Proc.devRef .tc Cert.KernelIdeal.main_arg11)
      = m ((c.tc : Thread Cert.KernelIdeal.nD Cert.KernelIdeal.τ).loc Cert.KernelIdeal.main_arg11) := by kread
  have r10 : Cert.ReferenceIdeal.Stages.vD1 (F := Ideal) (StableHlo.launchContents m' c) (Proc.devRef .tc Cert.ReferenceIdeal.main_arg10)
      = StableHlo.launchContents m' c (Proc.devRef .tc Cert.ReferenceIdeal.main_arg10) :=
    Cert.ReferenceIdeal.Keep.vD1_arg (F := Ideal) (StableHlo.launchContents m' c) (by decide)
  have r11 : Cert.ReferenceIdeal.Stages.vD1 (F := Ideal) (StableHlo.launchContents m' c) (Proc.devRef .tc Cert.ReferenceIdeal.main_arg11)
      = StableHlo.launchContents m' c (Proc.devRef .tc Cert.ReferenceIdeal.main_arg11) :=
    Cert.ReferenceIdeal.Keep.vD1_arg (F := Ideal) (StableHlo.launchContents m' c) (by decide)

  dsimp only [Cert.ReferenceIdeal.Stages.vB1]
  generalize Cert.ReferenceIdeal.Stages.vD1 (F := Ideal) (StableHlo.launchContents m' c) = VD at hh r10 r11 ⊢

  walk [Cert.KernelIdeal.Gen.W21, Cert.KernelIdeal.Gen.W20, Cert.KernelIdeal.Gen.W19, Cert.KernelIdeal.Gen.hostOps6, Cert.KernelIdeal.Gen.hostOps6_1, Cert.KernelIdeal.Gen.hostOps6_2, Cert.ReferenceIdeal.Stages.sB1, Cert.ReferenceIdeal.Stages.sB1a, Cert.ReferenceIdeal.Stages.sB1b, Cert.ReferenceIdeal.Stages.sB1c]
  rw [k10, k11, r10, r11, e10, e11]

  generalize Cert.KernelIdeal.Gen.W18 (F := Ideal) m ρ c (Proc.devRef .tc Cert.KernelIdeal.main_v82) = x at hh ⊢
  generalize VD (Proc.devRef .tc Cert.ReferenceIdeal.main_v124) = x' at hh ⊢
  subst hh
  generalize m ((c.tc : Thread Cert.KernelIdeal.nD Cert.KernelIdeal.τ).loc Cert.KernelIdeal.main_arg10) = g
  generalize m ((c.tc : Thread Cert.KernelIdeal.nD Cert.KernelIdeal.τ).loc Cert.KernelIdeal.main_arg11) = b

  rfl

end

end Cert.Bridge.SimBN

end
-- ==== Proof.Bridge.lean ====
import proofs.«427610_j64510408786513_1_alg».proof.Proof.Ctx
import proofs.«427610_j64510408786513_1_alg».proof.Proof.KernelRun
import proofs.«427610_j64510408786513_1_alg».proof.Proof.RefRun
import proofs.«427610_j64510408786513_1_alg».proof.Proof.RefStages
import proofs.«427610_j64510408786513_1_alg».proof.Proof.RefKeep
import proofs.«427610_j64510408786513_1_alg».proof.Proof.Range
import proofs.«427610_j64510408786513_1_alg».proof.Proof.SimH
import proofs.«427610_j64510408786513_1_alg».proof.Proof.SimG
import proofs.«427610_j64510408786513_1_alg».proof.Proof.SimM
import proofs.«427610_j64510408786513_1_alg».proof.Proof.SimD
import proofs.«427610_j64510408786513_1_alg».proof.Proof.SimSame
import proofs.«427610_j64510408786513_1_alg».proof.Proof.SimTail
import proofs.«427610_j64510408786513_1_alg».proof.Proof.SimBN

noncomputable section

namespace Cert.Bridge

open Idealize.ShloMosaic Idealize.SL.Sem

-- Stage by stage the two programs hold equal arrays: per layer the linear map, the two row gathers, the edge messages, their sum into the target nodes, the rectified dense layer and the normalisation; then the pooled three-layer head.
theorem result_eq (m : KMem) (ρ : Dev Cert.KernelIdeal.nD → PrngReg) (m' : RMem) (c : Dev Cert.KernelIdeal.nD)
    (hag : Agree m m' c) (hrg : InRange m c) :
    (Cert.KernelIdeal.Gen.W35 (F := Ideal) m ρ c (Proc.devRef .tc Cert.KernelIdeal.main_v187) : FVec Ideal Cert.KernelIdeal.S50x2 .f32)
      = (Cert.ReferenceIdeal.Stages.vT (F := Ideal) (StableHlo.launchContents m' c) (Proc.devRef .tc Cert.ReferenceIdeal.main_v250) : FVec Ideal Cert.KernelIdeal.S50x2 .f32) := by
  have h0 := SimH.sim_H0 m ρ m' c hag
  have g0 := SimG.sim_G0 m ρ m' c hag hrg h0
  have e0 := SimM.sim_M0 m ρ m' c hag g0.1 g0.2
  have a0 := SimSame.sim_A0 m ρ m' c hag e0
  have d0 := SimD.sim_D0 m ρ m' c hag a0
  have z1 := SimBN.sim_B0 m ρ m' c hag d0
  have h1 := SimH.sim_H1 m ρ m' c hag z1
  have g1 := SimG.sim_G1 m ρ m' c hag hrg h1
  have e1 := SimM.sim_M1 m ρ m' c hag g1.1 g1.2
  have a1 := SimSame.sim_A1 m ρ m' c hag e1
  have d1 := SimD.sim_D1 m ρ m' c hag a1
  have z2 := SimBN.sim_B1 m ρ m' c hag d1
  have h2 := SimH.sim_H2 m ρ m' c hag z2
  have g2 := SimG.sim_G2 m ρ m' c hag hrg h2
  have e2 := SimM.sim_M2 m ρ m' c hag g2.1 g2.2
  have a2 := SimSame.sim_A2 m ρ m' c hag e2
  have d2 := SimD.sim_D2 m ρ m' c hag a2
  exact SimTail.sim_T m ρ m' c hag d2

end Cert.Bridge

end
-- ==== Proof.lean ====
import proofs.«427610_j64510408786513_1_alg».proof.Defs
import proofs.«427610_j64510408786513_1_alg».proof.Proof.Gen.Kernel
import proofs.«427610_j64510408786513_1_alg».proof.Proof.Gen.Kernel.Frame
import proofs.«427610_j64510408786513_1_alg».proof.Proof.Gen.KernelIdeal
import proofs.«427610_j64510408786513_1_alg».proof.Proof.Gen.KernelIdeal.Frame
import proofs.«427610_j64510408786513_1_alg».proof.Proof.Gen.ReferenceIdeal
import proofs.«427610_j64510408786513_1_alg».proof.Proof.Gen.Pre_finite_inputs
import proofs.«427610_j64510408786513_1_alg».proof.Proof.Bridge
import Idealize.ShloMosaic.Adequacy
import Idealize.ShloMosaic.Init

noncomputable section

namespace Cert.Proof

open Idealize.ShloMosaic Idealize.SL.Sem

-- The reference's run leaves every buffer at the fold of its operations, and no operation writes an argument array.
theorem frame_ri : Cert.frame_ReferenceIdeal := fun m ρ _ =>
  (θ_run Cert.ReferenceIdeal.defs _ _).mono (fun r h c =>
    ⟨(h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide))⟩)
    (Cert.ReferenceIdeal.Run.run (F := Ideal) m ρ)

-- The kernel program's run ends with its result at the end of its fold, the reference's at the end of its own, and the two folds agree there.
theorem algebraic : Cert.algebraic_KernelIdeal_ReferenceIdeal := by
  intro m ρ m' ρ' hpre hagree
  refine ⟨fun c => Cert.KernelIdeal.Gen.W35 (F := Ideal) m ρ c (Proc.devRef .tc Cert.KernelIdeal.main_v187),
    Cert.KernelIdeal.Run.run (F := Ideal) m ρ, ?_⟩
  refine (θ_run Cert.ReferenceIdeal.defs _ _).mono (fun r h c => ⟨?_,
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide)),
     (h c _).trans (Cert.ReferenceIdeal.Keep.keep _ (by decide))⟩)
    (Cert.ReferenceIdeal.Run.run (F := Ideal) m' ρ')
  rw [h c Cert.ReferenceIdeal.main_v250, Cert.ReferenceIdeal.Stages.after_refOps]
  exact (Cert.Bridge.result_eq m ρ m' c (hagree c) (Cert.Bridge.Range.inRange_of_pre m hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
